-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15)) (m ((c.tc : Thread Cert.Kernel.nD Cert.Kernel.τ).loc Cert.Kernel.main_arg16)) (m ((c.tc : Thread Cert.Kernel.nD Cert.Kernel.τ).loc Cert.Kernel.main_arg17)) (m ((c.tc : Thread Cert.Kernel.nD Cert.Kernel.τ).loc Cert.Kernel.main_arg18)) (m ((c.tc : Thread Cert.Kernel.nD Cert.Kernel.τ).loc Cert.Kernel.main_arg19)) (m ((c.tc : Thread Cert.Kernel.nD Cert.Kernel.τ).loc Cert.Kernel.main_arg20))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19)) (m ((c.tc : Thread Cert.KernelIdeal.nD Cert.KernelIdeal.τ).loc Cert.KernelIdeal.main_arg20))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18)) (m ((c.tc : Thread Cert.ReferenceIdeal.nD Cert.ReferenceIdeal.τ).loc Cert.ReferenceIdeal.main_arg19)) (m ((c.tc : Thread Cert.ReferenceIdeal.nD Cert.ReferenceIdeal.τ).loc Cert.ReferenceIdeal.main_arg20))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16)
      ∧ r.2.mem ((c.tc : Thread Cert.Kernel.nD Cert.Kernel.τ).loc Cert.Kernel.main_arg17) = m ((c.tc : Thread Cert.Kernel.nD Cert.Kernel.τ).loc Cert.Kernel.main_arg17)
      ∧ r.2.mem ((c.tc : Thread Cert.Kernel.nD Cert.Kernel.τ).loc Cert.Kernel.main_arg18) = m ((c.tc : Thread Cert.Kernel.nD Cert.Kernel.τ).loc Cert.Kernel.main_arg18)
      ∧ r.2.mem ((c.tc : Thread Cert.Kernel.nD Cert.Kernel.τ).loc Cert.Kernel.main_arg19) = m ((c.tc : Thread Cert.Kernel.nD Cert.Kernel.τ).loc Cert.Kernel.main_arg19)
      ∧ r.2.mem ((c.tc : Thread Cert.Kernel.nD Cert.Kernel.τ).loc Cert.Kernel.main_arg20) = m ((c.tc : Thread Cert.Kernel.nD Cert.Kernel.τ).loc Cert.Kernel.main_arg20))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
      ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
      ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
      ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17)
      ∧ r.2.mem ((c.tc : Thread Cert.ReferenceIdeal.nD Cert.ReferenceIdeal.τ).loc Cert.ReferenceIdeal.main_arg18) = m ((c.tc : Thread Cert.ReferenceIdeal.nD Cert.ReferenceIdeal.τ).loc Cert.ReferenceIdeal.main_arg18)
      ∧ r.2.mem ((c.tc : Thread Cert.ReferenceIdeal.nD Cert.ReferenceIdeal.τ).loc Cert.ReferenceIdeal.main_arg19) = m ((c.tc : Thread Cert.ReferenceIdeal.nD Cert.ReferenceIdeal.τ).loc Cert.ReferenceIdeal.main_arg19)
      ∧ r.2.mem ((c.tc : Thread Cert.ReferenceIdeal.nD Cert.ReferenceIdeal.τ).loc Cert.ReferenceIdeal.main_arg20) = m ((c.tc : Thread Cert.ReferenceIdeal.nD Cert.ReferenceIdeal.τ).loc Cert.ReferenceIdeal.main_arg20))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)
      ∧ m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17)
      ∧ m' ((c.tc : Thread Cert.ReferenceIdeal.nD Cert.ReferenceIdeal.τ).loc Cert.ReferenceIdeal.main_arg18) = m ((c.tc : Thread Cert.KernelIdeal.nD Cert.KernelIdeal.τ).loc Cert.KernelIdeal.main_arg18)
      ∧ m' ((c.tc : Thread Cert.ReferenceIdeal.nD Cert.ReferenceIdeal.τ).loc Cert.ReferenceIdeal.main_arg19) = m ((c.tc : Thread Cert.KernelIdeal.nD Cert.KernelIdeal.τ).loc Cert.KernelIdeal.main_arg19)
      ∧ m' ((c.tc : Thread Cert.ReferenceIdeal.nD Cert.ReferenceIdeal.τ).loc Cert.ReferenceIdeal.main_arg20) = m ((c.tc : Thread Cert.KernelIdeal.nD Cert.KernelIdeal.τ).loc Cert.KernelIdeal.main_arg20)) →
    ∃ (v0 : (c : Dev Cert.KernelIdeal.nD) → Buf (Elt Ideal) ((c.tc : Thread Cert.KernelIdeal.nD Cert.KernelIdeal.τ).loc Cert.KernelIdeal.main_v28)) (v1 : (c : Dev Cert.KernelIdeal.nD) → Buf (Elt Ideal) ((c.tc : Thread Cert.KernelIdeal.nD Cert.KernelIdeal.τ).loc Cert.KernelIdeal.main_v9)) (v2 : (c : Dev Cert.KernelIdeal.nD) → Buf (Elt Ideal) ((c.tc : Thread Cert.KernelIdeal.nD Cert.KernelIdeal.τ).loc Cert.KernelIdeal.main_v45)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v28) = v0 c
          ∧ r.2.mem ((c.tc : Thread Cert.KernelIdeal.nD Cert.KernelIdeal.τ).loc Cert.KernelIdeal.main_v9) = v1 c
          ∧ r.2.mem ((c.tc : Thread Cert.KernelIdeal.nD Cert.KernelIdeal.τ).loc Cert.KernelIdeal.main_v45) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
          ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
          ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
          ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
          ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v98) = v0 c
          ∧ r.2.mem ((c.tc : Thread Cert.ReferenceIdeal.nD Cert.ReferenceIdeal.τ).loc Cert.ReferenceIdeal.main_v50) = v1 c
          ∧ r.2.mem ((c.tc : Thread Cert.ReferenceIdeal.nD Cert.ReferenceIdeal.τ).loc Cert.ReferenceIdeal.main_v115) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16)
          ∧ r.2.mem ((c.tc : Thread Cert.ReferenceIdeal.nD Cert.ReferenceIdeal.τ).loc Cert.ReferenceIdeal.main_arg17) = m' ((c.tc : Thread Cert.ReferenceIdeal.nD Cert.ReferenceIdeal.τ).loc Cert.ReferenceIdeal.main_arg17)
          ∧ r.2.mem ((c.tc : Thread Cert.ReferenceIdeal.nD Cert.ReferenceIdeal.τ).loc Cert.ReferenceIdeal.main_arg18) = m' ((c.tc : Thread Cert.ReferenceIdeal.nD Cert.ReferenceIdeal.τ).loc Cert.ReferenceIdeal.main_arg18)
          ∧ r.2.mem ((c.tc : Thread Cert.ReferenceIdeal.nD Cert.ReferenceIdeal.τ).loc Cert.ReferenceIdeal.main_arg19) = m' ((c.tc : Thread Cert.ReferenceIdeal.nD Cert.ReferenceIdeal.τ).loc Cert.ReferenceIdeal.main_arg19)
          ∧ r.2.mem ((c.tc : Thread Cert.ReferenceIdeal.nD Cert.ReferenceIdeal.τ).loc Cert.ReferenceIdeal.main_arg20) = m' ((c.tc : Thread Cert.ReferenceIdeal.nD Cert.ReferenceIdeal.τ).loc Cert.ReferenceIdeal.main_arg20))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x32 : Shape := ⟨2, ![50000, 32]⟩
abbrev S1600000x16 : Shape := ⟨2, ![1600000, 16]⟩
abbrev S1x16 : Shape := ⟨2, ![1, 16]⟩
abbrev S1600000 : Shape := ⟨1, ![1600000]⟩
abbrev S96x128 : Shape := ⟨2, ![96, 128]⟩
abbrev S128 : Shape := ⟨1, ![128]⟩
abbrev S128x16 : Shape := ⟨2, ![128, 16]⟩
abbrev S16 : Shape := ⟨1, ![16]⟩
abbrev S64x128 : Shape := ⟨2, ![64, 128]⟩
abbrev S128x32 : Shape := ⟨2, ![128, 32]⟩
abbrev S32 : Shape := ⟨1, ![32]⟩
abbrev S_ : Shape := ⟨0, ![]⟩

class Facts : Prop where
  bcast_S_S50000x32 : S_.BroadcastsInDim S50000x32 (![] : Fin 0 → Fin S50000x32.rank)
  reducesTo_S50000x32_S_d0_1 : S50000x32.ReducesTo [0, 1] S_
  h_S_ : 0 < S_.numel
  bcast_S_S1600000x16 : S_.BroadcastsInDim S1600000x16 (![] : Fin 0 → Fin S1600000x16.rank)
  reducesTo_S1600000x16_S_d0_1 : S1600000x16.ReducesTo [0, 1] S_
  bcast_S_S1x16 : S_.BroadcastsInDim S1x16 (![] : Fin 0 → Fin S1x16.rank)
  reducesTo_S1x16_S_d0_1 : S1x16.ReducesTo [0, 1] S_
  bcast_S_S96x128 : S_.BroadcastsInDim S96x128 (![] : Fin 0 → Fin S96x128.rank)
  reducesTo_S96x128_S_d0_1 : S96x128.ReducesTo [0, 1] S_
  bcast_S_S128 : S_.BroadcastsInDim S128 (![] : Fin 0 → Fin S128.rank)
  reducesTo_S128_S_d0 : S128.ReducesTo [0] S_
  bcast_S_S128x16 : S_.BroadcastsInDim S128x16 (![] : Fin 0 → Fin S128x16.rank)
  reducesTo_S128x16_S_d0_1 : S128x16.ReducesTo [0, 1] S_
  bcast_S_S16 : S_.BroadcastsInDim S16 (![] : Fin 0 → Fin S16.rank)
  reducesTo_S16_S_d0 : S16.ReducesTo [0] S_
  bcast_S_S64x128 : S_.BroadcastsInDim S64x128 (![] : Fin 0 → Fin S64x128.rank)
  reducesTo_S64x128_S_d0_1 : S64x128.ReducesTo [0, 1] S_
  bcast_S_S128x32 : S_.BroadcastsInDim S128x32 (![] : Fin 0 → Fin S128x32.rank)
  reducesTo_S128x32_S_d0_1 : S128x32.ReducesTo [0, 1] S_
  bcast_S_S32 : S_.BroadcastsInDim S32 (![] : Fin 0 → Fin S32.rank)
  reducesTo_S32_S_d0 : S32.ReducesTo [0] S_
  bcast_S_S1600000 : S_.BroadcastsInDim S1600000 (![] : Fin 0 → Fin S1600000.rank)
  reducesTo_S1600000_S_d0 : S1600000.ReducesTo [0] S_

variable [Facts]

def fn_part6 {F : FTy → Type} [FloatOps F] (main_arg4 : IVec S1600000 32) (main_v100 : IVec S_ 1) (main_v101 : IVec S1600000 32) : IVec S_ 1 :=
  let main_v102 : IVec S1600000 1 := cmpi .sge main_arg4 main_v101
  let main_c_40 : IVec S_ 32 := constantI S_ 32 50000#32
  let main_v103 : IVec S1600000 32 := broadcastInDim S1600000 ![] bcast_S_S1600000 main_c_40
  let main_v104 : IVec S1600000 1 := cmpi .slt main_arg4 main_v103
  let main_v105 : IVec S1600000 1 := andi main_v102 main_v104
  let main_c_41 : IVec S_ 1 := constantI S_ 1 1#1
  let main_v106 : IVec S_ 1 := (fun x v => Host.reduce IntOp.andi x v reducesTo_S1600000_S_d0 h_S_) main_v105 main_c_41
  let main_v107 : IVec S_ 1 := andi main_v100 main_v106
  main_v107

def fn_part5 {F : FTy → Type} [FloatOps F] (main_arg3 : IVec S1600000 32) (main_arg4 : IVec S1600000 32) (main_arg20 : FVec F S16 .f32) (main_v83 : IVec S_ 1) (main_v84 : FVec F S128x16 .f32) (main_cst_32 : FVec F S_ .f32) : IVec S_ 1 :=
  let main_v85 : FVec F S128x16 .f32 := broadcastInDim S128x16 ![] bcast_S_S128x16 main_cst_32
  let main_v86 : IVec S128x16 1 := cmpf .olt main_v84 main_v85
  let main_c_33 : IVec S_ 1 := constantI S_ 1 1#1
  let main_v87 : IVec S_ 1 := (fun x v => Host.reduce IntOp.andi x v reducesTo_S128x16_S_d0_1 h_S_) main_v86 main_c_33
  let main_v88 : IVec S_ 1 := andi main_v83 main_v87
  let main_v89 : FVec F S16 .f32 := Host.absf main_arg20
  let main_cst_34 : FVec F S_ .f32 := constant S_ .f32 0x7F800000#32
  let main_v90 : FVec F S16 .f32 := broadcastInDim S16 ![] bcast_S_S16 main_cst_34
  let main_v91 : IVec S16 1 := cmpf .olt main_v89 main_v90
  let main_c_35 : IVec S_ 1 := constantI S_ 1 1#1
  let main_v92 : IVec S_ 1 := (fun x v => Host.reduce IntOp.andi x v reducesTo_S16_S_d0 h_S_) main_v91 main_c_35
  let main_v93 : IVec S_ 1 := andi main_v88 main_v92
  let main_c_36 : IVec S_ 32 := constantI S_ 32 0#32
  let main_v94 : IVec S1600000 32 := broadcastInDim S1600000 ![] bcast_S_S1600000 main_c_36
  let main_v95 : IVec S1600000 1 := cmpi .sge main_arg3 main_v94
  let main_c_37 : IVec S_ 32 := constantI S_ 32 50000#32
  let main_v96 : IVec S1600000 32 := broadcastInDim S1600000 ![] bcast_S_S1600000 main_c_37
  let main_v97 : IVec S1600000 1 := cmpi .slt main_arg3 main_v96
  let main_v98 : IVec S1600000 1 := andi main_v95 main_v97
  let main_c_38 : IVec S_ 1 := constantI S_ 1 1#1
  let main_v99 : IVec S_ 1 := (fun x v => Host.reduce IntOp.andi x v reducesTo_S1600000_S_d0 h_S_) main_v98 main_c_38
  let main_v100 : IVec S_ 1 := andi main_v93 main_v99
  let main_c_39 : IVec S_ 32 := constantI S_ 32 0#32
  let main_v101 : IVec S1600000 32 := broadcastInDim S1600000 ![] bcast_S_S1600000 main_c_39
  fn_part6 (F := F) main_arg4 main_v100 main_v101

def fn_part4 {F : FTy → Type} [FloatOps F] (main_arg3 : IVec S1600000 32) (main_arg4 : IVec S1600000 32) (main_arg16 : FVec F S32 .f32) (main_arg17 : FVec F S64x128 .f32) (main_arg18 : FVec F S128 .f32) (main_arg19 : FVec F S128x16 .f32) (main_arg20 : FVec F S16 .f32) (main_v63 : IVec S_ 1) (main_v67 : IVec S_ 1) : IVec S_ 1 :=
  let main_v68 : IVec S_ 1 := andi main_v63 main_v67
  let main_v69 : FVec F S32 .f32 := Host.absf main_arg16
  let main_cst_26 : FVec F S_ .f32 := constant S_ .f32 0x7F800000#32
  let main_v70 : FVec F S32 .f32 := broadcastInDim S32 ![] bcast_S_S32 main_cst_26
  let main_v71 : IVec S32 1 := cmpf .olt main_v69 main_v70
  let main_c_27 : IVec S_ 1 := constantI S_ 1 1#1
  let main_v72 : IVec S_ 1 := (fun x v => Host.reduce IntOp.andi x v reducesTo_S32_S_d0 h_S_) main_v71 main_c_27
  let main_v73 : IVec S_ 1 := andi main_v68 main_v72
  let main_v74 : FVec F S64x128 .f32 := Host.absf main_arg17
  let main_cst_28 : FVec F S_ .f32 := constant S_ .f32 0x7F800000#32
  let main_v75 : FVec F S64x128 .f32 := broadcastInDim S64x128 ![] bcast_S_S64x128 main_cst_28
  let main_v76 : IVec S64x128 1 := cmpf .olt main_v74 main_v75
  let main_c_29 : IVec S_ 1 := constantI S_ 1 1#1
  let main_v77 : IVec S_ 1 := (fun x v => Host.reduce IntOp.andi x v reducesTo_S64x128_S_d0_1 h_S_) main_v76 main_c_29
  let main_v78 : IVec S_ 1 := andi main_v73 main_v77
  let main_v79 : FVec F S128 .f32 := Host.absf main_arg18
  let main_cst_30 : FVec F S_ .f32 := constant S_ .f32 0x7F800000#32
  let main_v80 : FVec F S128 .f32 := broadcastInDim S128 ![] bcast_S_S128 main_cst_30
  let main_v81 : IVec S128 1 := cmpf .olt main_v79 main_v80
  let main_c_31 : IVec S_ 1 := constantI S_ 1 1#1
  let main_v82 : IVec S_ 1 := (fun x v => Host.reduce IntOp.andi x v reducesTo_S128_S_d0 h_S_) main_v81 main_c_31
  let main_v83 : IVec S_ 1 := andi main_v78 main_v82
  let main_v84 : FVec F S128x16 .f32 := Host.absf main_arg19
  let main_cst_32 : FVec F S_ .f32 := constant S_ .f32 0x7F800000#32
  fn_part5 (F := F) main_arg3 main_arg4 main_arg20 main_v83 main_v84 main_cst_32

def fn_part3 {F : FTy → Type} [FloatOps F] (main_arg3 : IVec S1600000 32) (main_arg4 : IVec S1600000 32) (main_arg13 : FVec F S128x32 .f32) (main_arg14 : FVec F S32 .f32) (main_arg15 : FVec F S32 .f32) (main_arg16 : FVec F S32 .f32) (main_arg17 : FVec F S64x128 .f32) (main_arg18 : FVec F S128 .f32) (main_arg19 : FVec F S128x16 .f32) (main_arg20 : FVec F S16 .f32) (main_v48 : IVec S_ 1) (main_v49 : FVec F S128 .f32) (main_v50 : FVec F S128 .f32) : IVec S_ 1 :=
  let main_v51 : IVec S128 1 := cmpf .olt main_v49 main_v50
  let main_c_19 : IVec S_ 1 := constantI S_ 1 1#1
  let main_v52 : IVec S_ 1 := (fun x v => Host.reduce IntOp.andi x v reducesTo_S128_S_d0 h_S_) main_v51 main_c_19
  let main_v53 : IVec S_ 1 := andi main_v48 main_v52
  let main_v54 : FVec F S128x32 .f32 := Host.absf main_arg13
  let main_cst_20 : FVec F S_ .f32 := constant S_ .f32 0x7F800000#32
  let main_v55 : FVec F S128x32 .f32 := broadcastInDim S128x32 ![] bcast_S_S128x32 main_cst_20
  let main_v56 : IVec S128x32 1 := cmpf .olt main_v54 main_v55
  let main_c_21 : IVec S_ 1 := constantI S_ 1 1#1
  let main_v57 : IVec S_ 1 := (fun x v => Host.reduce IntOp.andi x v reducesTo_S128x32_S_d0_1 h_S_) main_v56 main_c_21
  let main_v58 : IVec S_ 1 := andi main_v53 main_v57
  let main_v59 : FVec F S32 .f32 := Host.absf main_arg14
  let main_cst_22 : FVec F S_ .f32 := constant S_ .f32 0x7F800000#32
  let main_v60 : FVec F S32 .f32 := broadcastInDim S32 ![] bcast_S_S32 main_cst_22
  let main_v61 : IVec S32 1 := cmpf .olt main_v59 main_v60
  let main_c_23 : IVec S_ 1 := constantI S_ 1 1#1
  let main_v62 : IVec S_ 1 := (fun x v => Host.reduce IntOp.andi x v reducesTo_S32_S_d0 h_S_) main_v61 main_c_23
  let main_v63 : IVec S_ 1 := andi main_v58 main_v62
  let main_v64 : FVec F S32 .f32 := Host.absf main_arg15
  let main_cst_24 : FVec F S_ .f32 := constant S_ .f32 0x7F800000#32
  let main_v65 : FVec F S32 .f32 := broadcastInDim S32 ![] bcast_S_S32 main_cst_24
  let main_v66 : IVec S32 1 := cmpf .olt main_v64 main_v65
  let main_c_25 : IVec S_ 1 := constantI S_ 1 1#1
  let main_v67 : IVec S_ 1 := (fun x v => Host.reduce IntOp.andi x v reducesTo_S32_S_d0 h_S_) main_v66 main_c_25
  fn_part4 (F := F) main_arg3 main_arg4 main_arg16 main_arg17 main_arg18 main_arg19 main_arg20 main_v63 main_v67

def fn_part2 {F : FTy → Type} [FloatOps F] (main_arg3 : IVec S1600000 32) (main_arg4 : IVec S1600000 32) (main_arg9 : FVec F S16 .f32) (main_arg10 : FVec F S16 .f32) (main_arg11 : FVec F S64x128 .f32) (main_arg12 : FVec F S128 .f32) (main_arg13 : FVec F S128x32 .f32) (main_arg14 : FVec F S32 .f32) (main_arg15 : FVec F S32 .f32) (main_arg16 : FVec F S32 .f32) (main_arg17 : FVec F S64x128 .f32) (main_arg18 : FVec F S128 .f32) (main_arg19 : FVec F S128x16 .f32) (main_arg20 : FVec F S16 .f32) (main_v33 : IVec S_ 1) : IVec S_ 1 :=
  let main_v34 : FVec F S16 .f32 := Host.absf main_arg9
  let main_cst_12 : FVec F S_ .f32 := constant S_ .f32 0x7F800000#32
  let main_v35 : FVec F S16 .f32 := broadcastInDim S16 ![] bcast_S_S16 main_cst_12
  let main_v36 : IVec S16 1 := cmpf .olt main_v34 main_v35
  let main_c_13 : IVec S_ 1 := constantI S_ 1 1#1
  let main_v37 : IVec S_ 1 := (fun x v => Host.reduce IntOp.andi x v reducesTo_S16_S_d0 h_S_) main_v36 main_c_13
  let main_v38 : IVec S_ 1 := andi main_v33 main_v37
  let main_v39 : FVec F S16 .f32 := Host.absf main_arg10
  let main_cst_14 : FVec F S_ .f32 := constant S_ .f32 0x7F800000#32
  let main_v40 : FVec F S16 .f32 := broadcastInDim S16 ![] bcast_S_S16 main_cst_14
  let main_v41 : IVec S16 1 := cmpf .olt main_v39 main_v40
  let main_c_15 : IVec S_ 1 := constantI S_ 1 1#1
  let main_v42 : IVec S_ 1 := (fun x v => Host.reduce IntOp.andi x v reducesTo_S16_S_d0 h_S_) main_v41 main_c_15
  let main_v43 : IVec S_ 1 := andi main_v38 main_v42
  let main_v44 : FVec F S64x128 .f32 := Host.absf main_arg11
  let main_cst_16 : FVec F S_ .f32 := constant S_ .f32 0x7F800000#32
  let main_v45 : FVec F S64x128 .f32 := broadcastInDim S64x128 ![] bcast_S_S64x128 main_cst_16
  let main_v46 : IVec S64x128 1 := cmpf .olt main_v44 main_v45
  let main_c_17 : IVec S_ 1 := constantI S_ 1 1#1
  let main_v47 : IVec S_ 1 := (fun x v => Host.reduce IntOp.andi x v reducesTo_S64x128_S_d0_1 h_S_) main_v46 main_c_17
  let main_v48 : IVec S_ 1 := andi main_v43 main_v47
  let main_v49 : FVec F S128 .f32 := Host.absf main_arg12
  let main_cst_18 : FVec F S_ .f32 := constant S_ .f32 0x7F800000#32
  let main_v50 : FVec F S128 .f32 := broadcastInDim S128 ![] bcast_S_S128 main_cst_18
  fn_part3 (F := F) main_arg3 main_arg4 main_arg13 main_arg14 main_arg15 main_arg16 main_arg17 main_arg18 main_arg19 main_arg20 main_v48 main_v49 main_v50

def fn_part1 {F : FTy → Type} [FloatOps F] (main_arg3 : IVec S1600000 32) (main_arg4 : IVec S1600000 32) (main_arg6 : FVec F S128 .f32) (main_arg7 : FVec F S128x16 .f32) (main_arg8 : FVec F S16 .f32) (main_arg9 : FVec F S16 .f32) (main_arg10 : FVec F S16 .f32) (main_arg11 : FVec F S64x128 .f32) (main_arg12 : FVec F S128 .f32) (main_arg13 : FVec F S128x32 .f32) (main_arg14 : FVec F S32 .f32) (main_arg15 : FVec F S32 .f32) (main_arg16 : FVec F S32 .f32) (main_arg17 : FVec F S64x128 .f32) (main_arg18 : FVec F S128 .f32) (main_arg19 : FVec F S128x16 .f32) (main_arg20 : FVec F S16 .f32) (main_v13 : IVec S_ 1) (main_v16 : IVec S96x128 1) : IVec S_ 1 :=
  let main_c_5 : IVec S_ 1 := constantI S_ 1 1#1
  let main_v17 : IVec S_ 1 := (fun x v => Host.reduce IntOp.andi x v reducesTo_S96x128_S_d0_1 h_S_) main_v16 main_c_5
  let main_v18 : IVec S_ 1 := andi main_v13 main_v17
  let main_v19 : FVec F S128 .f32 := Host.absf main_arg6
  let main_cst_6 : FVec F S_ .f32 := constant S_ .f32 0x7F800000#32
  let main_v20 : FVec F S128 .f32 := broadcastInDim S128 ![] bcast_S_S128 main_cst_6
  let main_v21 : IVec S128 1 := cmpf .olt main_v19 main_v20
  let main_c_7 : IVec S_ 1 := constantI S_ 1 1#1
  let main_v22 : IVec S_ 1 := (fun x v => Host.reduce IntOp.andi x v reducesTo_S128_S_d0 h_S_) main_v21 main_c_7
  let main_v23 : IVec S_ 1 := andi main_v18 main_v22
  let main_v24 : FVec F S128x16 .f32 := Host.absf main_arg7
  let main_cst_8 : FVec F S_ .f32 := constant S_ .f32 0x7F800000#32
  let main_v25 : FVec F S128x16 .f32 := broadcastInDim S128x16 ![] bcast_S_S128x16 main_cst_8
  let main_v26 : IVec S128x16 1 := cmpf .olt main_v24 main_v25
  let main_c_9 : IVec S_ 1 := constantI S_ 1 1#1
  let main_v27 : IVec S_ 1 := (fun x v => Host.reduce IntOp.andi x v reducesTo_S128x16_S_d0_1 h_S_) main_v26 main_c_9
  let main_v28 : IVec S_ 1 := andi main_v23 main_v27
  let main_v29 : FVec F S16 .f32 := Host.absf main_arg8
  let main_cst_10 : FVec F S_ .f32 := constant S_ .f32 0x7F800000#32
  let main_v30 : FVec F S16 .f32 := broadcastInDim S16 ![] bcast_S_S16 main_cst_10
  let main_v31 : IVec S16 1 := cmpf .olt main_v29 main_v30
  let main_c_11 : IVec S_ 1 := constantI S_ 1 1#1
  let main_v32 : IVec S_ 1 := (fun x v => Host.reduce IntOp.andi x v reducesTo_S16_S_d0 h_S_) main_v31 main_c_11
  let main_v33 : IVec S_ 1 := andi main_v28 main_v32
  fn_part2 (F := F) main_arg3 main_arg4 main_arg9 main_arg10 main_arg11 main_arg12 main_arg13 main_arg14 main_arg15 main_arg16 main_arg17 main_arg18 main_arg19 main_arg20 main_v33

def fn {F : FTy → Type} [FloatOps F] (main_arg0 : FVec F S50000x32 .f32) (main_arg1 : FVec F S1600000x16 .f32) (main_arg2 : FVec F S1x16 .f32) (main_arg3 : IVec S1600000 32) (main_arg4 : IVec S1600000 32) (main_arg5 : FVec F S96x128 .f32) (main_arg6 : FVec F S128 .f32) (main_arg7 : FVec F S128x16 .f32) (main_arg8 : FVec F S16 .f32) (main_arg9 : FVec F S16 .f32) (main_arg10 : FVec F S16 .f32) (main_arg11 : FVec F S64x128 .f32) (main_arg12 : FVec F S128 .f32) (main_arg13 : FVec F S128x32 .f32) (main_arg14 : FVec F S32 .f32) (main_arg15 : FVec F S32 .f32) (main_arg16 : FVec F S32 .f32) (main_arg17 : FVec F S64x128 .f32) (main_arg18 : FVec F S128 .f32) (main_arg19 : FVec F S128x16 .f32) (main_arg20 : FVec F S16 .f32) : IVec S_ 1 :=
  let main_v0 : FVec F S50000x32 .f32 := Host.absf main_arg0
  let main_cst : FVec F S_ .f32 := constant S_ .f32 0x7F800000#32
  let main_v1 : FVec F S50000x32 .f32 := broadcastInDim S50000x32 ![] bcast_S_S50000x32 main_cst
  let main_v2 : IVec S50000x32 1 := cmpf .olt main_v0 main_v1
  let main_c : IVec S_ 1 := constantI S_ 1 1#1
  let main_v3 : IVec S_ 1 := (fun x v => Host.reduce IntOp.andi x v reducesTo_S50000x32_S_d0_1 h_S_) main_v2 main_c
  let main_v4 : FVec F S1600000x16 .f32 := Host.absf main_arg1
  let main_cst_0 : FVec F S_ .f32 := constant S_ .f32 0x7F800000#32
  let main_v5 : FVec F S1600000x16 .f32 := broadcastInDim S1600000x16 ![] bcast_S_S1600000x16 main_cst_0
  let main_v6 : IVec S1600000x16 1 := cmpf .olt main_v4 main_v5
  let main_c_1 : IVec S_ 1 := constantI S_ 1 1#1
  let main_v7 : IVec S_ 1 := (fun x v => Host.reduce IntOp.andi x v reducesTo_S1600000x16_S_d0_1 h_S_) main_v6 main_c_1
  let main_v8 : IVec S_ 1 := andi main_v3 main_v7
  let main_v9 : FVec F S1x16 .f32 := Host.absf main_arg2
  let main_cst_2 : FVec F S_ .f32 := constant S_ .f32 0x7F800000#32
  let main_v10 : FVec F S1x16 .f32 := broadcastInDim S1x16 ![] bcast_S_S1x16 main_cst_2
  let main_v11 : IVec S1x16 1 := cmpf .olt main_v9 main_v10
  let main_c_3 : IVec S_ 1 := constantI S_ 1 1#1
  let main_v12 : IVec S_ 1 := (fun x v => Host.reduce IntOp.andi x v reducesTo_S1x16_S_d0_1 h_S_) main_v11 main_c_3
  let main_v13 : IVec S_ 1 := andi main_v8 main_v12
  let main_v14 : FVec F S96x128 .f32 := Host.absf main_arg5
  let main_cst_4 : FVec F S_ .f32 := constant S_ .f32 0x7F800000#32
  let main_v15 : FVec F S96x128 .f32 := broadcastInDim S96x128 ![] bcast_S_S96x128 main_cst_4
  let main_v16 : IVec S96x128 1 := cmpf .olt main_v14 main_v15
  fn_part1 (F := F) main_arg3 main_arg4 main_arg6 main_arg7 main_arg8 main_arg9 main_arg10 main_arg11 main_arg12 main_arg13 main_arg14 main_arg15 main_arg16 main_arg17 main_arg18 main_arg19 main_arg20 main_v13 main_v16
-- ==== Kernel.lean ====
abbrev S50000x32 : Shape := ⟨2, ![50000, 32]⟩
abbrev S1600000x16 : Shape := ⟨2, ![1600000, 16]⟩
abbrev S1x16 : Shape := ⟨2, ![1, 16]⟩
abbrev S1600000 : Shape := ⟨1, ![1600000]⟩
abbrev S96x128 : Shape := ⟨2, ![96, 128]⟩
abbrev S128 : Shape := ⟨1, ![128]⟩
abbrev S128x16 : Shape := ⟨2, ![128, 16]⟩
abbrev S16 : Shape := ⟨1, ![16]⟩
abbrev S64x128 : Shape := ⟨2, ![64, 128]⟩
abbrev S128x32 : Shape := ⟨2, ![128, 32]⟩
abbrev S32 : Shape := ⟨1, ![32]⟩
abbrev S_ : Shape := ⟨0, ![]⟩
abbrev S1600000x1 : Shape := ⟨2, ![1600000, 1]⟩
abbrev S1 : Shape := ⟨1, ![1]⟩
abbrev S1x1 : Shape := ⟨2, ![1, 1]⟩
abbrev S1600000x32 : Shape := ⟨2, ![1600000, 32]⟩
abbrev S1600000x96 : Shape := ⟨2, ![1600000, 96]⟩
abbrev S1x128 : Shape := ⟨2, ![1, 128]⟩
abbrev S8000x96 : Shape := ⟨2, ![8000, 96]⟩
abbrev S8000x16 : Shape := ⟨2, ![8000, 16]⟩
abbrev S8000x128 : Shape := ⟨2, ![8000, 128]⟩
abbrev S8000 : Shape := ⟨1, ![8000]⟩
abbrev S8000x1 : Shape := ⟨2, ![8000, 1]⟩
abbrev S1600000x17 : Shape := ⟨2, ![1600000, 17]⟩
abbrev S50000x17 : Shape := ⟨2, ![50000, 17]⟩
abbrev S50000x16 : Shape := ⟨2, ![50000, 16]⟩
abbrev S50000x1 : Shape := ⟨2, ![50000, 1]⟩
abbrev S50000x64 : Shape := ⟨2, ![50000, 64]⟩
abbrev S1x32 : Shape := ⟨2, ![1, 32]⟩
abbrev S2000x64 : Shape := ⟨2, ![2000, 64]⟩
abbrev S2000x32 : Shape := ⟨2, ![2000, 32]⟩
abbrev S2000x128 : Shape := ⟨2, ![2000, 128]⟩
abbrev S2000 : Shape := ⟨1, ![2000]⟩
abbrev S2000x1 : Shape := ⟨2, ![2000, 1]⟩
abbrev S1x64 : Shape := ⟨2, ![1, 64]⟩

abbrev nBuf : Space → Nat
  | .hbm => 122
  | .vmem => 20
  | .smem => 0
  | _ => 0

abbrev bufTy : (tb : Table) → Fin (tcTables nBuf tb) → BufTy
  | .hbm, ⟨0, _⟩ => ⟨S50000x32, .f32⟩
  | .hbm, ⟨1, _⟩ => ⟨S1600000x16, .f32⟩
  | .hbm, ⟨2, _⟩ => ⟨S1x16, .f32⟩
  | .hbm, ⟨3, _⟩ => ⟨S1600000, .i32⟩
  | .hbm, ⟨4, _⟩ => ⟨S1600000, .i32⟩
  | .hbm, ⟨5, _⟩ => ⟨S96x128, .f32⟩
  | .hbm, ⟨6, _⟩ => ⟨S128, .f32⟩
  | .hbm, ⟨7, _⟩ => ⟨S128x16, .f32⟩
  | .hbm, ⟨8, _⟩ => ⟨S16, .f32⟩
  | .hbm, ⟨9, _⟩ => ⟨S16, .f32⟩
  | .hbm, ⟨10, _⟩ => ⟨S16, .f32⟩
  | .hbm, ⟨11, _⟩ => ⟨S64x128, .f32⟩
  | .hbm, ⟨12, _⟩ => ⟨S128, .f32⟩
  | .hbm, ⟨13, _⟩ => ⟨S128x32, .f32⟩
  | .hbm, ⟨14, _⟩ => ⟨S32, .f32⟩
  | .hbm, ⟨15, _⟩ => ⟨S32, .f32⟩
  | .hbm, ⟨16, _⟩ => ⟨S32, .f32⟩
  | .hbm, ⟨17, _⟩ => ⟨S64x128, .f32⟩
  | .hbm, ⟨18, _⟩ => ⟨S128, .f32⟩
  | .hbm, ⟨19, _⟩ => ⟨S128x16, .f32⟩
  | .hbm, ⟨20, _⟩ => ⟨S16, .f32⟩
  | .hbm, ⟨21, _⟩ => ⟨S_, .i32⟩
  | .hbm, ⟨22, _⟩ => ⟨S1600000, .i32⟩
  | .hbm, ⟨23, _⟩ => ⟨S1600000, .i1⟩
  | .hbm, ⟨24, _⟩ => ⟨S_, .i32⟩
  | .hbm, ⟨25, _⟩ => ⟨S1600000, .i32⟩
  | .hbm, ⟨26, _⟩ => ⟨S1600000, .i32⟩
  | .hbm, ⟨27, _⟩ => ⟨S1600000, .i32⟩
  | .hbm, ⟨28, _⟩ => ⟨S1600000x1, .i32⟩
  | .hbm, ⟨29, _⟩ => ⟨S1, .i32⟩
  | .hbm, ⟨30, _⟩ => ⟨S_, .i32⟩
  | .hbm, ⟨31, _⟩ => ⟨S1600000x1, .i32⟩
  | .hbm, ⟨32, _⟩ => ⟨S1600000x1, .i1⟩
  | .hbm, ⟨33, _⟩ => ⟨S1x1, .i32⟩
  | .hbm, ⟨34, _⟩ => ⟨S1600000x1, .i32⟩
  | .hbm, ⟨35, _⟩ => ⟨S1600000x1, .i1⟩
  | .hbm, ⟨36, _⟩ => ⟨S1600000x1, .i1⟩
  | .hbm, ⟨37, _⟩ => ⟨S_, .i1⟩
  | .hbm, ⟨38, _⟩ => ⟨S1600000, .i1⟩
  | .hbm, ⟨39, _⟩ => ⟨S1600000x32, .f32⟩
  | .hbm, ⟨40, _⟩ => ⟨S1600000x32, .i1⟩
  | .hbm, ⟨41, _⟩ => ⟨S_, .f32⟩
  | .hbm, ⟨42, _⟩ => ⟨S1600000x32, .f32⟩
  | .hbm, ⟨43, _⟩ => ⟨S1600000x32, .f32⟩
  | .hbm, ⟨44, _⟩ => ⟨S_, .i32⟩
  | .hbm, ⟨45, _⟩ => ⟨S1600000, .i32⟩
  | .hbm, ⟨46, _⟩ => ⟨S1600000, .i1⟩
  | .hbm, ⟨47, _⟩ => ⟨S_, .i32⟩
  | .hbm, ⟨48, _⟩ => ⟨S1600000, .i32⟩
  | .hbm, ⟨49, _⟩ => ⟨S1600000, .i32⟩
  | .hbm, ⟨50, _⟩ => ⟨S1600000, .i32⟩
  | .hbm, ⟨51, _⟩ => ⟨S1600000x1, .i32⟩
  | .hbm, ⟨52, _⟩ => ⟨S1, .i32⟩
  | .hbm, ⟨53, _⟩ => ⟨S_, .i32⟩
  | .hbm, ⟨54, _⟩ => ⟨S1600000x1, .i32⟩
  | .hbm, ⟨55, _⟩ => ⟨S1600000x1, .i1⟩
  | .hbm, ⟨56, _⟩ => ⟨S1x1, .i32⟩
  | .hbm, ⟨57, _⟩ => ⟨S1600000x1, .i32⟩
  | .hbm, ⟨58, _⟩ => ⟨S1600000x1, .i1⟩
  | .hbm, ⟨59, _⟩ => ⟨S1600000x1, .i1⟩
  | .hbm, ⟨60, _⟩ => ⟨S_, .i1⟩
  | .hbm, ⟨61, _⟩ => ⟨S1600000, .i1⟩
  | .hbm, ⟨62, _⟩ => ⟨S1600000x32, .f32⟩
  | .hbm, ⟨63, _⟩ => ⟨S1600000x32, .i1⟩
  | .hbm, ⟨64, _⟩ => ⟨S_, .f32⟩
  | .hbm, ⟨65, _⟩ => ⟨S1600000x32, .f32⟩
  | .hbm, ⟨66, _⟩ => ⟨S1600000x32, .f32⟩
  | .hbm, ⟨67, _⟩ => ⟨S1600000x16, .f32⟩
  | .hbm, ⟨68, _⟩ => ⟨S1600000x96, .f32⟩
  | .hbm, ⟨69, _⟩ => ⟨S1600000x96, .bf16⟩
  | .hbm, ⟨70, _⟩ => ⟨S1x128, .f32⟩
  | .hbm, ⟨71, _⟩ => ⟨S1x16, .f32⟩
  | .hbm, ⟨72, _⟩ => ⟨S1x16, .f32⟩
  | .hbm, ⟨73, _⟩ => ⟨S1x16, .f32⟩
  | .hbm, ⟨74, _⟩ => ⟨S1600000x16, .f32⟩
  | .hbm, ⟨75, _⟩ => ⟨S_, .f32⟩
  | .hbm, ⟨76, _⟩ => ⟨S1600000x1, .f32⟩
  | .hbm, ⟨77, _⟩ => ⟨S1600000x17, .f32⟩
  | .hbm, ⟨78, _⟩ => ⟨S_, .f32⟩
  | .hbm, ⟨79, _⟩ => ⟨S50000x17, .f32⟩
  | .hbm, ⟨80, _⟩ => ⟨S1600000x1, .i32⟩
  | .hbm, ⟨81, _⟩ => ⟨S50000x17, .f32⟩
  | .hbm, ⟨82, _⟩ => ⟨S50000x16, .f32⟩
  | .hbm, ⟨83, _⟩ => ⟨S50000x1, .f32⟩
  | .hbm, ⟨84, _⟩ => ⟨S_, .f32⟩
  | .hbm, ⟨85, _⟩ => ⟨S50000x1, .f32⟩
  | .hbm, ⟨86, _⟩ => ⟨S50000x1, .f32⟩
  | .hbm, ⟨87, _⟩ => ⟨S50000x16, .f32⟩
  | .hbm, ⟨88, _⟩ => ⟨S50000x16, .f32⟩
  | .hbm, ⟨89, _⟩ => ⟨S50000x16, .f32⟩
  | .hbm, ⟨90, _⟩ => ⟨S50000x64, .f32⟩
  | .hbm, ⟨91, _⟩ => ⟨S50000x64, .bf16⟩
  | .hbm, ⟨92, _⟩ => ⟨S1x128, .f32⟩
  | .hbm, ⟨93, _⟩ => ⟨S1x32, .f32⟩
  | .hbm, ⟨94, _⟩ => ⟨S1x32, .f32⟩
  | .hbm, ⟨95, _⟩ => ⟨S1x32, .f32⟩
  | .hbm, ⟨96, _⟩ => ⟨S50000x32, .f32⟩
  | .hbm, ⟨97, _⟩ => ⟨S_, .f32⟩
  | .hbm, ⟨98, _⟩ => ⟨S32, .f32⟩
  | .hbm, ⟨99, _⟩ => ⟨S1x32, .f32⟩
  | .hbm, ⟨100, _⟩ => ⟨S_, .f32⟩
  | .hbm, ⟨101, _⟩ => ⟨S1x32, .f32⟩
  | .hbm, ⟨102, _⟩ => ⟨S1x32, .f32⟩
  | .hbm, ⟨103, _⟩ => ⟨S_, .f32⟩
  | .hbm, ⟨104, _⟩ => ⟨S16, .f32⟩
  | .hbm, ⟨105, _⟩ => ⟨S1x16, .f32⟩
  | .hbm, ⟨106, _⟩ => ⟨S_, .f32⟩
  | .hbm, ⟨107, _⟩ => ⟨S1x16, .f32⟩
  | .hbm, ⟨108, _⟩ => ⟨S1x16, .f32⟩
  | .hbm, ⟨109, _⟩ => ⟨S1x64, .f32⟩
  | .hbm, ⟨110, _⟩ => ⟨S1x128, .f32⟩
  | .hbm, ⟨111, _⟩ => ⟨S1x128, .f32⟩
  | .hbm, ⟨112, _⟩ => ⟨S1x128, .f32⟩
  | .hbm, ⟨113, _⟩ => ⟨S_, .f32⟩
  | .hbm, ⟨114, _⟩ => ⟨S1x128, .f32⟩
  | .hbm, ⟨115, _⟩ => ⟨S1x128, .f32⟩
  | .hbm, ⟨116, _⟩ => ⟨S1x16, .f32⟩
  | .hbm, ⟨117, _⟩ => ⟨S1x16, .f32⟩
  | .hbm, ⟨118, _⟩ => ⟨S1x16, .f32⟩
  | .hbm, ⟨119, _⟩ => ⟨S_, .f32⟩
  | .hbm, ⟨120, _⟩ => ⟨S1x16, .f32⟩
  | .hbm, ⟨121, _⟩ => ⟨S1x16, .f32⟩
  | .local _ .vmem, ⟨0, _⟩ => ⟨S8000x96, .bf16⟩
  | .local _ .vmem, ⟨1, _⟩ => ⟨S8000x96, .bf16⟩
  | .local _ .vmem, ⟨2, _⟩ => ⟨S96x128, .f32⟩
  | .local _ .vmem, ⟨3, _⟩ => ⟨S1x128, .f32⟩
  | .local _ .vmem, ⟨4, _⟩ => ⟨S128x16, .f32⟩
  | .local _ .vmem, ⟨5, _⟩ => ⟨S1x16, .f32⟩
  | .local _ .vmem, ⟨6, _⟩ => ⟨S1x16, .f32⟩
  | .local _ .vmem, ⟨7, _⟩ => ⟨S1x16, .f32⟩
  | .local _ .vmem, ⟨8, _⟩ => ⟨S8000x16, .f32⟩
  | .local _ .vmem, ⟨9, _⟩ => ⟨S8000x16, .f32⟩
  | .local _ .vmem, ⟨10, _⟩ => ⟨S2000x64, .bf16⟩
  | .local _ .vmem, ⟨11, _⟩ => ⟨S2000x64, .bf16⟩
  | .local _ .vmem, ⟨12, _⟩ => ⟨S64x128, .f32⟩
  | .local _ .vmem, ⟨13, _⟩ => ⟨S1x128, .f32⟩
  | .local _ .vmem, ⟨14, _⟩ => ⟨S128x32, .f32⟩
  | .local _ .vmem, ⟨15, _⟩ => ⟨S1x32, .f32⟩
  | .local _ .vmem, ⟨16, _⟩ => ⟨S1x32, .f32⟩
  | .local _ .vmem, ⟨17, _⟩ => ⟨S1x32, .f32⟩
  | .local _ .vmem, ⟨18, _⟩ => ⟨S2000x32, .f32⟩
  | .local _ .vmem, ⟨19, _⟩ => ⟨S2000x32, .f32⟩
  | _, _ => ⟨S50000x32, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_call0_c : Ref sig .tc := ⟨.hbm, 21, rfl⟩
abbrev main_call0_v0 : Ref sig .tc := ⟨.hbm, 22, rfl⟩
abbrev main_call0_v1 : Ref sig .tc := ⟨.hbm, 23, rfl⟩
abbrev main_call0_c_0 : Ref sig .tc := ⟨.hbm, 24, rfl⟩
abbrev main_call0_v2 : Ref sig .tc := ⟨.hbm, 25, rfl⟩
abbrev main_call0_v3 : Ref sig .tc := ⟨.hbm, 26, rfl⟩
abbrev main_call0_v4 : Ref sig .tc := ⟨.hbm, 27, rfl⟩
abbrev main_call0_v5 : Ref sig .tc := ⟨.hbm, 28, rfl⟩
abbrev main_call0_c_1 : Ref sig .tc := ⟨.hbm, 29, rfl⟩
abbrev main_call0_c_2 : Ref sig .tc := ⟨.hbm, 30, rfl⟩
abbrev main_call0_v6 : Ref sig .tc := ⟨.hbm, 31, rfl⟩
abbrev main_call0_v7 : Ref sig .tc := ⟨.hbm, 32, rfl⟩
abbrev main_call0_v8 : Ref sig .tc := ⟨.hbm, 33, rfl⟩
abbrev main_call0_v9 : Ref sig .tc := ⟨.hbm, 34, rfl⟩
abbrev main_call0_v10 : Ref sig .tc := ⟨.hbm, 35, rfl⟩
abbrev main_call0_v11 : Ref sig .tc := ⟨.hbm, 36, rfl⟩
abbrev main_call0_c_3 : Ref sig .tc := ⟨.hbm, 37, rfl⟩
abbrev main_call0_v12 : Ref sig .tc := ⟨.hbm, 38, rfl⟩
abbrev main_call0_v13 : Ref sig .tc := ⟨.hbm, 39, rfl⟩
abbrev main_call0_v14 : Ref sig .tc := ⟨.hbm, 40, rfl⟩
abbrev main_call0_cst : Ref sig .tc := ⟨.hbm, 41, rfl⟩
abbrev main_call0_v15 : Ref sig .tc := ⟨.hbm, 42, rfl⟩
abbrev main_v0 : Ref sig .tc := ⟨.hbm, 43, rfl⟩
abbrev main_call1_c : Ref sig .tc := ⟨.hbm, 44, rfl⟩
abbrev main_call1_v0 : Ref sig .tc := ⟨.hbm, 45, rfl⟩
abbrev main_call1_v1 : Ref sig .tc := ⟨.hbm, 46, rfl⟩
abbrev main_call1_c_0 : Ref sig .tc := ⟨.hbm, 47, rfl⟩
abbrev main_call1_v2 : Ref sig .tc := ⟨.hbm, 48, rfl⟩
abbrev main_call1_v3 : Ref sig .tc := ⟨.hbm, 49, rfl⟩
abbrev main_call1_v4 : Ref sig .tc := ⟨.hbm, 50, rfl⟩
abbrev main_call1_v5 : Ref sig .tc := ⟨.hbm, 51, rfl⟩
abbrev main_call1_c_1 : Ref sig .tc := ⟨.hbm, 52, rfl⟩
abbrev main_call1_c_2 : Ref sig .tc := ⟨.hbm, 53, rfl⟩
abbrev main_call1_v6 : Ref sig .tc := ⟨.hbm, 54, rfl⟩
abbrev main_call1_v7 : Ref sig .tc := ⟨.hbm, 55, rfl⟩
abbrev main_call1_v8 : Ref sig .tc := ⟨.hbm, 56, rfl⟩
abbrev main_call1_v9 : Ref sig .tc := ⟨.hbm, 57, rfl⟩
abbrev main_call1_v10 : Ref sig .tc := ⟨.hbm, 58, rfl⟩
abbrev main_call1_v11 : Ref sig .tc := ⟨.hbm, 59, rfl⟩
abbrev main_call1_c_3 : Ref sig .tc := ⟨.hbm, 60, rfl⟩
abbrev main_call1_v12 : Ref sig .tc := ⟨.hbm, 61, rfl⟩
abbrev main_call1_v13 : Ref sig .tc := ⟨.hbm, 62, rfl⟩
abbrev main_call1_v14 : Ref sig .tc := ⟨.hbm, 63, rfl⟩
abbrev main_call1_cst : Ref sig .tc := ⟨.hbm, 64, rfl⟩
abbrev main_call1_v15 : Ref sig .tc := ⟨.hbm, 65, rfl⟩
abbrev main_v1 : Ref sig .tc := ⟨.hbm, 66, rfl⟩
abbrev main_v2 : Ref sig .tc := ⟨.hbm, 67, rfl⟩
abbrev main_v3 : Ref sig .tc := ⟨.hbm, 68, rfl⟩
abbrev main_v4 : Ref sig .tc := ⟨.hbm, 69, rfl⟩
abbrev main_v5 : Ref sig .tc := ⟨.hbm, 70, rfl⟩
abbrev main_v6 : Ref sig .tc := ⟨.hbm, 71, rfl⟩
abbrev main_v7 : Ref sig .tc := ⟨.hbm, 72, rfl⟩
abbrev main_v8 : Ref sig .tc := ⟨.hbm, 73, rfl⟩
abbrev main_v9 : Ref sig .tc := ⟨.hbm, 74, rfl⟩
abbrev main_cst : Ref sig .tc := ⟨.hbm, 75, rfl⟩
abbrev main_v10 : Ref sig .tc := ⟨.hbm, 76, rfl⟩
abbrev main_v11 : Ref sig .tc := ⟨.hbm, 77, rfl⟩
abbrev main_cst_0 : Ref sig .tc := ⟨.hbm, 78, rfl⟩
abbrev main_v12 : Ref sig .tc := ⟨.hbm, 79, rfl⟩
abbrev main_v13 : Ref sig .tc := ⟨.hbm, 80, rfl⟩
abbrev main_v14 : Ref sig .tc := ⟨.hbm, 81, rfl⟩
abbrev main_v15 : Ref sig .tc := ⟨.hbm, 82, rfl⟩
abbrev main_v16 : Ref sig .tc := ⟨.hbm, 83, rfl⟩
abbrev main_cst_1 : Ref sig .tc := ⟨.hbm, 84, rfl⟩
abbrev main_v17 : Ref sig .tc := ⟨.hbm, 85, rfl⟩
abbrev main_v18 : Ref sig .tc := ⟨.hbm, 86, rfl⟩
abbrev main_v19 : Ref sig .tc := ⟨.hbm, 87, rfl⟩
abbrev main_v20 : Ref sig .tc := ⟨.hbm, 88, rfl⟩
abbrev main_v21 : Ref sig .tc := ⟨.hbm, 89, rfl⟩
abbrev main_v22 : Ref sig .tc := ⟨.hbm, 90, rfl⟩
abbrev main_v23 : Ref sig .tc := ⟨.hbm, 91, rfl⟩
abbrev main_v24 : Ref sig .tc := ⟨.hbm, 92, rfl⟩
abbrev main_v25 : Ref sig .tc := ⟨.hbm, 93, rfl⟩
abbrev main_v26 : Ref sig .tc := ⟨.hbm, 94, rfl⟩
abbrev main_v27 : Ref sig .tc := ⟨.hbm, 95, rfl⟩
abbrev main_v28 : Ref sig .tc := ⟨.hbm, 96, rfl⟩
abbrev main_cst_2 : Ref sig .tc := ⟨.hbm, 97, rfl⟩
abbrev main_v29 : Ref sig .tc := ⟨.hbm, 98, rfl⟩
abbrev main_v30 : Ref sig .tc := ⟨.hbm, 99, rfl⟩
abbrev main_cst_3 : Ref sig .tc := ⟨.hbm, 100, rfl⟩
abbrev main_v31 : Ref sig .tc := ⟨.hbm, 101, rfl⟩
abbrev main_v32 : Ref sig .tc := ⟨.hbm, 102, rfl⟩
abbrev main_cst_4 : Ref sig .tc := ⟨.hbm, 103, rfl⟩
abbrev main_v33 : Ref sig .tc := ⟨.hbm, 104, rfl⟩
abbrev main_v34 : Ref sig .tc := ⟨.hbm, 105, rfl⟩
abbrev main_cst_5 : Ref sig .tc := ⟨.hbm, 106, rfl⟩
abbrev main_v35 : Ref sig .tc := ⟨.hbm, 107, rfl⟩
abbrev main_v36 : Ref sig .tc := ⟨.hbm, 108, rfl⟩
abbrev main_v37 : Ref sig .tc := ⟨.hbm, 109, rfl⟩
abbrev main_v38 : Ref sig .tc := ⟨.hbm, 110, rfl⟩
abbrev main_v39 : Ref sig .tc := ⟨.hbm, 111, rfl⟩
abbrev main_v40 : Ref sig .tc := ⟨.hbm, 112, rfl⟩
abbrev main_call2_cst : Ref sig .tc := ⟨.hbm, 113, rfl⟩
abbrev main_call2_v0 : Ref sig .tc := ⟨.hbm, 114, rfl⟩
abbrev main_v41 : Ref sig .tc := ⟨.hbm, 115, rfl⟩
abbrev main_v42 : Ref sig .tc := ⟨.hbm, 116, rfl⟩
abbrev main_v43 : Ref sig .tc := ⟨.hbm, 117, rfl⟩
abbrev main_v44 : Ref sig .tc := ⟨.hbm, 118, rfl⟩
abbrev main_call3_cst : Ref sig .tc := ⟨.hbm, 119, rfl⟩
abbrev main_call3_v0 : Ref sig .tc := ⟨.hbm, 120, rfl⟩
abbrev main_v45 : Ref sig .tc := ⟨.hbm, 121, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg7_1 : Ref sig .tc := ⟨.vmem, 9, rfl⟩
abbrev cc1_stg0_0 : Ref sig .tc := ⟨.vmem, 10, rfl⟩
abbrev cc1_stg0_1 : Ref sig .tc := ⟨.vmem, 11, rfl⟩
abbrev cc1_stg1_0 : Ref sig .tc := ⟨.vmem, 12, rfl⟩
abbrev cc1_stg2_0 : Ref sig .tc := ⟨.vmem, 13, rfl⟩
abbrev cc1_stg3_0 : Ref sig .tc := ⟨.vmem, 14, rfl⟩
abbrev cc1_stg4_0 : Ref sig .tc := ⟨.vmem, 15, rfl⟩
abbrev cc1_stg5_0 : Ref sig .tc := ⟨.vmem, 16, rfl⟩
abbrev cc1_stg6_0 : Ref sig .tc := ⟨.vmem, 17, rfl⟩
abbrev cc1_stg7_0 : Ref sig .tc := ⟨.vmem, 18, rfl⟩
abbrev cc1_stg7_1 : Ref sig .tc := ⟨.vmem, 19, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem7_1 : DmaSem sig := 9
abbrev cc1_sem0_0 : DmaSem sig := 10
abbrev cc1_sem0_1 : DmaSem sig := 11
abbrev cc1_sem1_0 : DmaSem sig := 12
abbrev cc1_sem2_0 : DmaSem sig := 13
abbrev cc1_sem3_0 : DmaSem sig := 14
abbrev cc1_sem4_0 : DmaSem sig := 15
abbrev cc1_sem5_0 : DmaSem sig := 16
abbrev cc1_sem6_0 : DmaSem sig := 17
abbrev cc1_sem7_0 : DmaSem sig := 18
abbrev cc1_sem7_1 : DmaSem sig := 19

abbrev nD : Nat := 1
abbrev τ : Topo := Topo.v7x

variable {F : FTy → Type} [FloatOps F]

abbrev grid0 : Pipeline.Grid := ⟨1, ![200], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S8000x96 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S96x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S128x16 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x16 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x16 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x16 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S8000x16 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev grid1 : Pipeline.Grid := ⟨1, ![25], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_7 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S2000x64 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S64x128 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S1x128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S128x32 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S1x32 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S1x32 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 1 → Memref sig .tc .vmem S1x32 .f32 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))
abbrev reads1_6 : Fin grid1.rank → Bool := ![false]

abbrev stage1_7 : Fin 2 → Memref sig .tc .vmem S2000x32 .f32 := fun | 0 => Memref.whole cc1_stg7_0 | 1 => Memref.whole cc1_stg7_1 | ⟨_ + 2, h⟩ => absurd h (Nat.not_lt.2 (Nat.le_add_left _ _))
abbrev sem1_7 : Fin 2 → DmaSem sig := fun | 0 => cc1_sem7_0 | 1 => cc1_sem7_1 | ⟨_ + 2, h⟩ => absurd h (Nat.not_lt.2 (Nat.le_add_left _ _))
abbrev reads1_7 : Fin grid1.rank → Bool := ![true]

class Facts₀ : Prop where
  bcast_S_S1600000 : S_.BroadcastsInDim S1600000 (![] : Fin 0 → Fin S1600000.rank)
  bcast_S1600000_S1600000x1_0 : S1600000.BroadcastsInDim S1600000x1 (![0] : Fin 1 → Fin S1600000x1.rank)
  bcast_S_S1600000x1 : S_.BroadcastsInDim S1600000x1 (![] : Fin 0 → Fin S1600000x1.rank)
  bcast_S1_S1x1_1 : S1.BroadcastsInDim S1x1 (![1] : Fin 1 → Fin S1x1.rank)
  bcast_S1x1_S1600000x1_0_1 : S1x1.BroadcastsInDim S1600000x1 (![0, 1] : Fin 2 → Fin S1600000x1.rank)
  reducesTo_S1600000x1_S1600000_d1 : S1600000x1.ReducesTo [1] S1600000
  h_S_ : 0 < S_.numel
  bcast_S1600000_S1600000x32_0 : S1600000.BroadcastsInDim S1600000x32 (![0] : Fin 1 → Fin S1600000x32.rank)
  bcast_S_S1600000x32 : S_.BroadcastsInDim S1600000x32 (![] : Fin 0 → Fin S1600000x32.rank)
  bcast_S1x16_S1600000x16_0_1 : S1x16.BroadcastsInDim S1600000x16 (![0, 1] : Fin 2 → Fin S1600000x16.rank)
  concatenates_S1600000x16_S1600000x32_S1600000x32_S1600000x16_S1600000x96_d1 : Shape.Concatenates [S1600000x16, S1600000x32, S1600000x32, S1600000x16] S1600000x96 1
  bitsLt_bf16_f32 : FTy.bits .bf16 < FTy.bits .f32
  shapeCasts_S128_S1x128 : S128.ShapeCasts S1x128
  shapeCasts_S16_S1x16 : S16.ShapeCasts S1x16
  inb_S8000x96_S8000x96_0_0 : ∀ a, (![0, 0] : Fin 2 → Nat) a + S8000x96.size a ≤ S8000x96.size a
  h_S8000x96 : 0 < S8000x96.numel
  shapeCasts_S8000x96_S8000x96 : S8000x96.ShapeCasts S8000x96
  inb_S96x128_S96x128_0_0 : ∀ a, (![0, 0] : Fin 2 → Nat) a + S96x128.size a ≤ S96x128.size a
  h_S96x128 : 0 < S96x128.numel
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S8000x128 : S1x128.Broadcasts S8000x128
  inb_S128x16_S128x16_0_0 : ∀ a, (![0, 0] : Fin 2 → Nat) a + S128x16.size a ≤ S128x16.size a
  h_S128x16 : 0 < S128x16.numel
  inb_S1x16_S1x16_0_0 : ∀ a, (![0, 0] : Fin 2 → Nat) a + S1x16.size a ≤ S1x16.size a
  h_S1x16 : 0 < S1x16.numel
  shapeCasts_S1x16_S1x16 : S1x16.ShapeCasts S1x16
  broadcasts_S1x16_S8000x16 : S1x16.Broadcasts S8000x16
  reduces_S8000x16_S8000 : S8000x16.Reduces [1] S8000
  shapeCasts_S8000_S8000x1 : S8000.ShapeCasts S8000x1
  broadcasts_S8000x1_S8000x16 : S8000x1.Broadcasts S8000x16
  inb_S8000x16_S8000x16_0_0 : ∀ a, (![0, 0] : Fin 2 → Nat) a + S8000x16.size a ≤ S8000x16.size a
  h_S8000x16 : 0 < S8000x16.numel
  concatenates_S1600000x16_S1600000x1_S1600000x17_d1 : Shape.Concatenates [S1600000x16, S1600000x1] S1600000x17 1
  bcast_S_S50000x17 : S_.BroadcastsInDim S50000x17 (![] : Fin 0 → Fin S50000x17.rank)
  slices_S50000x17_S50000x16_0_0 : S50000x17.Slices ![0, 0] S50000x16
  slices_S50000x17_S50000x1_0_16 : S50000x17.Slices ![0, 16] S50000x1
  bcast_S_S50000x1 : S_.BroadcastsInDim S50000x1 (![] : Fin 0 → Fin S50000x1.rank)
  bcast_S50000x1_S50000x16_0_1 : S50000x1.BroadcastsInDim S50000x16 (![0, 1] : Fin 2 → Fin S50000x16.rank)
  bcast_S1x16_S50000x16_0_1 : S1x16.BroadcastsInDim S50000x16 (![0, 1] : Fin 2 → Fin S50000x16.rank)
  concatenates_S50000x32_S50000x16_S50000x16_S50000x64_d1 : Shape.Concatenates [S50000x32, S50000x16, S50000x16] S50000x64 1
  shapeCasts_S32_S1x32 : S32.ShapeCasts S1x32
  inb_S2000x64_S2000x64_0_0 : ∀ a, (![0, 0] : Fin 2 → Nat) a + S2000x64.size a ≤ S2000x64.size a
  h_S2000x64 : 0 < S2000x64.numel
  shapeCasts_S2000x64_S2000x64 : S2000x64.ShapeCasts S2000x64
  inb_S64x128_S64x128_0_0 : ∀ a, (![0, 0] : Fin 2 → Nat) a + S64x128.size a ≤ S64x128.size a
  h_S64x128 : 0 < S64x128.numel
  broadcasts_S1x128_S2000x128 : S1x128.Broadcasts S2000x128
  inb_S128x32_S128x32_0_0 : ∀ a, (![0, 0] : Fin 2 → Nat) a + S128x32.size a ≤ S128x32.size a
  h_S128x32 : 0 < S128x32.numel
  inb_S1x32_S1x32_0_0 : ∀ a, (![0, 0] : Fin 2 → Nat) a + S1x32.size a ≤ S1x32.size a
  h_S1x32 : 0 < S1x32.numel
  shapeCasts_S1x32_S1x32 : S1x32.ShapeCasts S1x32
  broadcasts_S1x32_S2000x32 : S1x32.Broadcasts S2000x32
  reduces_S2000x32_S2000 : S2000x32.Reduces [1] S2000
  shapeCasts_S2000_S2000x1 : S2000.ShapeCasts S2000x1
  broadcasts_S2000x1_S2000x32 : S2000x1.Broadcasts S2000x32
  inb_S2000x32_S2000x32_0_0 : ∀ a, (![0, 0] : Fin 2 → Nat) a + S2000x32.size a ≤ S2000x32.size a
  h_S2000x32 : 0 < S2000x32.numel
  reducesTo_S50000x32_S32_d0 : S50000x32.ReducesTo [0] S32
  bcast_S32_S1x32_1 : S32.BroadcastsInDim S1x32 (![1] : Fin 1 → Fin S1x32.rank)
  bcast_S_S1x32 : S_.BroadcastsInDim S1x32 (![] : Fin 0 → Fin S1x32.rank)
  reducesTo_S50000x16_S16_d0 : S50000x16.ReducesTo [0] S16
  bcast_S16_S1x16_1 : S16.BroadcastsInDim S1x16 (![1] : Fin 1 → Fin S1x16.rank)
  bcast_S_S1x16 : S_.BroadcastsInDim S1x16 (![] : Fin 0 → Fin S1x16.rank)
  concatenates_S1x16_S1x32_S1x16_S1x64_d1 : Shape.Concatenates [S1x16, S1x32, S1x16] S1x64 1
  bcast_S128_S1x128_1 : S128.BroadcastsInDim S1x128 (![1] : Fin 1 → Fin S1x128.rank)
  bcast_S_S1x128 : S_.BroadcastsInDim S1x128 (![] : Fin 0 → Fin S1x128.rank)
  gather_S50000x32_S1600000x1_S1600000x32_1_0_n_n_0_1_132_wf : GatherDims.WF S50000x32 S1600000x1 S1600000x32 [1] [0] [] [0] [] 1 ![1, 32]
  dot_S8000x96_S96x128_S8000x128_1_0_0_1_n_n_wf : DotDims.WF S8000x96 S96x128 S8000x128 [1] [0] [0] [1] [] []
  dot_S8000x128_S128x16_S8000x16_1_0_0_1_n_n_wf : DotDims.WF S8000x128 S128x16 S8000x16 [1] [0] [0] [1] [] []
  scatter_S50000x17_S1600000x1_S1600000x17_1_0_0_1_wf : ScatterDims.WF S50000x17 S1600000x1 S1600000x17 [1] [0] [0] 1
  dot_S2000x64_S64x128_S2000x128_1_0_0_1_n_n_wf : DotDims.WF S2000x64 S64x128 S2000x128 [1] [0] [0] [1] [] []
  dot_S2000x128_S128x32_S2000x32_1_0_0_1_n_n_wf : DotDims.WF S2000x128 S128x32 S2000x32 [1] [0] [0] [1] [] []
  dot_S1x64_S64x128_S1x128_1_0_0_1_n_n_wf : DotDims.WF S1x64 S64x128 S1x128 [1] [0] [0] [1] [] []
  dot_S1x128_S128x16_S1x16_1_0_0_1_n_n_wf : DotDims.WF S1x128 S128x16 S1x16 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S8000x96.size a ≤ S1600000x96.size a
  hwx0_0 : ∀ i : grid0.Coords, EltTy.bits .bf16 = 32 ∨ (Rect.block (s := S1600000x96) S8000x96.size (cc0_transform_0 i) (hinb0_0 i)).WholeWords (EltTy.packing .bf16)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S96x128.size a ≤ S96x128.size a
  hwx0_1 : ∀ i : grid0.Coords, EltTy.bits .f32 = 32 ∨ (Rect.block (s := S96x128) S96x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x128.size a ≤ S1x128.size a
  hwx0_2 : ∀ i : grid0.Coords, EltTy.bits .f32 = 32 ∨ (Rect.block (s := S1x128) S1x128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S128x16.size a ≤ S128x16.size a
  hwx0_3 : ∀ i : grid0.Coords, EltTy.bits .f32 = 32 ∨ (Rect.block (s := S128x16) S128x16.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x16.size a ≤ S1x16.size a
  hwx0_4 : ∀ i : grid0.Coords, EltTy.bits .f32 = 32 ∨ (Rect.block (s := S1x16) S1x16.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1x16.size a ≤ S1x16.size a
  hwx0_5 : ∀ i : grid0.Coords, EltTy.bits .f32 = 32 ∨ (Rect.block (s := S1x16) S1x16.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S1x16.size a ≤ S1x16.size a
  hwx0_6 : ∀ i : grid0.Coords, EltTy.bits .f32 = 32 ∨ (Rect.block (s := S1x16) S1x16.size (cc0_transform_6 i) (hinb0_6 i)).WholeWords (EltTy.packing .f32)
  hstage0_7 : ∀ j, (stage0_7 j).IsWhole
  nbuf0_7 : grid0.bufCount reads0_7 false = 2
  hreads0_7 : ∀ i i' : grid0.Coords, (∀ a, reads0_7 a = true → i a = i' a) → cc0_transform_7 i = cc0_transform_7 i'
  hinb0_7 : ∀ (i : grid0.Coords) a, (cc0_transform_7 i a + 1) * S8000x16.size a ≤ S1600000x16.size a
  hwx0_7 : ∀ i : grid0.Coords, EltTy.bits .f32 = 32 ∨ (Rect.block (s := S1600000x16) S8000x16.size (cc0_transform_7 i) (hinb0_7 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S2000x64.size a ≤ S50000x64.size a
  hwx1_0 : ∀ i : grid1.Coords, EltTy.bits .bf16 = 32 ∨ (Rect.block (s := S50000x64) S2000x64.size (cc1_transform_0 i) (hinb1_0 i)).WholeWords (EltTy.packing .bf16)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S64x128.size a ≤ S64x128.size a
  hwx1_1 : ∀ i : grid1.Coords, EltTy.bits .f32 = 32 ∨ (Rect.block (s := S64x128) S64x128.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x128.size a ≤ S1x128.size a
  hwx1_2 : ∀ i : grid1.Coords, EltTy.bits .f32 = 32 ∨ (Rect.block (s := S1x128) S1x128.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S128x32.size a ≤ S128x32.size a
  hwx1_3 : ∀ i : grid1.Coords, EltTy.bits .f32 = 32 ∨ (Rect.block (s := S128x32) S128x32.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S1x32.size a ≤ S1x32.size a
  hwx1_4 : ∀ i : grid1.Coords, EltTy.bits .f32 = 32 ∨ (Rect.block (s := S1x32) S1x32.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S1x32.size a ≤ S1x32.size a
  hwx1_5 : ∀ i : grid1.Coords, EltTy.bits .f32 = 32 ∨ (Rect.block (s := S1x32) S1x32.size (cc1_transform_5 i) (hinb1_5 i)).WholeWords (EltTy.packing .f32)
  hstage1_6 : ∀ j, (stage1_6 j).IsWhole
  nbuf1_6 : grid1.bufCount reads1_6 true = 1
  hreads1_6 : ∀ i i' : grid1.Coords, (∀ a, reads1_6 a = true → i a = i' a) → cc1_transform_6 i = cc1_transform_6 i'
  hinb1_6 : ∀ (i : grid1.Coords) a, (cc1_transform_6 i a + 1) * S1x32.size a ≤ S1x32.size a
  hwx1_6 : ∀ i : grid1.Coords, EltTy.bits .f32 = 32 ∨ (Rect.block (s := S1x32) S1x32.size (cc1_transform_6 i) (hinb1_6 i)).WholeWords (EltTy.packing .f32)
  hstage1_7 : ∀ j, (stage1_7 j).IsWhole
  nbuf1_7 : grid1.bufCount reads1_7 false = 2
  hreads1_7 : ∀ i i' : grid1.Coords, (∀ a, reads1_7 a = true → i a = i' a) → cc1_transform_7 i = cc1_transform_7 i'
  hinb1_7 : ∀ (i : grid1.Coords) a, (cc1_transform_7 i a + 1) * S2000x32.size a ≤ S50000x32.size a
  hwx1_7 : ∀ i : grid1.Coords, EltTy.bits .f32 = 32 ∨ (Rect.block (s := S50000x32) S2000x32.size (cc1_transform_7 i) (hinb1_7 i)).WholeWords (EltTy.packing .f32)

variable [Facts₀]

def gather_S50000x32_S1600000x1_S1600000x32_1_0_n_n_0_1_132 : GatherDims S50000x32 S1600000x1 S1600000x32 where
  offsetDims := [1]
  collapsedSliceDims := [0]
  operandBatchingDims := []
  startIndicesBatchingDims := []
  startIndexMap := [0]
  indexVectorDim := 1
  sliceSizes := ![1, 32]
  wf := gather_S50000x32_S1600000x1_S1600000x32_1_0_n_n_0_1_132_wf
def dot_S8000x96_S96x128_S8000x128_1_0_0_1_n_n : DotDims S8000x96 S96x128 S8000x128 where
  lhsContracting := [1]
  rhsContracting := [0]
  lhsNonContracting := [0]
  rhsNonContracting := [1]
  lhsBatch := []
  rhsBatch := []
  wf := dot_S8000x96_S96x128_S8000x128_1_0_0_1_n_n_wf
def dot_S8000x128_S128x16_S8000x16_1_0_0_1_n_n : DotDims S8000x128 S128x16 S8000x16 where
  lhsContracting := [1]
  rhsContracting := [0]
  lhsNonContracting := [0]
  rhsNonContracting := [1]
  lhsBatch := []
  rhsBatch := []
  wf := dot_S8000x128_S128x16_S8000x16_1_0_0_1_n_n_wf
def scatter_S50000x17_S1600000x1_S1600000x17_1_0_0_1 : ScatterDims S50000x17 S1600000x1 S1600000x17 where
  updateWindowDims := [1]
  insertedWindowDims := [0]
  scatterDimsToOperandDims := [0]
  indexVectorDim := 1
  wf := scatter_S50000x17_S1600000x1_S1600000x17_1_0_0_1_wf
def dot_S2000x64_S64x128_S2000x128_1_0_0_1_n_n : DotDims S2000x64 S64x128 S2000x128 where
  lhsContracting := [1]
  rhsContracting := [0]
  lhsNonContracting := [0]
  rhsNonContracting := [1]
  lhsBatch := []
  rhsBatch := []
  wf := dot_S2000x64_S64x128_S2000x128_1_0_0_1_n_n_wf
def dot_S2000x128_S128x32_S2000x32_1_0_0_1_n_n : DotDims S2000x128 S128x32 S2000x32 where
  lhsContracting := [1]
  rhsContracting := [0]
  lhsNonContracting := [0]
  rhsNonContracting := [1]
  lhsBatch := []
  rhsBatch := []
  wf := dot_S2000x128_S128x32_S2000x32_1_0_0_1_n_n_wf
def dot_S1x64_S64x128_S1x128_1_0_0_1_n_n : DotDims S1x64 S64x128 S1x128 where
  lhsContracting := [1]
  rhsContracting := [0]
  lhsNonContracting := [0]
  rhsNonContracting := [1]
  lhsBatch := []
  rhsBatch := []
  wf := dot_S1x64_S64x128_S1x128_1_0_0_1_n_n_wf
def dot_S1x128_S128x16_S1x16_1_0_0_1_n_n : DotDims S1x128 S128x16 S1x16 where
  lhsContracting := [1]
  rhsContracting := [0]
  lhsNonContracting := [0]
  rhsNonContracting := [1]
  lhsBatch := []
  rhsBatch := []
  wf := dot_S1x128_S128x16_S1x16_1_0_0_1_n_n_wf

abbrev win0_0 : Pipeline.Window sig grid0 :=
  Pipeline.Window.ofSpec (Memref.whole main_v4) S8000x96.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg5) S96x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v5) S1x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg7) S128x16.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v6) S1x16.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v7) S1x16.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v8) S1x16.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v9) S8000x16.size cc0_transform_7 reads0_7 true false 2 stage0_7 sem0_7
    hrank0 hreads0_7 hinb0_7 nbuf0_7 (Memref.isWhole_whole _) hwx0_7 hstage0_7

abbrev win0 : Fin 8 → Pipeline.Window sig grid0 := fun | 0 => win0_0 | 1 => win0_1 | 2 => win0_2 | 3 => win0_3 | 4 => win0_4 | 5 => win0_5 | 6 => win0_6 | 7 => win0_7 | ⟨_ + 8, h⟩ => absurd h (Nat.not_lt.2 (Nat.le_add_left _ _))
abbrev spec0 : Fin 8 → Pipeline.WinSpec sig grid0.rank := fun w => (win0 w).toWinSpec

abbrev win1_0 : Pipeline.Window sig grid1 :=
  Pipeline.Window.ofSpec (Memref.whole main_v23) S2000x64.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg11) S64x128.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v24) S1x128.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_arg13) S128x32.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v25) S1x32.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v26) S1x32.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_v27) S1x32.size cc1_transform_6 reads1_6 false true 1 stage1_6 sem1_6
    hrank1 hreads1_6 hinb1_6 nbuf1_6 (Memref.isWhole_whole _) hwx1_6 hstage1_6

abbrev win1_7 : Pipeline.Window sig grid1 :=
  Pipeline.Window.ofSpec (Memref.whole main_v28) S2000x32.size cc1_transform_7 reads1_7 true false 2 stage1_7 sem1_7
    hrank1 hreads1_7 hinb1_7 nbuf1_7 (Memref.isWhole_whole _) hwx1_7 hstage1_7

abbrev win1 : Fin 8 → Pipeline.Window sig grid1 := fun | 0 => win1_0 | 1 => win1_1 | 2 => win1_2 | 3 => win1_3 | 4 => win1_4 | 5 => win1_5 | 6 => win1_6 | 7 => win1_7 | ⟨_ + 8, h⟩ => absurd h (Nat.not_lt.2 (Nat.le_add_left _ _))
abbrev spec1 : Fin 8 → Pipeline.WinSpec sig grid1.rank := fun w => (win1 w).toWinSpec

class Facts : Prop extends Facts₀ where

variable [Facts]
-- ==== ReferenceIdeal.lean ====
abbrev S50000x32 : Shape := ⟨2, ![50000, 32]⟩
abbrev S1600000x16 : Shape := ⟨2, ![1600000, 16]⟩
abbrev S1x16 : Shape := ⟨2, ![1, 16]⟩
abbrev S1600000 : Shape := ⟨1, ![1600000]⟩
abbrev S96x128 : Shape := ⟨2, ![96, 128]⟩
abbrev S128 : Shape := ⟨1, ![128]⟩
abbrev S128x16 : Shape := ⟨2, ![128, 16]⟩
abbrev S16 : Shape := ⟨1, ![16]⟩
abbrev S64x128 : Shape := ⟨2, ![64, 128]⟩
abbrev S128x32 : Shape := ⟨2, ![128, 32]⟩
abbrev S32 : Shape := ⟨1, ![32]⟩
abbrev S_ : Shape := ⟨0, ![]⟩
abbrev S1600000x1 : Shape := ⟨2, ![1600000, 1]⟩
abbrev S1600000x32 : Shape := ⟨2, ![1600000, 32]⟩
abbrev S1600000x96 : Shape := ⟨2, ![1600000, 96]⟩
abbrev S1600000x128 : Shape := ⟨2, ![1600000, 128]⟩
abbrev S1x128 : Shape := ⟨2, ![1, 128]⟩
abbrev S50000x16 : Shape := ⟨2, ![50000, 16]⟩
abbrev S50000x1 : Shape := ⟨2, ![50000, 1]⟩
abbrev S50000x64 : Shape := ⟨2, ![50000, 64]⟩
abbrev S50000x128 : Shape := ⟨2, ![50000, 128]⟩
abbrev S1x32 : Shape := ⟨2, ![1, 32]⟩
abbrev S50000 : Shape := ⟨1, ![50000]⟩
abbrev S1x64 : Shape := ⟨2, ![1, 64]⟩

abbrev nBuf : Space → Nat
  | .hbm => 171
  | .vmem => 0
  | .smem => 0
  | _ => 0

abbrev hbmTy0_0 (i : Nat) : BufTy := match i % 128 with
  | 0 => ⟨S50000x32, .f32⟩
  | 1 => ⟨S1600000x16, .f32⟩
  | 2 => ⟨S1x16, .f32⟩
  | 3 => ⟨S1600000, .i32⟩
  | 4 => ⟨S1600000, .i32⟩
  | 5 => ⟨S96x128, .f32⟩
  | 6 => ⟨S128, .f32⟩
  | 7 => ⟨S128x16, .f32⟩
  | 8 => ⟨S16, .f32⟩
  | 9 => ⟨S16, .f32⟩
  | 10 => ⟨S16, .f32⟩
  | 11 => ⟨S64x128, .f32⟩
  | 12 => ⟨S128, .f32⟩
  | 13 => ⟨S128x32, .f32⟩
  | 14 => ⟨S32, .f32⟩
  | 15 => ⟨S32, .f32⟩
  | 16 => ⟨S32, .f32⟩
  | 17 => ⟨S64x128, .f32⟩
  | 18 => ⟨S128, .f32⟩
  | 19 => ⟨S128x16, .f32⟩
  | 20 => ⟨S16, .f32⟩
  | 21 => ⟨S16, .f32⟩
  | 22 => ⟨S1600000x16, .f32⟩
  | 23 => ⟨S_, .i32⟩
  | 24 => ⟨S1600000, .i32⟩
  | 25 => ⟨S1600000, .i1⟩
  | 26 => ⟨S_, .i32⟩
  | 27 => ⟨S1600000, .i32⟩
  | 28 => ⟨S1600000, .i32⟩
  | 29 => ⟨S1600000, .i32⟩
  | 30 => ⟨S1600000x1, .i32⟩
  | 31 => ⟨S1600000x32, .f32⟩
  | 32 => ⟨S_, .i32⟩
  | 33 => ⟨S1600000, .i32⟩
  | 34 => ⟨S1600000, .i1⟩
  | 35 => ⟨S_, .i32⟩
  | 36 => ⟨S1600000, .i32⟩
  | 37 => ⟨S1600000, .i32⟩
  | 38 => ⟨S1600000, .i32⟩
  | 39 => ⟨S1600000x1, .i32⟩
  | 40 => ⟨S1600000x32, .f32⟩
  | 41 => ⟨S1600000x96, .f32⟩
  | 42 => ⟨S1600000x128, .f32⟩
  | 43 => ⟨S1x128, .f32⟩
  | 44 => ⟨S1600000x128, .f32⟩
  | 45 => ⟨S1600000x128, .f32⟩
  | 46 => ⟨S_, .f32⟩
  | 47 => ⟨S1600000x128, .f32⟩
  | 48 => ⟨S1600000x128, .f32⟩
  | 49 => ⟨S1600000x16, .f32⟩
  | 50 => ⟨S1x16, .f32⟩
  | 51 => ⟨S1600000x16, .f32⟩
  | 52 => ⟨S1600000x16, .f32⟩
  | 53 => ⟨S_, .f32⟩
  | 54 => ⟨S1600000x16, .f32⟩
  | 55 => ⟨S1600000x16, .f32⟩
  | 56 => ⟨S_, .f32⟩
  | 57 => ⟨S1600000, .f32⟩
  | 58 => ⟨S1600000x1, .f32⟩
  | 59 => ⟨S_, .f32⟩
  | 60 => ⟨S1600000x1, .f32⟩
  | 61 => ⟨S1600000x1, .f32⟩
  | 62 => ⟨S1600000x16, .f32⟩
  | 63 => ⟨S1600000x16, .f32⟩
  | 64 => ⟨S1600000x16, .f32⟩
  | 65 => ⟨S_, .f32⟩
  | 66 => ⟨S1600000, .f32⟩
  | 67 => ⟨S1600000x1, .f32⟩
  | 68 => ⟨S_, .f32⟩
  | 69 => ⟨S1600000x1, .f32⟩
  | 70 => ⟨S1600000x1, .f32⟩
  | 71 => ⟨S1600000x16, .f32⟩
  | 72 => ⟨S1600000x16, .f32⟩
  | 73 => ⟨S_, .f32⟩
  | 74 => ⟨S1600000x1, .f32⟩
  | 75 => ⟨S1600000x1, .f32⟩
  | 76 => ⟨S1600000x1, .f32⟩
  | 77 => ⟨S1600000x16, .f32⟩
  | 78 => ⟨S1600000x16, .f32⟩
  | 79 => ⟨S1x16, .f32⟩
  | 80 => ⟨S1600000x16, .f32⟩
  | 81 => ⟨S1600000x16, .f32⟩
  | 82 => ⟨S1x16, .f32⟩
  | 83 => ⟨S1600000x16, .f32⟩
  | 84 => ⟨S1600000x16, .f32⟩
  | 85 => ⟨S_, .f32⟩
  | 86 => ⟨S50000x16, .f32⟩
  | 87 => ⟨S1600000x1, .i32⟩
  | 88 => ⟨S50000x16, .f32⟩
  | 89 => ⟨S_, .f32⟩
  | 90 => ⟨S1600000x1, .f32⟩
  | 91 => ⟨S_, .f32⟩
  | 92 => ⟨S50000x1, .f32⟩
  | 93 => ⟨S1600000x1, .i32⟩
  | 94 => ⟨S50000x1, .f32⟩
  | 95 => ⟨S_, .f32⟩
  | 96 => ⟨S50000x1, .f32⟩
  | 97 => ⟨S50000x1, .f32⟩
  | 98 => ⟨S50000x16, .f32⟩
  | 99 => ⟨S50000x16, .f32⟩
  | 100 => ⟨S16, .f32⟩
  | 101 => ⟨S50000x16, .f32⟩
  | 102 => ⟨S50000x64, .f32⟩
  | 103 => ⟨S50000x128, .f32⟩
  | 104 => ⟨S1x128, .f32⟩
  | 105 => ⟨S50000x128, .f32⟩
  | 106 => ⟨S50000x128, .f32⟩
  | 107 => ⟨S_, .f32⟩
  | 108 => ⟨S50000x128, .f32⟩
  | 109 => ⟨S50000x128, .f32⟩
  | 110 => ⟨S50000x32, .f32⟩
  | 111 => ⟨S1x32, .f32⟩
  | 112 => ⟨S50000x32, .f32⟩
  | 113 => ⟨S50000x32, .f32⟩
  | 114 => ⟨S_, .f32⟩
  | 115 => ⟨S50000x32, .f32⟩
  | 116 => ⟨S50000x32, .f32⟩
  | 117 => ⟨S_, .f32⟩
  | 118 => ⟨S50000, .f32⟩
  | 119 => ⟨S50000x1, .f32⟩
  | 120 => ⟨S_, .f32⟩
  | 121 => ⟨S50000x1, .f32⟩
  | 122 => ⟨S50000x1, .f32⟩
  | 123 => ⟨S50000x32, .f32⟩
  | 124 => ⟨S50000x32, .f32⟩
  | 125 => ⟨S50000x32, .f32⟩
  | 126 => ⟨S_, .f32⟩
  | 127 => ⟨S50000, .f32⟩
  | _ => ⟨S50000x32, .f32⟩

abbrev hbmTy0_1 (i : Nat) : BufTy := match i % 128 with
  | 0 => ⟨S50000x1, .f32⟩
  | 1 => ⟨S_, .f32⟩
  | 2 => ⟨S50000x1, .f32⟩
  | 3 => ⟨S50000x1, .f32⟩
  | 4 => ⟨S50000x32, .f32⟩
  | 5 => ⟨S50000x32, .f32⟩
  | 6 => ⟨S_, .f32⟩
  | 7 => ⟨S50000x1, .f32⟩
  | 8 => ⟨S50000x1, .f32⟩
  | 9 => ⟨S50000x1, .f32⟩
  | 10 => ⟨S50000x32, .f32⟩
  | 11 => ⟨S50000x32, .f32⟩
  | 12 => ⟨S1x32, .f32⟩
  | 13 => ⟨S50000x32, .f32⟩
  | 14 => ⟨S50000x32, .f32⟩
  | 15 => ⟨S1x32, .f32⟩
  | 16 => ⟨S50000x32, .f32⟩
  | 17 => ⟨S50000x32, .f32⟩
  | 18 => ⟨S_, .f32⟩
  | 19 => ⟨S32, .f32⟩
  | 20 => ⟨S1x32, .f32⟩
  | 21 => ⟨S_, .f32⟩
  | 22 => ⟨S1x32, .f32⟩
  | 23 => ⟨S1x32, .f32⟩
  | 24 => ⟨S_, .f32⟩
  | 25 => ⟨S16, .f32⟩
  | 26 => ⟨S1x16, .f32⟩
  | 27 => ⟨S_, .f32⟩
  | 28 => ⟨S1x16, .f32⟩
  | 29 => ⟨S1x16, .f32⟩
  | 30 => ⟨S1x64, .f32⟩
  | 31 => ⟨S1x128, .f32⟩
  | 32 => ⟨S1x128, .f32⟩
  | 33 => ⟨S1x128, .f32⟩
  | 34 => ⟨S_, .f32⟩
  | 35 => ⟨S1x128, .f32⟩
  | 36 => ⟨S1x128, .f32⟩
  | 37 => ⟨S1x16, .f32⟩
  | 38 => ⟨S1x16, .f32⟩
  | 39 => ⟨S1x16, .f32⟩
  | 40 => ⟨S_, .f32⟩
  | 41 => ⟨S1x16, .f32⟩
  | 42 => ⟨S1x16, .f32⟩
  | _ => ⟨S50000x32, .f32⟩

abbrev hbmTy (i : Nat) : BufTy := match i / 128 with
  | 0 => hbmTy0_0 i
  | 1 => hbmTy0_1 i
  | _ => ⟨S50000x32, .f32⟩

abbrev bufTy : (tb : Table) → Fin (tcTables nBuf tb) → BufTy
  | .hbm, ⟨i, _⟩ => hbmTy i
  | _, _ => ⟨S50000x32, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_v0 : Ref sig .tc := ⟨.hbm, 21, rfl⟩
abbrev main_v1 : Ref sig .tc := ⟨.hbm, 22, rfl⟩
abbrev main_c : Ref sig .tc := ⟨.hbm, 23, rfl⟩
abbrev main_v2 : Ref sig .tc := ⟨.hbm, 24, rfl⟩
abbrev main_v3 : Ref sig .tc := ⟨.hbm, 25, rfl⟩
abbrev main_c_0 : Ref sig .tc := ⟨.hbm, 26, rfl⟩
abbrev main_v4 : Ref sig .tc := ⟨.hbm, 27, rfl⟩
abbrev main_v5 : Ref sig .tc := ⟨.hbm, 28, rfl⟩
abbrev main_v6 : Ref sig .tc := ⟨.hbm, 29, rfl⟩
abbrev main_v7 : Ref sig .tc := ⟨.hbm, 30, rfl⟩
abbrev main_v8 : Ref sig .tc := ⟨.hbm, 31, rfl⟩
abbrev main_c_1 : Ref sig .tc := ⟨.hbm, 32, rfl⟩
abbrev main_v9 : Ref sig .tc := ⟨.hbm, 33, rfl⟩
abbrev main_v10 : Ref sig .tc := ⟨.hbm, 34, rfl⟩
abbrev main_c_2 : Ref sig .tc := ⟨.hbm, 35, rfl⟩
abbrev main_v11 : Ref sig .tc := ⟨.hbm, 36, rfl⟩
abbrev main_v12 : Ref sig .tc := ⟨.hbm, 37, rfl⟩
abbrev main_v13 : Ref sig .tc := ⟨.hbm, 38, rfl⟩
abbrev main_v14 : Ref sig .tc := ⟨.hbm, 39, rfl⟩
abbrev main_v15 : Ref sig .tc := ⟨.hbm, 40, rfl⟩
abbrev main_v16 : Ref sig .tc := ⟨.hbm, 41, rfl⟩
abbrev main_v17 : Ref sig .tc := ⟨.hbm, 42, rfl⟩
abbrev main_v18 : Ref sig .tc := ⟨.hbm, 43, rfl⟩
abbrev main_v19 : Ref sig .tc := ⟨.hbm, 44, rfl⟩
abbrev main_v20 : Ref sig .tc := ⟨.hbm, 45, rfl⟩
abbrev main_call0_cst : Ref sig .tc := ⟨.hbm, 46, rfl⟩
abbrev main_call0_v0 : Ref sig .tc := ⟨.hbm, 47, rfl⟩
abbrev main_v21 : Ref sig .tc := ⟨.hbm, 48, rfl⟩
abbrev main_v22 : Ref sig .tc := ⟨.hbm, 49, rfl⟩
abbrev main_v23 : Ref sig .tc := ⟨.hbm, 50, rfl⟩
abbrev main_v24 : Ref sig .tc := ⟨.hbm, 51, rfl⟩
abbrev main_v25 : Ref sig .tc := ⟨.hbm, 52, rfl⟩
abbrev main_call1_cst : Ref sig .tc := ⟨.hbm, 53, rfl⟩
abbrev main_call1_v0 : Ref sig .tc := ⟨.hbm, 54, rfl⟩
abbrev main_v26 : Ref sig .tc := ⟨.hbm, 55, rfl⟩
abbrev main_cst : Ref sig .tc := ⟨.hbm, 56, rfl⟩
abbrev main_v27 : Ref sig .tc := ⟨.hbm, 57, rfl⟩
abbrev main_v28 : Ref sig .tc := ⟨.hbm, 58, rfl⟩
abbrev main_cst_3 : Ref sig .tc := ⟨.hbm, 59, rfl⟩
abbrev main_v29 : Ref sig .tc := ⟨.hbm, 60, rfl⟩
abbrev main_v30 : Ref sig .tc := ⟨.hbm, 61, rfl⟩
abbrev main_v31 : Ref sig .tc := ⟨.hbm, 62, rfl⟩
abbrev main_v32 : Ref sig .tc := ⟨.hbm, 63, rfl⟩
abbrev main_v33 : Ref sig .tc := ⟨.hbm, 64, rfl⟩
abbrev main_cst_4 : Ref sig .tc := ⟨.hbm, 65, rfl⟩
abbrev main_v34 : Ref sig .tc := ⟨.hbm, 66, rfl⟩
abbrev main_v35 : Ref sig .tc := ⟨.hbm, 67, rfl⟩
abbrev main_cst_5 : Ref sig .tc := ⟨.hbm, 68, rfl⟩
abbrev main_v36 : Ref sig .tc := ⟨.hbm, 69, rfl⟩
abbrev main_v37 : Ref sig .tc := ⟨.hbm, 70, rfl⟩
abbrev main_v38 : Ref sig .tc := ⟨.hbm, 71, rfl⟩
abbrev main_v39 : Ref sig .tc := ⟨.hbm, 72, rfl⟩
abbrev main_cst_6 : Ref sig .tc := ⟨.hbm, 73, rfl⟩
abbrev main_v40 : Ref sig .tc := ⟨.hbm, 74, rfl⟩
abbrev main_v41 : Ref sig .tc := ⟨.hbm, 75, rfl⟩
abbrev main_v42 : Ref sig .tc := ⟨.hbm, 76, rfl⟩
abbrev main_v43 : Ref sig .tc := ⟨.hbm, 77, rfl⟩
abbrev main_v44 : Ref sig .tc := ⟨.hbm, 78, rfl⟩
abbrev main_v45 : Ref sig .tc := ⟨.hbm, 79, rfl⟩
abbrev main_v46 : Ref sig .tc := ⟨.hbm, 80, rfl⟩
abbrev main_v47 : Ref sig .tc := ⟨.hbm, 81, rfl⟩
abbrev main_v48 : Ref sig .tc := ⟨.hbm, 82, rfl⟩
abbrev main_v49 : Ref sig .tc := ⟨.hbm, 83, rfl⟩
abbrev main_v50 : Ref sig .tc := ⟨.hbm, 84, rfl⟩
abbrev main_cst_7 : Ref sig .tc := ⟨.hbm, 85, rfl⟩
abbrev main_v51 : Ref sig .tc := ⟨.hbm, 86, rfl⟩
abbrev main_v52 : Ref sig .tc := ⟨.hbm, 87, rfl⟩
abbrev main_v53 : Ref sig .tc := ⟨.hbm, 88, rfl⟩
abbrev main_cst_8 : Ref sig .tc := ⟨.hbm, 89, rfl⟩
abbrev main_v54 : Ref sig .tc := ⟨.hbm, 90, rfl⟩
abbrev main_cst_9 : Ref sig .tc := ⟨.hbm, 91, rfl⟩
abbrev main_v55 : Ref sig .tc := ⟨.hbm, 92, rfl⟩
abbrev main_v56 : Ref sig .tc := ⟨.hbm, 93, rfl⟩
abbrev main_v57 : Ref sig .tc := ⟨.hbm, 94, rfl⟩
abbrev main_cst_10 : Ref sig .tc := ⟨.hbm, 95, rfl⟩
abbrev main_v58 : Ref sig .tc := ⟨.hbm, 96, rfl⟩
abbrev main_v59 : Ref sig .tc := ⟨.hbm, 97, rfl⟩
abbrev main_v60 : Ref sig .tc := ⟨.hbm, 98, rfl⟩
abbrev main_v61 : Ref sig .tc := ⟨.hbm, 99, rfl⟩
abbrev main_v62 : Ref sig .tc := ⟨.hbm, 100, rfl⟩
abbrev main_v63 : Ref sig .tc := ⟨.hbm, 101, rfl⟩
abbrev main_v64 : Ref sig .tc := ⟨.hbm, 102, rfl⟩
abbrev main_v65 : Ref sig .tc := ⟨.hbm, 103, rfl⟩
abbrev main_v66 : Ref sig .tc := ⟨.hbm, 104, rfl⟩
abbrev main_v67 : Ref sig .tc := ⟨.hbm, 105, rfl⟩
abbrev main_v68 : Ref sig .tc := ⟨.hbm, 106, rfl⟩
abbrev main_call2_cst : Ref sig .tc := ⟨.hbm, 107, rfl⟩
abbrev main_call2_v0 : Ref sig .tc := ⟨.hbm, 108, rfl⟩
abbrev main_v69 : Ref sig .tc := ⟨.hbm, 109, rfl⟩
abbrev main_v70 : Ref sig .tc := ⟨.hbm, 110, rfl⟩
abbrev main_v71 : Ref sig .tc := ⟨.hbm, 111, rfl⟩
abbrev main_v72 : Ref sig .tc := ⟨.hbm, 112, rfl⟩
abbrev main_v73 : Ref sig .tc := ⟨.hbm, 113, rfl⟩
abbrev main_call3_cst : Ref sig .tc := ⟨.hbm, 114, rfl⟩
abbrev main_call3_v0 : Ref sig .tc := ⟨.hbm, 115, rfl⟩
abbrev main_v74 : Ref sig .tc := ⟨.hbm, 116, rfl⟩
abbrev main_cst_11 : Ref sig .tc := ⟨.hbm, 117, rfl⟩
abbrev main_v75 : Ref sig .tc := ⟨.hbm, 118, rfl⟩
abbrev main_v76 : Ref sig .tc := ⟨.hbm, 119, rfl⟩
abbrev main_cst_12 : Ref sig .tc := ⟨.hbm, 120, rfl⟩
abbrev main_v77 : Ref sig .tc := ⟨.hbm, 121, rfl⟩
abbrev main_v78 : Ref sig .tc := ⟨.hbm, 122, rfl⟩
abbrev main_v79 : Ref sig .tc := ⟨.hbm, 123, rfl⟩
abbrev main_v80 : Ref sig .tc := ⟨.hbm, 124, rfl⟩
abbrev main_v81 : Ref sig .tc := ⟨.hbm, 125, rfl⟩
abbrev main_cst_13 : Ref sig .tc := ⟨.hbm, 126, rfl⟩
abbrev main_v82 : Ref sig .tc := ⟨.hbm, 127, rfl⟩
abbrev main_v83 : Ref sig .tc := ⟨.hbm, 128, rfl⟩
abbrev main_cst_14 : Ref sig .tc := ⟨.hbm, 129, rfl⟩
abbrev main_v84 : Ref sig .tc := ⟨.hbm, 130, rfl⟩
abbrev main_v85 : Ref sig .tc := ⟨.hbm, 131, rfl⟩
abbrev main_v86 : Ref sig .tc := ⟨.hbm, 132, rfl⟩
abbrev main_v87 : Ref sig .tc := ⟨.hbm, 133, rfl⟩
abbrev main_cst_15 : Ref sig .tc := ⟨.hbm, 134, rfl⟩
abbrev main_v88 : Ref sig .tc := ⟨.hbm, 135, rfl⟩
abbrev main_v89 : Ref sig .tc := ⟨.hbm, 136, rfl⟩
abbrev main_v90 : Ref sig .tc := ⟨.hbm, 137, rfl⟩
abbrev main_v91 : Ref sig .tc := ⟨.hbm, 138, rfl⟩
abbrev main_v92 : Ref sig .tc := ⟨.hbm, 139, rfl⟩
abbrev main_v93 : Ref sig .tc := ⟨.hbm, 140, rfl⟩
abbrev main_v94 : Ref sig .tc := ⟨.hbm, 141, rfl⟩
abbrev main_v95 : Ref sig .tc := ⟨.hbm, 142, rfl⟩
abbrev main_v96 : Ref sig .tc := ⟨.hbm, 143, rfl⟩
abbrev main_v97 : Ref sig .tc := ⟨.hbm, 144, rfl⟩
abbrev main_v98 : Ref sig .tc := ⟨.hbm, 145, rfl⟩
abbrev main_cst_16 : Ref sig .tc := ⟨.hbm, 146, rfl⟩
abbrev main_v99 : Ref sig .tc := ⟨.hbm, 147, rfl⟩
abbrev main_v100 : Ref sig .tc := ⟨.hbm, 148, rfl⟩
abbrev main_cst_17 : Ref sig .tc := ⟨.hbm, 149, rfl⟩
abbrev main_v101 : Ref sig .tc := ⟨.hbm, 150, rfl⟩
abbrev main_v102 : Ref sig .tc := ⟨.hbm, 151, rfl⟩
abbrev main_cst_18 : Ref sig .tc := ⟨.hbm, 152, rfl⟩
abbrev main_v103 : Ref sig .tc := ⟨.hbm, 153, rfl⟩
abbrev main_v104 : Ref sig .tc := ⟨.hbm, 154, rfl⟩
abbrev main_cst_19 : Ref sig .tc := ⟨.hbm, 155, rfl⟩
abbrev main_v105 : Ref sig .tc := ⟨.hbm, 156, rfl⟩
abbrev main_v106 : Ref sig .tc := ⟨.hbm, 157, rfl⟩
abbrev main_v107 : Ref sig .tc := ⟨.hbm, 158, rfl⟩
abbrev main_v108 : Ref sig .tc := ⟨.hbm, 159, rfl⟩
abbrev main_v109 : Ref sig .tc := ⟨.hbm, 160, rfl⟩
abbrev main_v110 : Ref sig .tc := ⟨.hbm, 161, rfl⟩
abbrev main_call4_cst : Ref sig .tc := ⟨.hbm, 162, rfl⟩
abbrev main_call4_v0 : Ref sig .tc := ⟨.hbm, 163, rfl⟩
abbrev main_v111 : Ref sig .tc := ⟨.hbm, 164, rfl⟩
abbrev main_v112 : Ref sig .tc := ⟨.hbm, 165, rfl⟩
abbrev main_v113 : Ref sig .tc := ⟨.hbm, 166, rfl⟩
abbrev main_v114 : Ref sig .tc := ⟨.hbm, 167, rfl⟩
abbrev main_call5_cst : Ref sig .tc := ⟨.hbm, 168, rfl⟩
abbrev main_call5_v0 : Ref sig .tc := ⟨.hbm, 169, rfl⟩
abbrev main_v115 : Ref sig .tc := ⟨.hbm, 170, rfl⟩

abbrev nD : Nat := 1
abbrev τ : Topo := Topo.v7x

variable {F : FTy → Type} [FloatOps F]

class Facts₀ : Prop where
  shapeCasts_S1x16_S16 : S1x16.ShapeCasts S16
  bcast_S16_S1600000x16_1 : S16.BroadcastsInDim S1600000x16 (![1] : Fin 1 → Fin S1600000x16.rank)
  bcast_S_S1600000 : S_.BroadcastsInDim S1600000 (![] : Fin 0 → Fin S1600000.rank)
  bcast_S1600000_S1600000x1_0 : S1600000.BroadcastsInDim S1600000x1 (![0] : Fin 1 → Fin S1600000x1.rank)
  concatenates_S1600000x16_S1600000x32_S1600000x32_S1600000x16_S1600000x96_d1 : Shape.Concatenates [S1600000x16, S1600000x32, S1600000x32, S1600000x16] S1600000x96 1
  bcast_S128_S1x128_1 : S128.BroadcastsInDim S1x128 (![1] : Fin 1 → Fin S1x128.rank)
  bcast_S1x128_S1600000x128_0_1 : S1x128.BroadcastsInDim S1600000x128 (![0, 1] : Fin 2 → Fin S1600000x128.rank)
  bcast_S_S1600000x128 : S_.BroadcastsInDim S1600000x128 (![] : Fin 0 → Fin S1600000x128.rank)
  bcast_S16_S1x16_1 : S16.BroadcastsInDim S1x16 (![1] : Fin 1 → Fin S1x16.rank)
  bcast_S1x16_S1600000x16_0_1 : S1x16.BroadcastsInDim S1600000x16 (![0, 1] : Fin 2 → Fin S1600000x16.rank)
  bcast_S_S1600000x16 : S_.BroadcastsInDim S1600000x16 (![] : Fin 0 → Fin S1600000x16.rank)
  reducesTo_S1600000x16_S1600000_d1 : S1600000x16.ReducesTo [1] S1600000
  h_S_ : 0 < S_.numel
  bcast_S_S1600000x1 : S_.BroadcastsInDim S1600000x1 (![] : Fin 0 → Fin S1600000x1.rank)
  bcast_S1600000x1_S1600000x16_0_1 : S1600000x1.BroadcastsInDim S1600000x16 (![0, 1] : Fin 2 → Fin S1600000x16.rank)
  bcast_S_S50000x16 : S_.BroadcastsInDim S50000x16 (![] : Fin 0 → Fin S50000x16.rank)
  bcast_S_S50000x1 : S_.BroadcastsInDim S50000x1 (![] : Fin 0 → Fin S50000x1.rank)
  bcast_S50000x1_S50000x16_0_1 : S50000x1.BroadcastsInDim S50000x16 (![0, 1] : Fin 2 → Fin S50000x16.rank)
  bcast_S16_S50000x16_1 : S16.BroadcastsInDim S50000x16 (![1] : Fin 1 → Fin S50000x16.rank)
  concatenates_S50000x32_S50000x16_S50000x16_S50000x64_d1 : Shape.Concatenates [S50000x32, S50000x16, S50000x16] S50000x64 1
  bcast_S1x128_S50000x128_0_1 : S1x128.BroadcastsInDim S50000x128 (![0, 1] : Fin 2 → Fin S50000x128.rank)
  bcast_S_S50000x128 : S_.BroadcastsInDim S50000x128 (![] : Fin 0 → Fin S50000x128.rank)
  bcast_S32_S1x32_1 : S32.BroadcastsInDim S1x32 (![1] : Fin 1 → Fin S1x32.rank)
  bcast_S1x32_S50000x32_0_1 : S1x32.BroadcastsInDim S50000x32 (![0, 1] : Fin 2 → Fin S50000x32.rank)
  bcast_S_S50000x32 : S_.BroadcastsInDim S50000x32 (![] : Fin 0 → Fin S50000x32.rank)
  reducesTo_S50000x32_S50000_d1 : S50000x32.ReducesTo [1] S50000
  bcast_S50000_S50000x1_0 : S50000.BroadcastsInDim S50000x1 (![0] : Fin 1 → Fin S50000x1.rank)
  bcast_S50000x1_S50000x32_0_1 : S50000x1.BroadcastsInDim S50000x32 (![0, 1] : Fin 2 → Fin S50000x32.rank)
  reducesTo_S50000x32_S32_d0 : S50000x32.ReducesTo [0] S32
  bcast_S_S1x32 : S_.BroadcastsInDim S1x32 (![] : Fin 0 → Fin S1x32.rank)
  reducesTo_S1600000x16_S16_d0 : S1600000x16.ReducesTo [0] S16
  bcast_S_S1x16 : S_.BroadcastsInDim S1x16 (![] : Fin 0 → Fin S1x16.rank)
  concatenates_S1x16_S1x32_S1x16_S1x64_d1 : Shape.Concatenates [S1x16, S1x32, S1x16] S1x64 1
  bcast_S_S1x128 : S_.BroadcastsInDim S1x128 (![] : Fin 0 → Fin S1x128.rank)
  gather_S50000x32_S1600000x1_S1600000x32_1_0_n_n_0_1_132_wf : GatherDims.WF S50000x32 S1600000x1 S1600000x32 [1] [0] [] [0] [] 1 ![1, 32]
  dot_S1600000x96_S96x128_S1600000x128_1_0_0_1_n_n_wf : DotDims.WF S1600000x96 S96x128 S1600000x128 [1] [0] [0] [1] [] []
  dot_S1600000x128_S128x16_S1600000x16_1_0_0_1_n_n_wf : DotDims.WF S1600000x128 S128x16 S1600000x16 [1] [0] [0] [1] [] []
  scatter_S50000x16_S1600000x1_S1600000x16_1_0_0_1_wf : ScatterDims.WF S50000x16 S1600000x1 S1600000x16 [1] [0] [0] 1
  scatter_S50000x1_S1600000x1_S1600000x1_1_0_0_1_wf : ScatterDims.WF S50000x1 S1600000x1 S1600000x1 [1] [0] [0] 1
  dot_S50000x64_S64x128_S50000x128_1_0_0_1_n_n_wf : DotDims.WF S50000x64 S64x128 S50000x128 [1] [0] [0] [1] [] []
  dot_S50000x128_S128x32_S50000x32_1_0_0_1_n_n_wf : DotDims.WF S50000x128 S128x32 S50000x32 [1] [0] [0] [1] [] []
  dot_S1x64_S64x128_S1x128_1_0_0_1_n_n_wf : DotDims.WF S1x64 S64x128 S1x128 [1] [0] [0] [1] [] []
  dot_S1x128_S128x16_S1x16_1_0_0_1_n_n_wf : DotDims.WF S1x128 S128x16 S1x16 [1] [0] [0] [1] [] []

variable [Facts₀]

def gather_S50000x32_S1600000x1_S1600000x32_1_0_n_n_0_1_132 : GatherDims S50000x32 S1600000x1 S1600000x32 where
  offsetDims := [1]
  collapsedSliceDims := [0]
  operandBatchingDims := []
  startIndicesBatchingDims := []
  startIndexMap := [0]
  indexVectorDim := 1
  sliceSizes := ![1, 32]
  wf := gather_S50000x32_S1600000x1_S1600000x32_1_0_n_n_0_1_132_wf
def dot_S1600000x96_S96x128_S1600000x128_1_0_0_1_n_n : DotDims S1600000x96 S96x128 S1600000x128 where
  lhsContracting := [1]
  rhsContracting := [0]
  lhsNonContracting := [0]
  rhsNonContracting := [1]
  lhsBatch := []
  rhsBatch := []
  wf := dot_S1600000x96_S96x128_S1600000x128_1_0_0_1_n_n_wf
def dot_S1600000x128_S128x16_S1600000x16_1_0_0_1_n_n : DotDims S1600000x128 S128x16 S1600000x16 where
  lhsContracting := [1]
  rhsContracting := [0]
  lhsNonContracting := [0]
  rhsNonContracting := [1]
  lhsBatch := []
  rhsBatch := []
  wf := dot_S1600000x128_S128x16_S1600000x16_1_0_0_1_n_n_wf
def scatter_S50000x16_S1600000x1_S1600000x16_1_0_0_1 : ScatterDims S50000x16 S1600000x1 S1600000x16 where
  updateWindowDims := [1]
  insertedWindowDims := [0]
  scatterDimsToOperandDims := [0]
  indexVectorDim := 1
  wf := scatter_S50000x16_S1600000x1_S1600000x16_1_0_0_1_wf
def scatter_S50000x1_S1600000x1_S1600000x1_1_0_0_1 : ScatterDims S50000x1 S1600000x1 S1600000x1 where
  updateWindowDims := [1]
  insertedWindowDims := [0]
  scatterDimsToOperandDims := [0]
  indexVectorDim := 1
  wf := scatter_S50000x1_S1600000x1_S1600000x1_1_0_0_1_wf
def dot_S50000x64_S64x128_S50000x128_1_0_0_1_n_n : DotDims S50000x64 S64x128 S50000x128 where
  lhsContracting := [1]
  rhsContracting := [0]
  lhsNonContracting := [0]
  rhsNonContracting := [1]
  lhsBatch := []
  rhsBatch := []
  wf := dot_S50000x64_S64x128_S50000x128_1_0_0_1_n_n_wf
def dot_S50000x128_S128x32_S50000x32_1_0_0_1_n_n : DotDims S50000x128 S128x32 S50000x32 where
  lhsContracting := [1]
  rhsContracting := [0]
  lhsNonContracting := [0]
  rhsNonContracting := [1]
  lhsBatch := []
  rhsBatch := []
  wf := dot_S50000x128_S128x32_S50000x32_1_0_0_1_n_n_wf
def dot_S1x64_S64x128_S1x128_1_0_0_1_n_n : DotDims S1x64 S64x128 S1x128 where
  lhsContracting := [1]
  rhsContracting := [0]
  lhsNonContracting := [0]
  rhsNonContracting := [1]
  lhsBatch := []
  rhsBatch := []
  wf := dot_S1x64_S64x128_S1x128_1_0_0_1_n_n_wf
def dot_S1x128_S128x16_S1x16_1_0_0_1_n_n : DotDims S1x128 S128x16 S1x16 where
  lhsContracting := [1]
  rhsContracting := [0]
  lhsNonContracting := [0]
  rhsNonContracting := [1]
  lhsBatch := []
  rhsBatch := []
  wf := dot_S1x128_S128x16_S1x16_1_0_0_1_n_n_wf

class Facts : Prop extends Facts₀ where

variable [Facts]
-- ==== Proof.LibRead.lean ====
import Idealize.ShloMosaic.Lib.StableHlo.Run
import Idealize.ShloMosaic.Lib.ValueIdx
import Idealize.ShloMosaic.PureOps.Ideal.Laws

noncomputable section

namespace Cert.LibRead

open Idealize.ShloMosaic Idealize.ShloMosaic.StableHlo

-- A broadcast keeps the coordinate of an axis of extent other than one, and reads coordinate 0 of an axis of extent one.
theorem bcast_keep {n u v : Nat} (h : n ≠ 1 := by decide) (e : u = v := by rfl) : u = if n = 1 then 0 else v := by
  rw [if_neg h]; exact e

theorem bcast_one {n u v : Nat} (h : n = 1 := by rfl) (e : u = 0 := by rfl) : u = if n = 1 then 0 else v := by
  rw [if_pos h]; exact e

variable {M K N : Nat} (i : (⟨2, ![M, N]⟩ : Shape).Idx)

-- In a rows-by-contraction times contraction-by-columns product the left operand is read at the result's row, the right at its column.
theorem lhs_row (q : (DotDims.plain M K N).contr.Idx) : ((DotDims.plain M K N).lhsIdx i q 0).val = (i 0).val := by
  unfold DotDims.lhsIdx
  rw [dif_neg (show ¬(0 : Fin (⟨2, ![M, K]⟩ : Shape).rank) ∈ (DotDims.plain M K N).lhsBatch from List.not_mem_nil),
    dif_pos (show (0 : Fin (⟨2, ![M, K]⟩ : Shape).rank) ∈ (DotDims.plain M K N).lhsNonContracting from List.mem_singleton.mpr rfl)]
  rfl

theorem rhs_col (q : (DotDims.plain M K N).contr.Idx) : ((DotDims.plain M K N).rhsIdx i q 1).val = (i 1).val := by
  unfold DotDims.rhsIdx
  rw [dif_neg (show ¬(1 : Fin (⟨2, ![K, N]⟩ : Shape).rank) ∈ (DotDims.plain M K N).rhsBatch from List.not_mem_nil),
    dif_pos (show (1 : Fin (⟨2, ![K, N]⟩ : Shape).rank) ∈ (DotDims.plain M K N).rhsNonContracting from List.mem_singleton.mpr rfl)]
  rfl

-- Such a product read at (r, c) is the sum over k of left (r, k) times right (k, c), for any index functions with those coordinates.
theorem dotPlain_apply (x : FVec Ideal ⟨2, ![M, K]⟩ .f32) (y : FVec Ideal ⟨2, ![K, N]⟩ .f32)
    (li : Fin K → (⟨2, ![M, K]⟩ : Shape).Idx) (ri : Fin K → (⟨2, ![K, N]⟩ : Shape).Idx)
    (hl0 : ∀ k, (li k 0).val = (i 0).val) (hl1 : ∀ k, (li k 1).val = k.val)
    (hr0 : ∀ k, (ri k 0).val = k.val) (hr1 : ∀ k, (ri k 1).val = (i 1).val) :
    Host.dotGeneral (F := Ideal) (DotDims.plain M K N) none x y i = ∑ k : Fin K, x (li k) * y (ri k) := by
  simp only [Host.dotGeneral]
  rw [Ideal.dotGeneral_apply, ← Equiv.sum_comp (ValueIdx.contrEquiv1 (DotDims.plain M K N) K rfl rfl).symm]
  refine Finset.sum_congr rfl fun k _ => ?_
  have hk := ValueIdx.contrEquiv1_symm_val (DotDims.plain M K N) K rfl rfl k
  have el : (DotDims.plain M K N).lhsIdx i ((ValueIdx.contrEquiv1 (DotDims.plain M K N) K rfl rfl).symm k) = li k :=
    funext fun a => Fin.ext (by
      match a with
      | ⟨0, _⟩ => exact (lhs_row i _).trans (hl0 k).symm
      | ⟨1, _⟩ => exact (((DotDims.plain M K N).lhsIdx_val_of_single rfl i _).trans hk).trans (hl1 k).symm)
  have er : (DotDims.plain M K N).rhsIdx i ((ValueIdx.contrEquiv1 (DotDims.plain M K N) K rfl rfl).symm k) = ri k :=
    funext fun a => Fin.ext (by
      match a with
      | ⟨0, _⟩ => exact (((DotDims.plain M K N).rhsIdx_val_of_single rfl i _).trans hk).trans (hr0 k).symm
      | ⟨1, _⟩ => exact (rhs_col i _).trans (hr1 k).symm)
  rw [el, er]

end Cert.LibRead

end
-- ==== Proof.LibHostRead.lean ====
import Idealize.ShloMosaic.Lib.StableHlo.Run
import Idealize.ShloMosaic.Lib.Pipeline.Frame

noncomputable section

namespace Cert.HostRead

open Idealize.ShloMosaic Idealize.ShloMosaic.StableHlo

variable {τ : Topo} {sig : RefSig} {Val : EltTy → Type}

def Fresh (L : List (HloOp τ sig Val)) : Prop := L.Pairwise fun o₁ o₂ => Disjoint o₂.writes o₁.bufs

instance (L : List (HloOp τ sig Val)) : Decidable (Fresh L) := inferInstanceAs (Decidable (L.Pairwise _))

theorem after_at {L : List (HloOp τ sig Val)} (hL : Fresh L) (p : Nat) (hp : p < L.length) (V : Valuation τ sig Val)
    {b : DevRef τ sig} (hb : b ∈ L[p].bufs) : after L V b = L[p].result (after (L.take p) V) b := by
  have hsplit : L.take p ++ L[p] :: L.drop (p + 1) = L := by
    rw [← List.drop_eq_getElem_cons hp, List.take_append_drop]
  have hP : (L.take p ++ L[p] :: L.drop (p + 1)).Pairwise fun o₁ o₂ => Disjoint o₂.writes o₁.bufs := by
    rw [hsplit]; exact hL
  have hd : ∀ o ∈ L.drop (p + 1), Disjoint o.writes L[p].bufs :=
    (List.pairwise_cons.mp (List.pairwise_append.mp hP).2.1).1
  calc after L V b = after (L.take p ++ L[p] :: L.drop (p + 1)) V b := by rw [hsplit]
    _ = L[p].result (after (L.take p) V) b := by
      rw [after_append, after_cons]
      exact after_of_forall_not_mem _ _ fun o ho hw => Finset.disjoint_left.mp (hd o ho) hw hb

variable {L : List (HloOp τ sig Val)} (hL : Fresh L) (p : Nat) {V : Valuation τ sig Val}
include hL

theorem read_nullary {y : Ref sig .tc} {v : y.ty.Contents Val}
    (hy : y.space ≠ .host ∧ (Proc.devRef (τ := τ) .tc y).isScoped = false := by exact ⟨by decide, rfl⟩)
    (hp : p < L.length := by decide) (hop : L[p] = nullary y v hy) :
    after L V (Proc.devRef .tc y) = v := by
  have hy' : Proc.devRef .tc y ∈ L[p].bufs := by rw [hop, nullary_bufs]; exact Finset.mem_singleton_self _
  rw [after_at hL p hp V hy', hop, nullary_result]

theorem read_unary {x y : Ref sig .tc} {f : x.ty.Contents Val → y.ty.Contents Val}
    (hx : x.space ≠ .host ∧ (Proc.devRef (τ := τ) .tc x).isScoped = false := by exact ⟨by decide, rfl⟩)
    (hy : y.space ≠ .host ∧ (Proc.devRef (τ := τ) .tc y).isScoped = false := by exact ⟨by decide, rfl⟩)
    (hp : p < L.length := by decide) (hop : L[p] = unary x y f hx hy) (hxy : x ≠ y := by decide) :
    after L V (Proc.devRef .tc y) = f (after L V (Proc.devRef .tc x)) := by
  have hy' : Proc.devRef .tc y ∈ L[p].bufs := by
    rw [hop, unary_bufs]; exact Finset.mem_insert_of_mem (Finset.mem_singleton_self _)
  have hx' : Proc.devRef .tc x ∈ L[p].bufs := by rw [hop, unary_bufs]; exact Finset.mem_insert_self _ _
  rw [after_at hL p hp V hy', after_at hL p hp V hx', hop, unary_result, unary_result_ne _ _ _ _ _ _ hxy]

theorem read_reshape {x y : Ref sig .tc} (he : x.ty.elt = y.ty.elt := by rfl)
    (hn : x.ty.shape.ShapeCasts y.ty.shape := by decide)
    (hx : x.space ≠ .host ∧ (Proc.devRef (τ := τ) .tc x).isScoped = false := by exact ⟨by decide, rfl⟩)
    (hy : y.space ≠ .host ∧ (Proc.devRef (τ := τ) .tc y).isScoped = false := by exact ⟨by decide, rfl⟩)
    (hp : p < L.length := by decide) (hop : L[p] = reshape x y he hn hx hy) (hxy : x ≠ y := by decide) :
    after L V (Proc.devRef .tc y) = fun i => he ▸ shapeCast y.ty.shape (after L V (Proc.devRef .tc x)) hn i := by
  have hy' : Proc.devRef .tc y ∈ L[p].bufs := by
    rw [hop, reshape_bufs]; exact Finset.mem_insert_of_mem (Finset.mem_singleton_self _)
  have hx' : Proc.devRef .tc x ∈ L[p].bufs := by rw [hop, reshape_bufs]; exact Finset.mem_insert_self _ _
  rw [after_at hL p hp V hy', after_at hL p hp V hx', hop, reshape_result, reshape_result_ne _ _ _ _ _ _ _ hxy]

theorem read_binary {a b y : Ref sig .tc} {f : a.ty.Contents Val → b.ty.Contents Val → y.ty.Contents Val}
    (ha : a.space ≠ .host ∧ (Proc.devRef (τ := τ) .tc a).isScoped = false := by exact ⟨by decide, rfl⟩)
    (hb : b.space ≠ .host ∧ (Proc.devRef (τ := τ) .tc b).isScoped = false := by exact ⟨by decide, rfl⟩)
    (hy : y.space ≠ .host ∧ (Proc.devRef (τ := τ) .tc y).isScoped = false := by exact ⟨by decide, rfl⟩)
    (hp : p < L.length := by decide) (hop : L[p] = binary a b y f ha hb hy)
    (hay : a ≠ y := by decide) (hby : b ≠ y := by decide) :
    after L V (Proc.devRef .tc y) = f (after L V (Proc.devRef .tc a)) (after L V (Proc.devRef .tc b)) := by
  have hy' : Proc.devRef .tc y ∈ L[p].bufs := by
    rw [hop, binary_bufs]; exact Finset.mem_insert_of_mem (Finset.mem_insert_of_mem (Finset.mem_singleton_self _))
  have ha' : Proc.devRef .tc a ∈ L[p].bufs := by rw [hop, binary_bufs]; exact Finset.mem_insert_self _ _
  have hb' : Proc.devRef .tc b ∈ L[p].bufs := by
    rw [hop, binary_bufs]; exact Finset.mem_insert_of_mem (Finset.mem_insert_self _ _)
  rw [after_at hL p hp V hy', after_at hL p hp V ha', after_at hL p hp V hb', hop, binary_result,
    binary_result_ne _ _ _ _ _ _ _ _ hay, binary_result_ne _ _ _ _ _ _ _ _ hby]

theorem read_ternary {c a b y : Ref sig .tc}
    {f : c.ty.Contents Val → a.ty.Contents Val → b.ty.Contents Val → y.ty.Contents Val}
    (hc : c.space ≠ .host ∧ (Proc.devRef (τ := τ) .tc c).isScoped = false := by exact ⟨by decide, rfl⟩)
    (ha : a.space ≠ .host ∧ (Proc.devRef (τ := τ) .tc a).isScoped = false := by exact ⟨by decide, rfl⟩)
    (hb : b.space ≠ .host ∧ (Proc.devRef (τ := τ) .tc b).isScoped = false := by exact ⟨by decide, rfl⟩)
    (hy : y.space ≠ .host ∧ (Proc.devRef (τ := τ) .tc y).isScoped = false := by exact ⟨by decide, rfl⟩)
    (hp : p < L.length := by decide) (hop : L[p] = ternary c a b y f hc ha hb hy)
    (hcy : c ≠ y := by decide) (hay : a ≠ y := by decide) (hby : b ≠ y := by decide) :
    after L V (Proc.devRef .tc y)
      = f (after L V (Proc.devRef .tc c)) (after L V (Proc.devRef .tc a)) (after L V (Proc.devRef .tc b)) := by
  have hy' : Proc.devRef .tc y ∈ L[p].bufs := by
    rw [hop, ternary_bufs]
    exact Finset.mem_insert_of_mem (Finset.mem_insert_of_mem (Finset.mem_insert_of_mem (Finset.mem_singleton_self _)))
  have hc' : Proc.devRef .tc c ∈ L[p].bufs := by rw [hop, ternary_bufs]; exact Finset.mem_insert_self _ _
  have ha' : Proc.devRef .tc a ∈ L[p].bufs := by
    rw [hop, ternary_bufs]; exact Finset.mem_insert_of_mem (Finset.mem_insert_self _ _)
  have hb' : Proc.devRef .tc b ∈ L[p].bufs := by
    rw [hop, ternary_bufs]; exact Finset.mem_insert_of_mem (Finset.mem_insert_of_mem (Finset.mem_insert_self _ _))
  rw [after_at hL p hp V hy', after_at hL p hp V hc', after_at hL p hp V ha', after_at hL p hp V hb', hop, ternary_result,
    ternary_result_ne _ _ _ _ _ _ _ _ _ _ hcy, ternary_result_ne _ _ _ _ _ _ _ _ _ _ hay, ternary_result_ne _ _ _ _ _ _ _ _ _ _ hby]

theorem read_nary {n : Nat} {xs : Fin n → Ref sig .tc} {y : Ref sig .tc}
    {f : ((k : Fin n) → (xs k).ty.Contents Val) → y.ty.Contents Val}
    (hxs : ∀ k, (xs k).space ≠ .host ∧ (Proc.devRef (τ := τ) .tc (xs k)).isScoped = false := by decide)
    (hy : y.space ≠ .host ∧ (Proc.devRef (τ := τ) .tc y).isScoped = false := by exact ⟨by decide, rfl⟩)
    (hp : p < L.length := by decide) (hop : L[p] = nary xs y f hxs hy) (hne : ∀ k, xs k ≠ y := by decide) :
    after L V (Proc.devRef .tc y) = f (fun k => after L V (Proc.devRef .tc (xs k))) := by
  have hb : (nary (τ := τ) xs y f hxs hy).bufs
      = insert (Proc.devRef .tc y) (Finset.univ.image fun k => Proc.devRef (τ := τ) .tc (xs k)) := rfl
  have hy' : Proc.devRef .tc y ∈ L[p].bufs := by rw [hop, hb]; exact Finset.mem_insert_self _ _
  have hx' : ∀ k, Proc.devRef .tc (xs k) ∈ L[p].bufs := fun k => by
    rw [hop, hb]; exact Finset.mem_insert_of_mem (Finset.mem_image_of_mem _ (Finset.mem_univ k))
  rw [after_at hL p hp V hy', hop, nary_result]
  congr 1
  funext k
  rw [after_at hL p hp V (hx' k), hop, nary_result_ne _ _ _ _ _ _ (hne k)]

end Cert.HostRead

end
-- ==== Proof.LibHostRank.lean ====
import proofs.«422153_j62534723830204_3_alg».proof.Proof.LibHostRead

noncomputable section

namespace Cert.HostRead

open Idealize.ShloMosaic Idealize.ShloMosaic.StableHlo

variable {τ : Topo} {sig : RefSig} {Val : EltTy → Type}

def Ranked (rk : DevRef τ sig → Nat) : Nat → List (HloOp τ sig Val) → Prop
  | _, [] => True
  | n, o :: l => (∀ b ∈ o.writes, rk b = n) ∧ (∀ b ∈ o.bufs, rk b ≤ n) ∧ Ranked rk (n + 1) l

instance decRanked (rk : DevRef τ sig → Nat) : ∀ (n : Nat) (L : List (HloOp τ sig Val)), Decidable (Ranked rk n L)
  | _, [] => isTrue trivial
  | n, o :: l =>
    have := decRanked rk (n + 1) l
    inferInstanceAs (Decidable ((∀ b ∈ o.writes, rk b = n) ∧ (∀ b ∈ o.bufs, rk b ≤ n) ∧ Ranked rk (n + 1) l))

theorem Ranked.le_of_mem_writes (rk : DevRef τ sig → Nat) : ∀ (n : Nat) (L : List (HloOp τ sig Val)), Ranked rk n L →
    ∀ o ∈ L, ∀ b ∈ o.writes, n ≤ rk b
  | _, [], _, o, ho, _, _ => absurd ho List.not_mem_nil
  | n, o' :: l, h, o, ho, b, hb => by
    rcases List.mem_cons.mp ho with rfl | ho
    · exact (h.1 b hb).ge
    · exact Nat.le_of_succ_le (Ranked.le_of_mem_writes rk (n + 1) l h.2.2 o ho b hb)

theorem Ranked.after_of_lt (rk : DevRef τ sig → Nat) (n : Nat) (L : List (HloOp τ sig Val)) (h : Ranked rk n L)
    (V : Valuation τ sig Val) (b : DevRef τ sig) (hb : rk b < n) : after L V b = V b :=
  after_of_forall_not_mem _ _ fun o ho hw => by
    have := Ranked.le_of_mem_writes rk n L h o ho b hw
    omega

theorem Ranked.fresh (rk : DevRef τ sig → Nat) : ∀ (n : Nat) (L : List (HloOp τ sig Val)), Ranked rk n L → Fresh L
  | _, [], _ => List.Pairwise.nil
  | n, o :: l, h => by
    refine List.Pairwise.cons (fun o' ho' => ?_) (Ranked.fresh rk (n + 1) l h.2.2)
    refine Finset.disjoint_left.mpr fun b hw hb => ?_
    have h1 : n + 1 ≤ rk b := Ranked.le_of_mem_writes rk (n + 1) l h.2.2 o' ho' b hw
    have h2 : rk b ≤ n := h.2.1 b hb
    omega

end Cert.HostRead

end
-- ==== Proof.RefFresh.lean ====
import proofs.«422153_j62534723830204_3_alg».proof.Proof.RefRunOps
import proofs.«422153_j62534723830204_3_alg».proof.Proof.LibHostRank
import Idealize.ShloMosaic.PureOps.Ideal

noncomputable section

namespace Cert.ReferenceIdeal.RefVal

open Cert.ReferenceIdeal Cert.ReferenceIdeal.Gen Cert.ReferenceIdeal.Value Idealize.ShloMosaic Idealize.ShloMosaic.TcCoe
  Idealize.SL.Sem Idealize.ShloMosaic.StableHlo Cert.HostRead

def rk (b : DevRef τ sig) : Nat := b.idx.val

-- The result of the operation at position p has rank 21 + p, and none of its operands ranks higher.
theorem ranked : Ranked rk 21 (ops (F := Ideal)) := by decide +kernel

theorem fresh : Fresh (ops (F := Ideal)) := Ranked.fresh rk 21 _ ranked

-- The fold of the whole list over V, read at b; G reads V itself there.
def A (V : Valuation τ sig (Elt Ideal)) (b : Ref sig .tc) : b.ty.Contents (Elt Ideal) :=
  after (ops (F := Ideal)) V (Proc.devRef .tc b)

def G (V : Valuation τ sig (Elt Ideal)) (b : Ref sig .tc) : b.ty.Contents (Elt Ideal) := V (Proc.devRef .tc b)

variable {V : Valuation τ sig (Elt Ideal)}

-- A rank below 21 is the rank of no result, so the fold agrees with V there.
theorem arg_kept (r : Ref sig .tc) (h : rk (Proc.devRef (τ := τ) .tc r) < 21 := by decide) :
    A V r = G V r :=
  Ranked.after_of_lt rk 21 _ ranked V _ h

variable (p : Nat)

-- The fold read at the result of the operation at position p is that operation's function of the fold read at its operands.
theorem A_nullary {y : Ref sig .tc} {v hy} (hop : (ops (F := Ideal))[p]? = some (nullary y v hy)) : A V y = v := by
  obtain ⟨hp, e⟩ := List.getElem?_eq_some_iff.mp hop
  exact read_nullary fresh p hy hp e

theorem A_unary {x y : Ref sig .tc} {f hx hy} (hop : (ops (F := Ideal))[p]? = some (unary x y f hx hy))
    (hxy : x ≠ y := by decide) : A V y = f (A V x) := by
  obtain ⟨hp, e⟩ := List.getElem?_eq_some_iff.mp hop
  exact read_unary fresh p hx hy hp e hxy

theorem A_reshape {x y : Ref sig .tc} {he hn hx hy} (hop : (ops (F := Ideal))[p]? = some (reshape x y he hn hx hy))
    (hxy : x ≠ y := by decide) : A V y = fun i => he ▸ shapeCast y.ty.shape (A V x) hn i := by
  obtain ⟨hp, e⟩ := List.getElem?_eq_some_iff.mp hop
  exact read_reshape fresh p he hn hx hy hp e hxy

theorem A_binary {a b y : Ref sig .tc} {f ha hb hy} (hop : (ops (F := Ideal))[p]? = some (binary a b y f ha hb hy))
    (hay : a ≠ y := by decide) (hby : b ≠ y := by decide) : A V y = f (A V a) (A V b) := by
  obtain ⟨hp, e⟩ := List.getElem?_eq_some_iff.mp hop
  exact read_binary fresh p ha hb hy hp e hay hby

theorem A_ternary {c a b y : Ref sig .tc} {f hc ha hb hy}
    (hop : (ops (F := Ideal))[p]? = some (ternary c a b y f hc ha hb hy)) (hcy : c ≠ y := by decide)
    (hay : a ≠ y := by decide) (hby : b ≠ y := by decide) : A V y = f (A V c) (A V a) (A V b) := by
  obtain ⟨hp, e⟩ := List.getElem?_eq_some_iff.mp hop
  exact read_ternary fresh p hc ha hb hy hp e hcy hay hby

theorem A_nary {n : Nat} {xs : Fin n → Ref sig .tc} {y : Ref sig .tc} {f hxs hy}
    (hop : (ops (F := Ideal))[p]? = some (nary xs y f hxs hy)) (hne : ∀ k, xs k ≠ y := by decide) :
    A V y = f fun k => A V (xs k) := by
  obtain ⟨hp, e⟩ := List.getElem?_eq_some_iff.mp hop
  exact read_nary fresh p hxs hy hp e hne

end Cert.ReferenceIdeal.RefVal

end
-- ==== Proof.RefStages.lean ====
import proofs.«422153_j62534723830204_3_alg».proof.Proof.RefRead
import proofs.«422153_j62534723830204_3_alg».proof.Proof.RefFresh

noncomputable section

namespace Cert.ReferenceIdeal.RefVal

open Cert.ReferenceIdeal Cert.ReferenceIdeal.Gen Cert.ReferenceIdeal.Read Cert.ReferenceIdeal.Value Idealize.ShloMosaic Idealize.ShloMosaic.TcCoe Idealize.SL.Sem Idealize.ShloMosaic.StableHlo

-- apK V f is f at the first K arguments, each as V gives it.
abbrev ap5 (V : Valuation τ sig (Elt Ideal)) := fun {β : Type} (f : _ → _ → _ → _ → _ → β) => f (G V main_arg0) (G V main_arg1) (G V main_arg2) (G V main_arg3) (G V main_arg4)
abbrev ap6 (V : Valuation τ sig (Elt Ideal)) := fun {β : Type} f => (ap5 V f : _ → β) (G V main_arg5)
abbrev ap7 (V : Valuation τ sig (Elt Ideal)) := fun {β : Type} f => (ap6 V f : _ → β) (G V main_arg6)
abbrev ap8 (V : Valuation τ sig (Elt Ideal)) := fun {β : Type} f => (ap7 V f : _ → β) (G V main_arg7)
abbrev ap9 (V : Valuation τ sig (Elt Ideal)) := fun {β : Type} f => (ap8 V f : _ → β) (G V main_arg8)
abbrev ap10 (V : Valuation τ sig (Elt Ideal)) := fun {β : Type} f => (ap9 V f : _ → β) (G V main_arg9)
abbrev ap11 (V : Valuation τ sig (Elt Ideal)) := fun {β : Type} f => (ap10 V f : _ → β) (G V main_arg10)
abbrev ap12 (V : Valuation τ sig (Elt Ideal)) := fun {β : Type} f => (ap11 V f : _ → β) (G V main_arg11)
abbrev ap13 (V : Valuation τ sig (Elt Ideal)) := fun {β : Type} f => (ap12 V f : _ → β) (G V main_arg12)
abbrev ap14 (V : Valuation τ sig (Elt Ideal)) := fun {β : Type} f => (ap13 V f : _ → β) (G V main_arg13)
abbrev ap15 (V : Valuation τ sig (Elt Ideal)) := fun {β : Type} f => (ap14 V f : _ → β) (G V main_arg14)
abbrev ap16 (V : Valuation τ sig (Elt Ideal)) := fun {β : Type} f => (ap15 V f : _ → β) (G V main_arg15)
abbrev ap17 (V : Valuation τ sig (Elt Ideal)) := fun {β : Type} f => (ap16 V f : _ → β) (G V main_arg16)
abbrev ap18 (V : Valuation τ sig (Elt Ideal)) := fun {β : Type} f => (ap17 V f : _ → β) (G V main_arg17)
abbrev ap19 (V : Valuation τ sig (Elt Ideal)) := fun {β : Type} f => (ap18 V f : _ → β) (G V main_arg18)
abbrev ap20 (V : Valuation τ sig (Elt Ideal)) := fun {β : Type} f => (ap19 V f : _ → β) (G V main_arg19)
abbrev ap21 (V : Valuation τ sig (Elt Ideal)) := fun {β : Type} f => (ap20 V f : _ → β) (G V main_arg20)

variable {V : Valuation τ sig (Elt Ideal)}

-- By induction along the list: the fold read at each result is that result's stage function of the arguments.
theorem st_main_v0 : A V main_v0 = val_main_v0 (G V main_arg2) := by
  rw [A_reshape 0 rfl, arg_kept main_arg2]; rfl
theorem st_main_v1 : A V main_v1 = val_main_v1 (G V main_arg2) := by
  rw [A_unary 1 rfl, st_main_v0]; rfl
theorem st_main_c : A V main_c = val_main_c (F := Ideal) := A_nullary 2 rfl
theorem st_main_v2 : A V main_v2 = val_main_v2 (F := Ideal) := by
  rw [A_unary 3 rfl, st_main_c]; rfl
theorem st_main_v3 : A V main_v3 = val_main_v3 (G V main_arg3) := by
  rw [A_binary 4 rfl, arg_kept main_arg3, st_main_v2]; rfl
theorem st_main_c_0 : A V main_c_0 = val_main_c_0 (F := Ideal) := A_nullary 5 rfl
theorem st_main_v4 : A V main_v4 = val_main_v4 (F := Ideal) := by
  rw [A_unary 6 rfl, st_main_c_0]; rfl
theorem st_main_v5 : A V main_v5 = val_main_v5 (G V main_arg3) := by
  rw [A_binary 7 rfl, arg_kept main_arg3, st_main_v4]; rfl
theorem st_main_v6 : A V main_v6 = val_main_v6 (G V main_arg3) := by
  rw [A_ternary 8 rfl, st_main_v3, st_main_v5, arg_kept main_arg3]; rfl
theorem st_main_v7 : A V main_v7 = val_main_v7 (G V main_arg3) := by
  rw [A_unary 9 rfl, st_main_v6]; rfl
theorem st_main_v8 : A V main_v8 = val_main_v8 (G V main_arg0) (G V main_arg3) := by
  rw [A_binary 10 rfl, arg_kept main_arg0, st_main_v7]; rfl
theorem st_main_c_1 : A V main_c_1 = val_main_c_1 (F := Ideal) := A_nullary 11 rfl
theorem st_main_v9 : A V main_v9 = val_main_v9 (F := Ideal) := by
  rw [A_unary 12 rfl, st_main_c_1]; rfl
theorem st_main_v10 : A V main_v10 = val_main_v10 (G V main_arg4) := by
  rw [A_binary 13 rfl, arg_kept main_arg4, st_main_v9]; rfl
theorem st_main_c_2 : A V main_c_2 = val_main_c_2 (F := Ideal) := A_nullary 14 rfl
theorem st_main_v11 : A V main_v11 = val_main_v11 (F := Ideal) := by
  rw [A_unary 15 rfl, st_main_c_2]; rfl
theorem st_main_v12 : A V main_v12 = val_main_v12 (G V main_arg4) := by
  rw [A_binary 16 rfl, arg_kept main_arg4, st_main_v11]; rfl
theorem st_main_v13 : A V main_v13 = val_main_v13 (G V main_arg4) := by
  rw [A_ternary 17 rfl, st_main_v10, st_main_v12, arg_kept main_arg4]; rfl
theorem st_main_v14 : A V main_v14 = val_main_v14 (G V main_arg4) := by
  rw [A_unary 18 rfl, st_main_v13]; rfl
theorem st_main_v15 : A V main_v15 = val_main_v15 (G V main_arg0) (G V main_arg4) := by
  rw [A_binary 19 rfl, arg_kept main_arg0, st_main_v14]; rfl
theorem st_main_v16 : A V main_v16 = ap5 V val_main_v16 := by
  have h : A V main_v16 = concatenate S1600000x96 1 [⟨S1600000x16, (A V main_arg1 : S1600000x16.Idx → EReal)⟩, ⟨S1600000x32, (A V main_v8 : S1600000x32.Idx → EReal)⟩, ⟨S1600000x32, (A V main_v15 : S1600000x32.Idx → EReal)⟩, ⟨S1600000x16, (A V main_v1 : S1600000x16.Idx → EReal)⟩] concatenates_S1600000x16_S1600000x32_S1600000x32_S1600000x16_S1600000x96_d1 := A_nary 20 rfl
  rw [h, arg_kept main_arg1, st_main_v8, st_main_v15, st_main_v1]; rfl
theorem st_main_v17 : A V main_v17 = ap6 V val_main_v17 := by
  rw [A_binary 21 rfl, st_main_v16, arg_kept main_arg5]; rfl
theorem st_main_v18 : A V main_v18 = val_main_v18 (G V main_arg6) := by
  rw [A_unary 22 rfl, arg_kept main_arg6]; rfl
theorem st_main_v19 : A V main_v19 = val_main_v19 (G V main_arg6) := by
  rw [A_unary 23 rfl, st_main_v18]; rfl
theorem st_main_v20 : A V main_v20 = ap7 V val_main_v20 := by
  rw [A_binary 24 rfl, st_main_v17, st_main_v19]; rfl
theorem st_main_call0_cst : A V main_call0_cst = val_main_call0_cst (F := Ideal) := A_nullary 25 rfl
theorem st_main_call0_v0 : A V main_call0_v0 = val_main_call0_v0 (F := Ideal) := by
  rw [A_unary 26 rfl, st_main_call0_cst]; rfl
theorem st_main_v21 : A V main_v21 = ap7 V val_main_v21 := by
  rw [A_binary 27 rfl, st_main_v20, st_main_call0_v0]; rfl
theorem st_main_v22 : A V main_v22 = ap8 V val_main_v22 := by
  rw [A_binary 28 rfl, st_main_v21, arg_kept main_arg7]; rfl
theorem st_main_v23 : A V main_v23 = val_main_v23 (G V main_arg8) := by
  rw [A_unary 29 rfl, arg_kept main_arg8]; rfl
theorem st_main_v24 : A V main_v24 = val_main_v24 (G V main_arg8) := by
  rw [A_unary 30 rfl, st_main_v23]; rfl
theorem st_main_v25 : A V main_v25 = ap9 V val_main_v25 := by
  rw [A_binary 31 rfl, st_main_v22, st_main_v24]; rfl
theorem st_main_call1_cst : A V main_call1_cst = val_main_call1_cst (F := Ideal) := A_nullary 32 rfl
theorem st_main_call1_v0 : A V main_call1_v0 = val_main_call1_v0 (F := Ideal) := by
  rw [A_unary 33 rfl, st_main_call1_cst]; rfl
theorem st_main_v26 : A V main_v26 = ap9 V val_main_v26 := by
  rw [A_binary 34 rfl, st_main_v25, st_main_call1_v0]; rfl
theorem st_main_cst : A V main_cst = val_main_cst (F := Ideal) := A_nullary 35 rfl
theorem st_main_v27 : A V main_v27 = ap9 V val_main_v27 := by
  rw [A_binary 36 rfl, st_main_v26, st_main_cst]; rfl
theorem st_main_v28 : A V main_v28 = ap9 V val_main_v28 := by
  rw [A_unary 37 rfl, st_main_v27]; rfl
theorem st_main_cst_3 : A V main_cst_3 = val_main_cst_3 (F := Ideal) := A_nullary 38 rfl
theorem st_main_v29 : A V main_v29 = val_main_v29 (F := Ideal) := by
  rw [A_unary 39 rfl, st_main_cst_3]; rfl
theorem st_main_v30 : A V main_v30 = ap9 V val_main_v30 := by
  rw [A_binary 40 rfl, st_main_v28, st_main_v29]; rfl
theorem st_main_v31 : A V main_v31 = ap9 V val_main_v31 := by
  rw [A_unary 41 rfl, st_main_v30]; rfl
theorem st_main_v32 : A V main_v32 = ap9 V val_main_v32 := by
  rw [A_binary 42 rfl, st_main_v26, st_main_v31]; rfl
theorem st_main_v33 : A V main_v33 = ap9 V val_main_v33 := by
  rw [A_binary 43 rfl, st_main_v32]; rfl
theorem st_main_cst_4 : A V main_cst_4 = val_main_cst_4 (F := Ideal) := A_nullary 44 rfl
theorem st_main_v34 : A V main_v34 = ap9 V val_main_v34 := by
  rw [A_binary 45 rfl, st_main_v33, st_main_cst_4]; rfl
theorem st_main_v35 : A V main_v35 = ap9 V val_main_v35 := by
  rw [A_unary 46 rfl, st_main_v34]; rfl
theorem st_main_cst_5 : A V main_cst_5 = val_main_cst_5 (F := Ideal) := A_nullary 47 rfl
theorem st_main_v36 : A V main_v36 = val_main_v36 (F := Ideal) := by
  rw [A_unary 48 rfl, st_main_cst_5]; rfl
theorem st_main_v37 : A V main_v37 = ap9 V val_main_v37 := by
  rw [A_binary 49 rfl, st_main_v35, st_main_v36]; rfl
theorem st_main_v38 : A V main_v38 = ap9 V val_main_v38 := by
  rw [A_unary 50 rfl, st_main_v30]; rfl
theorem st_main_v39 : A V main_v39 = ap9 V val_main_v39 := by
  rw [A_binary 51 rfl, st_main_v26, st_main_v38]; rfl
theorem st_main_cst_6 : A V main_cst_6 = val_main_cst_6 (F := Ideal) := A_nullary 52 rfl
theorem st_main_v40 : A V main_v40 = val_main_v40 (F := Ideal) := by
  rw [A_unary 53 rfl, st_main_cst_6]; rfl
theorem st_main_v41 : A V main_v41 = ap9 V val_main_v41 := by
  rw [A_binary 54 rfl, st_main_v37, st_main_v40]; rfl
theorem st_main_v42 : A V main_v42 = ap9 V val_main_v42 := by
  rw [A_unary 55 rfl, st_main_v41]; rfl
theorem st_main_v43 : A V main_v43 = ap9 V val_main_v43 := by
  rw [A_unary 56 rfl, st_main_v42]; rfl
theorem st_main_v44 : A V main_v44 = ap9 V val_main_v44 := by
  rw [A_binary 57 rfl, st_main_v39, st_main_v43]; rfl
theorem st_main_v45 : A V main_v45 = val_main_v45 (G V main_arg9) := by
  rw [A_unary 58 rfl, arg_kept main_arg9]; rfl
theorem st_main_v46 : A V main_v46 = val_main_v46 (G V main_arg9) := by
  rw [A_unary 59 rfl, st_main_v45]; rfl
theorem st_main_v47 : A V main_v47 = ap10 V val_main_v47 := by
  rw [A_binary 60 rfl, st_main_v44, st_main_v46]; rfl
theorem st_main_v48 : A V main_v48 = val_main_v48 (G V main_arg10) := by
  rw [A_unary 61 rfl, arg_kept main_arg10]; rfl
theorem st_main_v49 : A V main_v49 = val_main_v49 (G V main_arg10) := by
  rw [A_unary 62 rfl, st_main_v48]; rfl
theorem st_main_v50 : A V main_v50 = ap11 V val_main_v50 := by
  rw [A_binary 63 rfl, st_main_v47, st_main_v49]; rfl
theorem st_main_cst_7 : A V main_cst_7 = val_main_cst_7 (F := Ideal) := A_nullary 64 rfl
theorem st_main_v51 : A V main_v51 = val_main_v51 (F := Ideal) := by
  rw [A_unary 65 rfl, st_main_cst_7]; rfl
theorem st_main_v52 : A V main_v52 = val_main_v52 (G V main_arg4) := by
  rw [A_unary 66 rfl, arg_kept main_arg4]; rfl
theorem st_main_v53 : A V main_v53 = ap11 V val_main_v53 := by
  rw [A_ternary 67 rfl, st_main_v51, st_main_v52, st_main_v50]; rfl
theorem st_main_cst_8 : A V main_cst_8 = val_main_cst_8 (F := Ideal) := A_nullary 68 rfl
theorem st_main_v54 : A V main_v54 = val_main_v54 (F := Ideal) := by
  rw [A_unary 69 rfl, st_main_cst_8]; rfl
theorem st_main_cst_9 : A V main_cst_9 = val_main_cst_9 (F := Ideal) := A_nullary 70 rfl
theorem st_main_v55 : A V main_v55 = val_main_v55 (F := Ideal) := by
  rw [A_unary 71 rfl, st_main_cst_9]; rfl
theorem st_main_v56 : A V main_v56 = val_main_v56 (G V main_arg4) := by
  rw [A_unary 72 rfl, arg_kept main_arg4]; rfl
theorem st_main_v57 : A V main_v57 = val_main_v57 (G V main_arg4) := by
  rw [A_ternary 73 rfl, st_main_v55, st_main_v56, st_main_v54]; rfl
theorem st_main_cst_10 : A V main_cst_10 = val_main_cst_10 (F := Ideal) := A_nullary 74 rfl
theorem st_main_v58 : A V main_v58 = val_main_v58 (F := Ideal) := by
  rw [A_unary 75 rfl, st_main_cst_10]; rfl
theorem st_main_v59 : A V main_v59 = val_main_v59 (G V main_arg4) := by
  rw [A_binary 76 rfl, st_main_v57, st_main_v58]; rfl
theorem st_main_v60 : A V main_v60 = val_main_v60 (G V main_arg4) := by
  rw [A_unary 77 rfl, st_main_v59]; rfl
theorem st_main_v61 : A V main_v61 = ap11 V val_main_v61 := by
  rw [A_binary 78 rfl, st_main_v53, st_main_v60]; rfl
theorem st_main_v62 : A V main_v62 = val_main_v62 (G V main_arg2) := by
  rw [A_reshape 79 rfl, arg_kept main_arg2]; rfl
theorem st_main_v63 : A V main_v63 = val_main_v63 (G V main_arg2) := by
  rw [A_unary 80 rfl, st_main_v62]; rfl
theorem st_main_v64 : A V main_v64 = ap11 V val_main_v64 := by
  have h : A V main_v64 = concatenate S50000x64 1 [⟨S50000x32, (A V main_arg0 : S50000x32.Idx → EReal)⟩, ⟨S50000x16, (A V main_v61 : S50000x16.Idx → EReal)⟩, ⟨S50000x16, (A V main_v63 : S50000x16.Idx → EReal)⟩] concatenates_S50000x32_S50000x16_S50000x16_S50000x64_d1 := A_nary 81 rfl
  rw [h, arg_kept main_arg0, st_main_v61, st_main_v63]; rfl
theorem st_main_v65 : A V main_v65 = ap12 V val_main_v65 := by
  rw [A_binary 82 rfl, st_main_v64, arg_kept main_arg11]; rfl
theorem st_main_v66 : A V main_v66 = val_main_v66 (G V main_arg12) := by
  rw [A_unary 83 rfl, arg_kept main_arg12]; rfl
theorem st_main_v67 : A V main_v67 = val_main_v67 (G V main_arg12) := by
  rw [A_unary 84 rfl, st_main_v66]; rfl
theorem st_main_v68 : A V main_v68 = ap13 V val_main_v68 := by
  rw [A_binary 85 rfl, st_main_v65, st_main_v67]; rfl
theorem st_main_call2_cst : A V main_call2_cst = val_main_call2_cst (F := Ideal) := A_nullary 86 rfl
theorem st_main_call2_v0 : A V main_call2_v0 = val_main_call2_v0 (F := Ideal) := by
  rw [A_unary 87 rfl, st_main_call2_cst]; rfl
theorem st_main_v69 : A V main_v69 = ap13 V val_main_v69 := by
  rw [A_binary 88 rfl, st_main_v68, st_main_call2_v0]; rfl
theorem st_main_v70 : A V main_v70 = ap14 V val_main_v70 := by
  rw [A_binary 89 rfl, st_main_v69, arg_kept main_arg13]; rfl
theorem st_main_v71 : A V main_v71 = val_main_v71 (G V main_arg14) := by
  rw [A_unary 90 rfl, arg_kept main_arg14]; rfl
theorem st_main_v72 : A V main_v72 = val_main_v72 (G V main_arg14) := by
  rw [A_unary 91 rfl, st_main_v71]; rfl
theorem st_main_v73 : A V main_v73 = ap15 V val_main_v73 := by
  rw [A_binary 92 rfl, st_main_v70, st_main_v72]; rfl
theorem st_main_call3_cst : A V main_call3_cst = val_main_call3_cst (F := Ideal) := A_nullary 93 rfl
theorem st_main_call3_v0 : A V main_call3_v0 = val_main_call3_v0 (F := Ideal) := by
  rw [A_unary 94 rfl, st_main_call3_cst]; rfl
theorem st_main_v74 : A V main_v74 = ap15 V val_main_v74 := by
  rw [A_binary 95 rfl, st_main_v73, st_main_call3_v0]; rfl
theorem st_main_cst_11 : A V main_cst_11 = val_main_cst_11 (F := Ideal) := A_nullary 96 rfl
theorem st_main_v75 : A V main_v75 = ap15 V val_main_v75 := by
  rw [A_binary 97 rfl, st_main_v74, st_main_cst_11]; rfl
theorem st_main_v76 : A V main_v76 = ap15 V val_main_v76 := by
  rw [A_unary 98 rfl, st_main_v75]; rfl
theorem st_main_cst_12 : A V main_cst_12 = val_main_cst_12 (F := Ideal) := A_nullary 99 rfl
theorem st_main_v77 : A V main_v77 = val_main_v77 (F := Ideal) := by
  rw [A_unary 100 rfl, st_main_cst_12]; rfl
theorem st_main_v78 : A V main_v78 = ap15 V val_main_v78 := by
  rw [A_binary 101 rfl, st_main_v76, st_main_v77]; rfl
theorem st_main_v79 : A V main_v79 = ap15 V val_main_v79 := by
  rw [A_unary 102 rfl, st_main_v78]; rfl
theorem st_main_v80 : A V main_v80 = ap15 V val_main_v80 := by
  rw [A_binary 103 rfl, st_main_v74, st_main_v79]; rfl
theorem st_main_v81 : A V main_v81 = ap15 V val_main_v81 := by
  rw [A_binary 104 rfl, st_main_v80]; rfl
theorem st_main_cst_13 : A V main_cst_13 = val_main_cst_13 (F := Ideal) := A_nullary 105 rfl
theorem st_main_v82 : A V main_v82 = ap15 V val_main_v82 := by
  rw [A_binary 106 rfl, st_main_v81, st_main_cst_13]; rfl
theorem st_main_v83 : A V main_v83 = ap15 V val_main_v83 := by
  rw [A_unary 107 rfl, st_main_v82]; rfl
theorem st_main_cst_14 : A V main_cst_14 = val_main_cst_14 (F := Ideal) := A_nullary 108 rfl
theorem st_main_v84 : A V main_v84 = val_main_v84 (F := Ideal) := by
  rw [A_unary 109 rfl, st_main_cst_14]; rfl
theorem st_main_v85 : A V main_v85 = ap15 V val_main_v85 := by
  rw [A_binary 110 rfl, st_main_v83, st_main_v84]; rfl
theorem st_main_v86 : A V main_v86 = ap15 V val_main_v86 := by
  rw [A_unary 111 rfl, st_main_v78]; rfl
theorem st_main_v87 : A V main_v87 = ap15 V val_main_v87 := by
  rw [A_binary 112 rfl, st_main_v74, st_main_v86]; rfl
theorem st_main_cst_15 : A V main_cst_15 = val_main_cst_15 (F := Ideal) := A_nullary 113 rfl
theorem st_main_v88 : A V main_v88 = val_main_v88 (F := Ideal) := by
  rw [A_unary 114 rfl, st_main_cst_15]; rfl
theorem st_main_v89 : A V main_v89 = ap15 V val_main_v89 := by
  rw [A_binary 115 rfl, st_main_v85, st_main_v88]; rfl
theorem st_main_v90 : A V main_v90 = ap15 V val_main_v90 := by
  rw [A_unary 116 rfl, st_main_v89]; rfl
theorem st_main_v91 : A V main_v91 = ap15 V val_main_v91 := by
  rw [A_unary 117 rfl, st_main_v90]; rfl
theorem st_main_v92 : A V main_v92 = ap15 V val_main_v92 := by
  rw [A_binary 118 rfl, st_main_v87, st_main_v91]; rfl
theorem st_main_v93 : A V main_v93 = val_main_v93 (G V main_arg15) := by
  rw [A_unary 119 rfl, arg_kept main_arg15]; rfl
theorem st_main_v94 : A V main_v94 = val_main_v94 (G V main_arg15) := by
  rw [A_unary 120 rfl, st_main_v93]; rfl
theorem st_main_v95 : A V main_v95 = ap16 V val_main_v95 := by
  rw [A_binary 121 rfl, st_main_v92, st_main_v94]; rfl
theorem st_main_v96 : A V main_v96 = val_main_v96 (G V main_arg16) := by
  rw [A_unary 122 rfl, arg_kept main_arg16]; rfl
theorem st_main_v97 : A V main_v97 = val_main_v97 (G V main_arg16) := by
  rw [A_unary 123 rfl, st_main_v96]; rfl
theorem st_main_v98 : A V main_v98 = ap17 V val_main_v98 := by
  rw [A_binary 124 rfl, st_main_v95, st_main_v97]; rfl
theorem st_main_cst_16 : A V main_cst_16 = val_main_cst_16 (F := Ideal) := A_nullary 125 rfl
theorem st_main_v99 : A V main_v99 = ap17 V val_main_v99 := by
  rw [A_binary 126 rfl, st_main_v98, st_main_cst_16]; rfl
theorem st_main_v100 : A V main_v100 = ap17 V val_main_v100 := by
  rw [A_unary 127 rfl, st_main_v99]; rfl
theorem st_main_cst_17 : A V main_cst_17 = val_main_cst_17 (F := Ideal) := A_nullary 128 rfl
theorem st_main_v101 : A V main_v101 = val_main_v101 (F := Ideal) := by
  rw [A_unary 129 rfl, st_main_cst_17]; rfl
theorem st_main_v102 : A V main_v102 = ap17 V val_main_v102 := by
  rw [A_binary 130 rfl, st_main_v100, st_main_v101]; rfl
theorem st_main_cst_18 : A V main_cst_18 = val_main_cst_18 (F := Ideal) := A_nullary 131 rfl
theorem st_main_v103 : A V main_v103 = ap11 V val_main_v103 := by
  rw [A_binary 132 rfl, st_main_v50, st_main_cst_18]; rfl
theorem st_main_v104 : A V main_v104 = ap11 V val_main_v104 := by
  rw [A_unary 133 rfl, st_main_v103]; rfl
theorem st_main_cst_19 : A V main_cst_19 = val_main_cst_19 (F := Ideal) := A_nullary 134 rfl
theorem st_main_v105 : A V main_v105 = val_main_v105 (F := Ideal) := by
  rw [A_unary 135 rfl, st_main_cst_19]; rfl
theorem st_main_v106 : A V main_v106 = ap11 V val_main_v106 := by
  rw [A_binary 136 rfl, st_main_v104, st_main_v105]; rfl
theorem st_main_v107 : A V main_v107 = ap17 V val_main_v107 := by
  have h : A V main_v107 = concatenate S1x64 1 [⟨S1x16, (A V main_arg2 : S1x16.Idx → EReal)⟩, ⟨S1x32, (A V main_v102 : S1x32.Idx → EReal)⟩, ⟨S1x16, (A V main_v106 : S1x16.Idx → EReal)⟩] concatenates_S1x16_S1x32_S1x16_S1x64_d1 := A_nary 137 rfl
  rw [h, arg_kept main_arg2, st_main_v102, st_main_v106]; rfl
theorem st_main_v108 : A V main_v108 = ap18 V val_main_v108 := by
  rw [A_binary 138 rfl, st_main_v107, arg_kept main_arg17]; rfl
theorem st_main_v109 : A V main_v109 = val_main_v109 (G V main_arg18) := by
  rw [A_unary 139 rfl, arg_kept main_arg18]; rfl
theorem st_main_v110 : A V main_v110 = ap19 V val_main_v110 := by
  rw [A_binary 140 rfl, st_main_v108, st_main_v109]; rfl
theorem st_main_call4_cst : A V main_call4_cst = val_main_call4_cst (F := Ideal) := A_nullary 141 rfl
theorem st_main_call4_v0 : A V main_call4_v0 = val_main_call4_v0 (F := Ideal) := by
  rw [A_unary 142 rfl, st_main_call4_cst]; rfl
theorem st_main_v111 : A V main_v111 = ap19 V val_main_v111 := by
  rw [A_binary 143 rfl, st_main_v110, st_main_call4_v0]; rfl
theorem st_main_v112 : A V main_v112 = ap20 V val_main_v112 := by
  rw [A_binary 144 rfl, st_main_v111, arg_kept main_arg19]; rfl
theorem st_main_v113 : A V main_v113 = val_main_v113 (G V main_arg20) := by
  rw [A_unary 145 rfl, arg_kept main_arg20]; rfl
theorem st_main_v114 : A V main_v114 = ap21 V val_main_v114 := by
  rw [A_binary 146 rfl, st_main_v112, st_main_v113]; rfl
theorem st_main_call5_cst : A V main_call5_cst = val_main_call5_cst (F := Ideal) := A_nullary 147 rfl
theorem st_main_call5_v0 : A V main_call5_v0 = val_main_call5_v0 (F := Ideal) := by
  rw [A_unary 148 rfl, st_main_call5_cst]; rfl
theorem st_main_v115 : A V main_v115 = ap21 V val_main_v115 := by
  rw [A_binary 149 rfl, st_main_v114, st_main_call5_v0]; rfl

end Cert.ReferenceIdeal.RefVal

end
-- ==== Proof.RefRun.lean ====
import proofs.«422153_j62534723830204_3_alg».proof.Proof.RefStages

noncomputable section

namespace Cert.ReferenceIdeal.RefVal

open Cert.ReferenceIdeal Cert.ReferenceIdeal.Gen Cert.ReferenceIdeal.Value Cert.ReferenceIdeal.Read Idealize.ShloMosaic
  Idealize.ShloMosaic.TcCoe Idealize.SL.Sem Idealize.ShloMosaic.StableHlo

-- Every terminal state is the fold of the list over the initial memory; read it at the three results and at the arguments.
theorem run (m : (ℓ : Loc nD τ sig) → Buf (Elt Ideal) ℓ) (ρ : Dev nD → PrngReg) :
    θ_run (defs (F := Ideal)) (onTc (τ := τ) (main (F := Ideal))) ⟨m, fun _ => 0, ρ⟩ fun r => ∀ c : Dev nD,
      r.2.mem ((c.tc : Thread nD τ).loc main_v98) = val_main_v98 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13)) (m ((c.tc : Thread nD τ).loc main_arg14)) (m ((c.tc : Thread nD τ).loc main_arg15)) (m ((c.tc : Thread nD τ).loc main_arg16))
      ∧ r.2.mem ((c.tc : Thread nD τ).loc main_v50) = val_main_v50 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10))
      ∧ r.2.mem ((c.tc : Thread nD τ).loc main_v115) = val_main_v115 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13)) (m ((c.tc : Thread nD τ).loc main_arg14)) (m ((c.tc : Thread nD τ).loc main_arg15)) (m ((c.tc : Thread nD τ).loc main_arg16)) (m ((c.tc : Thread nD τ).loc main_arg17)) (m ((c.tc : Thread nD τ).loc main_arg18)) (m ((c.tc : Thread nD τ).loc main_arg19)) (m ((c.tc : Thread nD τ).loc main_arg20))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)
      ∧ r.2.mem ((c.tc : Thread nD τ).loc main_arg19) = m ((c.tc : Thread nD τ).loc main_arg19)
      ∧ r.2.mem ((c.tc : Thread nD τ).loc main_arg20) = m ((c.tc : Thread nD τ).loc main_arg20) :=
  (θ_run defs _ _).mono (fun _ h c =>
    ⟨(h c _).trans st_main_v98, (h c _).trans st_main_v50, (h c _).trans st_main_v115,
      (h c _).trans (arg_kept _), (h c _).trans (arg_kept _), (h c _).trans (arg_kept _), (h c _).trans (arg_kept _), (h c _).trans (arg_kept _), (h c _).trans (arg_kept _), (h c _).trans (arg_kept _),
      (h c _).trans (arg_kept _), (h c _).trans (arg_kept _), (h c _).trans (arg_kept _), (h c _).trans (arg_kept _), (h c _).trans (arg_kept _), (h c _).trans (arg_kept _), (h c _).trans (arg_kept _),
      (h c _).trans (arg_kept _), (h c _).trans (arg_kept _), (h c _).trans (arg_kept _), (h c _).trans (arg_kept _), (h c _).trans (arg_kept _), (h c _).trans (arg_kept _), (h c _).trans (arg_kept _)⟩)
    (run_fold m ρ)

end Cert.ReferenceIdeal.RefVal

end
-- ==== Proof.LibFrameRun.lean ====
import Idealize.ShloMosaic.Lib.Pipeline.RegionsLoop
import Idealize.ShloMosaic.Lib.Pipeline.Frame

noncomputable section

namespace Cert.FrameLib

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg BodyObligation)

variable {nD : Nat} {τ : Topo} {sig : RefSig} {Λ₀ : Labels} {F : FTy → Type} [FloatOps F]

local notation "𝕄" => MT nD τ sig Unit (Elt F) ℕ (UR sig nD τ) ℕ

theorem held_read (c : Dev nD) (V : Valuation τ sig (Elt F)) (s' : Phys nD τ sig (Elt F)) :
    iprop(StableHlo.held (c : Thread nD τ) (Pipeline.ucRefs τ sig) V ∗ SI s')
      ⊢ (|={Set.univ}=> iprop(⌜∀ b : Ref sig .tc, ¬ (Proc.devRef (τ := τ) .tc b).isScoped →
        s'.mem.mem ((c.tc : Thread nD τ).loc b) = V b⌝ ∗ SI s') : sProp 𝕄) := by
  unfold StableHlo.held
  iintro ⟨Hh, HSI⟩
  ihave Hr := (pointsTo_read_all (Pipeline.ucRefs τ sig) (fun b => ((c : Thread nD τ).1, b)) V s') $$ [Hh HSI]
  · isplitl [Hh] <;> iassumption
  icases Hr with ⟨%h, HSI⟩
  imodintro
  isplitr
  · ipureintro
    exact fun b hb => h (Proc.devRef .tc b) (Finset.mem_filter.mpr ⟨StableHlo.devRef_mem_tcRefs b, hb⟩)
  · iexact HSI

abbrev tc (V : Dev nD → Valuation τ sig (Elt F)) : (c : Dev nD) → (b : Ref sig .tc) → Buf (Elt F) ((c : Thread nD τ).loc b) :=
  fun c b => V c b
abbrev noPair : GSem nD τ sig → Finset Unit := fun _ => ∅
abbrev noLevel : GSem nD τ sig → Unit → ℕ := fun _ _ => 0
abbrev rest (c : Dev nD) : sProp 𝕄 := iprop((∃ r, prngReg c r) ∗ ∃ W, owes (c : Thread nD τ) (0 : CellTallies nD τ sig Unit) W)

theorem launch_elt (x : UR sig nD τ) : (ownU x : sProp 𝕄)
    ⊢ |={Set.univ}=> iprop(BI.own ((emb₁ : Emb _ 𝕄) x) ∗ bigSep Finset.univ fun _ : Dev nD => (iprop(emp) : sProp 𝕄)) := by
  iintro Hu; imodintro
  isplitl [Hu]
  · iapply (show (ownU x : sProp 𝕄) ⊢ BI.own ((emb₁ : Emb _ 𝕄) x) from .rfl)
    iexact Hu
  iapply (show (BI.emp : sProp 𝕄) ⊢ bigSep Finset.univ (fun _ : Dev nD => (BI.emp : sProp 𝕄)) from by rw [BI.bigSep_emp_const])
  iempintro

theorem launch_held (m : (ℓ : Loc nD τ sig) → Buf (Elt F) ℓ) (ρ : Dev nD → PrngReg) :
    iprop((bigSep Finset.univ fun c : Dev nD => iprop(unscopedBufs c (fun b => m ((c.tc : Thread nD τ).loc b)) ∗ unscopedSems0 c ∗ owes (c.tc : Thread nD τ) ((0 : Dev nD → CellTallies nD τ sig Unit) c) ∅ ∗ Pipeline.launchCred (0 : Dev nD → CellTallies nD τ sig Unit) c ∗ prngReg c (ρ c) ∗ (iprop(emp) : sProp 𝕄))) ∗ levAts noPair noLevel)
      ⊢ (|={Set.univ}=> bigSep Finset.univ fun c : Dev nD =>
        iprop(StableHlo.held (c : Thread nD τ) (Pipeline.ucRefs τ sig) (fun b => m (c, b)) ∗ rest c) : sProp 𝕄) := by
  refine Pipeline.initEach noPair noLevel fun c => ?_
  rw [← Pipeline.unscopedBufs_held (Ix := Unit) (Name := ℕ) (U := UR sig nD τ) (Lvl := ℕ) c (fun b => m (c, b))]
  iintro ⟨⟨Hb, -, HO, -, Hp, -⟩, -⟩
  imodintro
  isplitl [Hb]; · iexact Hb
  isplitl [Hp]; · iexists _; iexact Hp
  iexists ∅; iexact HO

theorem arrAt_last {cfg : Cfg sig Λ₀} {c : Dev nD} (d : Dat τ (Elt F) Unit ℕ (UR sig nD τ) ℕ cfg c)
    (Vi Vo : Valuation τ sig (Elt F)) (o : Fin cfg.W) (hA : ∀ w, d.A w = Vi (Pipeline.arrRef cfg.spec w))
    (hin : ∀ w, w ≠ o → (cfg.win w).isOut = false ∧ Vo (Pipeline.arrRef cfg.spec w) = Vi (Pipeline.arrRef cfg.spec w))
    (ho : d.arrAt o cfg.N = Vo (Pipeline.arrRef cfg.spec o)) (w : Fin cfg.W) :
    d.arrAt w cfg.N = Vo (Pipeline.arrRef cfg.spec w) := by
  rcases eq_or_ne w o with rfl | h
  · exact ho
  · exact (d.arrAt_in w (hin w h).1 _).trans ((hA w).trans (hin w h).2.symm)

abbrev upd (Vi : Dev nD → Valuation τ sig (Elt F)) (r : Ref sig .tc) (v : (c : Dev nD) → Buf (Elt F) ((c.tc : Thread nD τ).loc r)) :
    Dev nD → Valuation τ sig (Elt F) := fun c => Function.update (Vi c) (Proc.devRef .tc r) (v c)

variable {P : Type} [Fintype P] [DecidableEq P] {cfgs : P → Cfg sig Λ₀} {defs₀ : Defs nD τ sig (Elt F) Λ₀}
  (dats : (p : P) → (c : Dev nD) → Dat τ (Elt F) Unit ℕ (UR sig nD τ) ℕ (cfgs p) c)

def reg (p : P) (lf : Pipeline.LaunchFacts (nD := nD) (τ := τ) cfgs p) (Vi : Dev nD → Valuation τ sig (Elt F))
    (hb : ∀ c, BodyObligation (dats p c) defs₀ Variants.none () Set.univ)
    (hA : ∀ c w, (dats p c).A w = Vi c (Pipeline.arrRef (cfgs p).spec w))
    (o : Fin (cfgs p).W) (hio : ∀ w, w ≠ o → ((cfgs p).win w).isOut = false)
    (v : (c : Dev nD) → Buf (Elt F) ((c.tc : Thread nD τ).loc (Pipeline.arrRef (cfgs p).spec o)))
    (ho : ∀ c, (dats p c).arrAt o (cfgs p).N = v c)
    (hq : ∀ c w, (dats p c).q w = fullShare := by exact fun _ _ => rfl) (h0 : ∀ c t, (dats p c).owed t = 0 := by exact fun _ _ => rfl)
    (hr : ∀ c t, (dats p c).recorded t = Set.univ := by exact fun _ _ => rfl)
    (hΦ : ∀ c t, (dats p c).Φ t = Pipeline.ΦA (cfgs p).spec c := by exact fun _ _ => rfl) :
    Pipeline.RegionSeg (fun q => (cfgs q).toPCfg (Val := Elt F)) (fun q => (cfgs q).toPCfg_adm) dats () defs₀ Variants.none noPair noLevel p where
  win := lf.win.to₀
  block_pos := lf.block_pos
  stage_whole := lf.stage_whole
  K := PEmpty
  osem k := k.elim
  ho := Pipeline.OwnSemFacts.none _
  hbody c := (hb c).loose
  hwaits := Pipeline.hwaits_of_owed_zero _ _ _ _ noPair noLevel p h0
  pre c := iprop(StableHlo.held (c : Thread nD τ) (Pipeline.ucRefs τ sig) (Vi c) ∗ rest c)
  post c := iprop(StableHlo.held (c : Thread nD τ) (Pipeline.ucRefs τ sig) (upd Vi _ v c) ∗ rest c)
  X c := iprop(∃ r, prngReg c r)
  Y c := iprop(∃ r, prngReg c r)
  Z c := Pipeline.unscopedRest (Ix := Unit) (Name := ℕ) (U := UR sig nD τ) (Lvl := ℕ) (cfgs p).spec c (tc Vi c)
  hentry c := by
    rw [Pipeline.ownSems0_none]
    have hsplit := Pipeline.arrays_of_unscopedBufs (p := p) (fun q => (cfgs q).toPCfg (Val := Elt F)) (fun q => (cfgs q).toPCfg_adm) dats lf.win lf.arr_whole c
      ((dats p c).share_full (hq c)) (tc Vi c) (hA c)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin Pipeline.Dat.bound; rw [h0 c, hr c]
      icases HO with ⟨%W, HO⟩; iexists W; isplitr; · ipureintro; exact fun _ _ => Or.inl trivial
      iexact HO
    isplitl [Hp]; · iexact Hp
    iexact Hrest
  hin c := by
    rw [hΦ c]; unfold Pipeline.ΦA
    iintro ⟨Hp, -, Hr⟩
    isplitl [Hr]; · iexact Hr
    iexact Hp
  hout c := by
    rw [Pipeline.ownSems0_none, hΦ c]; unfold Pipeline.ΦA
    iintro ⟨Hr, Hp⟩
    isplitl [Hp]; · iexact Hp
    isplitr; · iempintro
    iexact Hr
  hexit c := by
    have hjoin := Pipeline.unscopedBufs_of_arrays (p := p) (fun q => (cfgs q).toPCfg (Val := Elt F)) (fun q => (cfgs q).toPCfg_adm) (Ix := Unit) (Name := ℕ) (U := UR sig nD τ) (Lvl := ℕ)
      lf.win lf.arr_whole c dats ((dats p c).share_full (hq c))
      (tc Vi c) (tc (upd Vi _ v) c) ((dats p c).arrAt · (cfgs p).N)
      (arrAt_last (dats p c) (Vi c) (upd Vi _ v c) o (hA c)
        (fun w h => ⟨hio w h, Function.update_of_ne (fun e => h (lf.win.arr_inj (Proc.devRef_injective _ e))) _ _⟩)
        (by unfold upd; rw [Function.update_self]; exact ho c))
      fun b hb => Function.update_of_ne
        (fun e => hb (Finset.mem_image.mpr ⟨o, Finset.mem_univ _, (Proc.devRef_injective _ e).symm⟩)) _ _
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin; rw [h0 c]
    icases HO with ⟨%W, -, HO⟩; iexists W; iexact HO

end Cert.FrameLib

end
-- ==== Proof.RunCond.lean ====
import proofs.«422153_j62534723830204_3_alg».proof.Proof.Gen.KernelIdeal.Regions
import proofs.«422153_j62534723830204_3_alg».proof.Proof.LibFrameRun

noncomputable section

namespace Cert.KernelIdeal.Frm

open Cert.KernelIdeal Cert.KernelIdeal.Gen Cert.FrameLib
open Idealize.ShloMosaic Idealize.ShloMosaic.TcCoe
open Idealize.SL Idealize.SL.BI
open scoped Idealize.SL.BI
open Idealize.SL.BI.BIBase Idealize.SL.BI.Laws Idealize.SL.ProofMode Idealize.SL.Sem
open Idealize.ShloMosaic.Pipeline (Dat Seg RegionSeg)

variable {F : FTy → Type} [FloatOps F]

variable (m : (ℓ : Loc nD τ sig) → Buf (Elt F) ℓ)

theorem run_cond (ρ : Dev nD → PrngReg) (outs : Outs (F := F))
    (pdats : (p : Fin 2) → (c : Dev nD) → Dat τ (Elt F) Unit ℕ (UR sig nD τ) ℕ (cfgs p) c)
    (R0 : RegionSeg (pcfgs (F := F)) adm pdats () defs₀ Variants.none noPair noLevel 0)
    (hpre0 : ∀ c : Dev nD, iprop(StableHlo.held (c : Thread nD τ) (Pipeline.ucRefs τ sig) (V3 m c) ∗ rest c) ⊢ R0.pre c)
    (hpost0 : ∀ c : Dev nD, R0.post c ⊢ iprop(StableHlo.held (c : Thread nD τ) (Pipeline.ucRefs τ sig) (V4 m outs c) ∗ rest c))
    (R1 : RegionSeg (pcfgs (F := F)) adm pdats () defs₀ Variants.none noPair noLevel 1)
    (hpre1 : ∀ c : Dev nD, iprop(StableHlo.held (c : Thread nD τ) (Pipeline.ucRefs τ sig) (V5 m outs c) ∗ rest c) ⊢ R1.pre c)
    (hpost1 : ∀ c : Dev nD, R1.post c ⊢ iprop(StableHlo.held (c : Thread nD τ) (Pipeline.ucRefs τ sig) (V6 m outs c) ∗ rest c)) :
    θ_run defs (onTc (τ := τ) (main (F := F))) ⟨m, fun _ => 0, ρ⟩ (fun r => ∀ (c : Dev nD) (b : Ref sig .tc),
      ¬ (Proc.devRef (τ := τ) .tc b).isScoped → r.2.mem ((c.tc : Thread nD τ).loc b) = V10 m outs c b) :=
  Pipeline.θ_run_regions_kit_dev (pcfgs (F := F)) adm pdats () cellOf_inj emb₁ defs₀ Variants.none noPair noLevel m ρ main
    (segs m outs Variants.none noPair noLevel (fun _ c => rest c) () pdats R0 R1)
    (fun c Q => by
      rewrite [main_chain c, Seg.run_eq_chain,
        show (segs m outs Variants.none noPair noLevel (fun _ c => rest c) () pdats R0 R1 c).map Seg.prog = [
          StableHlo.seq hostOps0,
          StableHlo.seq hostOps0_1,
          StableHlo.seq hostOps0_2,
          Prog.lift (.customCall (Pipeline.entry 0) ()),
          StableHlo.seq hostOps1,
          Prog.lift (.customCall (Pipeline.entry 1) ()),
          StableHlo.seq hostOps2,
          StableHlo.seq hostOps2_1,
          StableHlo.seq hostOps2_2,
          StableHlo.seq hostOps2_3 ] from rfl]
      exact .rfl)
    (fun c => by simp only [segs, Seg.pipes_host, Seg.pipes_region, Seg.pipes_nil]; decide) 0 (fun _ _ => rfl) _ _ (launch_elt _)
    (T₀ := fun c => iprop(StableHlo.held (c : Thread nD τ) (Pipeline.ucRefs τ sig) (V0 m c) ∗ rest c))
    (Tₙ := fun c => StableHlo.held (c : Thread nD τ) (Pipeline.ucRefs τ sig) (V10 m outs c))
    (hch := fun c => ⟨.rfl, .rfl, .rfl, hpre0 c, hpost0 c, hpre1 c, hpost1 c, .rfl, .rfl, .rfl,
      sep_mono .rfl (by iintro ⟨-, HO⟩; iexact HO)⟩)
    (hinit := launch_held m ρ) (QY := fun c s => ∀ b : Ref sig .tc,
      ¬ (Proc.devRef (τ := τ) .tc b).isScoped → s.mem ((c.tc : Thread nD τ).loc b) = V10 m outs c b)
    (hfin := fun c s' => held_read c _ s') (hQ := fun _ h => h)

end Cert.KernelIdeal.Frm

end
-- ==== Proof.FrameBody0.lean ====
import proofs.«422153_j62534723830204_3_alg».proof.Proof.Gen.KernelIdeal.Launch
import proofs.«422153_j62534723830204_3_alg».proof.Proof.Gen.KernelIdeal.Skeleton
import proofs.«422153_j62534723830204_3_alg».proof.Proof.Gen.KernelIdeal.Points
import Idealize.ShloMosaic.Lib.Pipeline.FrameBody
import Idealize.ShloMosaic.Lib.Pipeline.TableIdle

noncomputable section

namespace Cert.KernelIdeal.Frm

open Cert.KernelIdeal Gen Idealize.ShloMosaic TcCoe Tactic Idealize.SL RA BI BIBase Sem
open Pipeline (Dat BodyObligation)

variable {F : FTy → Type} [FloatOps F]
  (V : (c : Dev nD) → (b : Ref sig .tc) → Buf (Elt F) ((c : Thread nD τ).loc b)) (c : Dev nD) (w : Fin cfg0.W) (t : Fin cfg0.N)

def iblk0 : ((cfg0.win w).xblock (cfg0.grid.coords t)).Idx → Elt F (cfg0.win w).elt :=
  ((cfg0.win w).blk t).view.read (Elt F) (V c (Pipeline.arrRef spec0 w))

abbrev r0_0 : Rect S8000x96 := Rect.unit _ _ inb_S8000x96_S8000x96_0_0
abbrev r0_1 : Rect S96x128 := Rect.unit _ _ inb_S96x128_S96x128_0_0
abbrev r0_2 : Rect S1x128 := Rect.unit _ _ inb_S1x128_S1x128_0_0
abbrev r0_3 : Rect S128x16 := Rect.unit _ _ inb_S128x16_S128x16_0_0
abbrev r0_4 : Rect S1x16 := Rect.unit _ _ inb_S1x16_S1x16_0_0
abbrev r0_7 : Rect S8000x16 := Rect.unit _ _ inb_S8000x16_S8000x16_0_0

def out0_7 (x0 : Vec F S8000x96 .bf16) (x1 : Vec F S96x128 .f32) (x2 : Vec F S1x128 .f32) (x3 : Vec F S128x16 .f32) (x4 x5 x6 : Vec F S1x16 .f32) : Vec F S8000x16 .f32 :=
  View.canon [⟨r0_7, k0_pay1 (k0_pay2 (View.ld x0 r0_0) (View.ld x1 r0_1) (View.ld x2 r0_2) (View.ld x3 r0_3) (View.ld x4 r0_4)) (View.ld x5 r0_4) (View.ld x6 r0_4)⟩]

def dat0 : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => iblk0 V c 4 t
    | ⟨5, _⟩ => iblk0 V c 5 t
    | ⟨6, _⟩ => iblk0 V c 6 t
    | ⟨7, _⟩ => out0_7 (iblk0 V c 0 t) (iblk0 V c 1 t) (iblk0 V c 2 t) (iblk0 V c 3 t) (iblk0 V c 4 t) (iblk0 V c 5 t) (iblk0 V c 6 t)
  Φ _ := Pipeline.ΦA spec0 c
  q _ := fullShare
  owed _ := 0

theorem A_eq0 : (dat0 V c).A w = V c (Pipeline.arrRef spec0 w) := rfl

theorem after0_7 : (dat0 V c).after 7 t = out0_7 (iblk0 V c 0 t) (iblk0 V c 1 t) (iblk0 V c 2 t) (iblk0 V c 3 t) (iblk0 V c 4 t) (iblk0 V c 5 t) (iblk0 V c 6 t) := by dsimp only [dat0]

theorem before0 (hw : w ≠ 7) (d) : (dat0 V c).before w t d = (dat0 V c).after w t := by
  fin_cases w <;> first | exact absurd rfl hw | exact ((dat0 V c).before_in_eq_fetched _ rfl (fun _ => rfl) (fun _ _ _ => rfl) (fun _ => rfl) t d).trans rfl

theorem body_obligation0 : BodyObligation (dat0 V c) defs₀ Variants.none () Set.univ := fun t => by
  rw [bigSep_W0, bigSep_W0]
  simp (disch := decide) only [before0]
  dsimp only [dat0]
  show _ ⊢ wp _ _ _ (bodyAt0 t) _
  unfold bodyAt0
  simp only [cc0__edge_kernel_eq_skeleton, cc0__edge_kernel_skel, k0_part1_eq_skeleton, k0_part1_skel, owns_eq_rep]
  iintro ⟨HΦ, Ho, ⟨%_, H0⟩, ⟨%_, H1⟩, ⟨%_, H2⟩, ⟨%_, H3⟩, ⟨%_, H4⟩, ⟨%_, H5⟩, ⟨%_, H6⟩, ⟨%d, H7⟩⟩
  sl_exec
  sl_step
  iframe
  isplitl [Ho]; · iexact Ho
  rw [← owns_eq_rep]; unfold owns
  iexists _; isplitr; swap; · iexact H7
  ipureintro
  sl_unfold_run_names
  simp only [View.readAt_eq_ld, View.read_rep]
  exact View.read_writes_eq_canon _ _ _ (View.cover_of_tiled _ S8000x16.size (by rfl))

end Cert.KernelIdeal.Frm

end
-- ==== Proof.FrameBody1.lean ====
import proofs.«422153_j62534723830204_3_alg».proof.Proof.Gen.KernelIdeal.Launch
import proofs.«422153_j62534723830204_3_alg».proof.Proof.Gen.KernelIdeal.Skeleton
import proofs.«422153_j62534723830204_3_alg».proof.Proof.Gen.KernelIdeal.Points
import Idealize.ShloMosaic.Lib.Pipeline.FrameBody
import Idealize.ShloMosaic.Lib.Pipeline.TableIdle

noncomputable section

namespace Cert.KernelIdeal.Frm

open Cert.KernelIdeal Gen Idealize.ShloMosaic TcCoe Tactic Idealize.SL RA BI BIBase Sem
open Pipeline (Dat BodyObligation)

variable {F : FTy → Type} [FloatOps F]
  (V : (c : Dev nD) → (b : Ref sig .tc) → Buf (Elt F) ((c : Thread nD τ).loc b)) (c : Dev nD) (w : Fin cfg1.W) (t : Fin cfg1.N)

def iblk1 : ((cfg1.win w).xblock (cfg1.grid.coords t)).Idx → Elt F (cfg1.win w).elt :=
  ((cfg1.win w).blk t).view.read (Elt F) (V c (Pipeline.arrRef spec1 w))

abbrev r1_0 : Rect S2000x64 := Rect.unit _ _ inb_S2000x64_S2000x64_0_0
abbrev r1_1 : Rect S64x128 := Rect.unit _ _ inb_S64x128_S64x128_0_0
abbrev r1_2 : Rect S1x128 := Rect.unit _ _ inb_S1x128_S1x128_0_0
abbrev r1_3 : Rect S128x32 := Rect.unit _ _ inb_S128x32_S128x32_0_0
abbrev r1_4 : Rect S1x32 := Rect.unit _ _ inb_S1x32_S1x32_0_0
abbrev r1_7 : Rect S2000x32 := Rect.unit _ _ inb_S2000x32_S2000x32_0_0

def out1_7 (x0 : Vec F S2000x64 .bf16) (x1 : Vec F S64x128 .f32) (x2 : Vec F S1x128 .f32) (x3 : Vec F S128x32 .f32) (x4 x5 x6 : Vec F S1x32 .f32) : Vec F S2000x32 .f32 :=
  View.canon [⟨r1_7, k1_pay1 (k1_pay2 (View.ld x0 r1_0) (View.ld x1 r1_1) (View.ld x2 r1_2) (View.ld x3 r1_3) (View.ld x4 r1_4)) (View.ld x5 r1_4) (View.ld x6 r1_4)⟩]

def dat1 : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => iblk1 V c 4 t
    | ⟨5, _⟩ => iblk1 V c 5 t
    | ⟨6, _⟩ => iblk1 V c 6 t
    | ⟨7, _⟩ => out1_7 (iblk1 V c 0 t) (iblk1 V c 1 t) (iblk1 V c 2 t) (iblk1 V c 3 t) (iblk1 V c 4 t) (iblk1 V c 5 t) (iblk1 V c 6 t)
  Φ _ := Pipeline.ΦA spec1 c
  q _ := fullShare
  owed _ := 0

theorem A_eq1 : (dat1 V c).A w = V c (Pipeline.arrRef spec1 w) := rfl

theorem after1_7 : (dat1 V c).after 7 t = out1_7 (iblk1 V c 0 t) (iblk1 V c 1 t) (iblk1 V c 2 t) (iblk1 V c 3 t) (iblk1 V c 4 t) (iblk1 V c 5 t) (iblk1 V c 6 t) := by dsimp only [dat1]

theorem before1 (hw : w ≠ 7) (d) : (dat1 V c).before w t d = (dat1 V c).after w t := by
  fin_cases w <;> first | exact absurd rfl hw | exact ((dat1 V c).before_in_eq_fetched _ rfl (fun _ => rfl) (fun _ _ _ => rfl) (fun _ => rfl) t d).trans rfl

theorem body_obligation1 : BodyObligation (dat1 V c) defs₀ Variants.none () Set.univ := fun t => by
  rw [bigSep_W1, bigSep_W1]
  simp (disch := decide) only [before1]
  dsimp only [dat1]
  show _ ⊢ wp _ _ _ (bodyAt1 t) _
  unfold bodyAt1
  simp only [cc1__node_kernel_eq_skeleton, cc1__node_kernel_skel, k1_part1_eq_skeleton, k1_part1_skel, owns_eq_rep]
  iintro ⟨HΦ, Ho, ⟨%_, H0⟩, ⟨%_, H1⟩, ⟨%_, H2⟩, ⟨%_, H3⟩, ⟨%_, H4⟩, ⟨%_, H5⟩, ⟨%_, H6⟩, ⟨%d, H7⟩⟩
  sl_exec
  sl_step
  iframe
  isplitl [Ho]; · iexact Ho
  rw [← owns_eq_rep]; unfold owns
  iexists _; isplitr; swap; · iexact H7
  ipureintro
  sl_unfold_run_names
  simp only [View.readAt_eq_ld, View.read_rep]
  exact View.read_writes_eq_canon _ _ _ (View.cover_of_tiled _ S2000x32.size (by rfl))

end Cert.KernelIdeal.Frm

end
-- ==== Proof.FrameRun.lean ====
import proofs.«422153_j62534723830204_3_alg».proof.Proof.RunCond
import proofs.«422153_j62534723830204_3_alg».proof.Proof.FrameBody0
import proofs.«422153_j62534723830204_3_alg».proof.Proof.FrameBody1

noncomputable section

namespace Cert.KernelIdeal.Frm

open Cert.KernelIdeal Cert.KernelIdeal.Gen Cert.FrameLib
open Idealize.ShloMosaic Idealize.ShloMosaic.TcCoe Idealize.SL Idealize.SL.Sem
open Idealize.ShloMosaic.Pipeline (Dat)

variable {F : FTy → Type} [FloatOps F]

variable (m : (ℓ : Loc nD τ sig) → Buf (Elt F) ℓ)

def outE (c : Dev nD) : Buf (Elt F) ((c : Thread nD τ).loc main_v9) := (dat0 (tc (V3 m)) c).arrAt 7 cfg0.N

def V5' (c : Dev nD) : Valuation τ sig (Elt F) :=
  StableHlo.after hostOps1 (Function.update (V3 m c) main_v9 (outE m c))

def outX (c : Dev nD) : Buf (Elt F) ((c : Thread nD τ).loc main_v28) := (dat1 (tc (V5' m)) c).arrAt 7 cfg1.N

def outs : Outs (F := F) := fun _ r c =>
  Function.update (β := fun r : Ref sig .tc => Buf (Elt F) ((c : Thread nD τ).loc r))
    (Function.update (β := fun r : Ref sig .tc => Buf (Elt F) ((c : Thread nD τ).loc r))
      (fun r => m ((c : Thread nD τ).loc r)) main_v9 (outE m c)) main_v28 (outX m c) r

theorem outs_v9 (J : ℕ) (c : Dev nD) : outs m J main_v9 c = outE m c := by
  unfold outs; rw [Function.update_of_ne (by decide : main_v9 ≠ main_v28)]; exact Function.update_self ..

theorem V5_outs (c : Dev nD) : V5 m (outs m) c = V5' m c :=
  congrArg (fun x => StableHlo.after hostOps1 (Function.update (V3 m c) (Proc.devRef .tc main_v9) x)) (outs_v9 m 4 c)

theorem outs_e (c : Dev nD) : outs m 4 main_v9 c = (dat0 (fun c b => V3 m c b) c).arrAt 7 cfg0.N :=
  outs_v9 m 4 c
theorem outs_x (c : Dev nD) : outs m 6 main_v28 c = (dat1 (fun c b => V5 m (outs m) c b) c).arrAt 7 cfg1.N := by
  have h : tc (V5' m) = tc (V5 m (outs m)) := funext fun c => funext fun b => (congrFun (V5_outs m c) b).symm
  exact (show outs m 6 main_v28 c = outX m c by unfold outs; exact Function.update_self ..).trans (by unfold outX; rw [h])

def dats : (p : Fin 2) → (c : Dev nD) → Dat τ (Elt F) Unit ℕ (UR sig nD τ) ℕ (cfgs p) c
  | ⟨0, _⟩ => dat0 (tc (V3 m))
  | ⟨1, _⟩ => dat1 (tc (V5 m (outs m)))

def reg0 := reg (dats m) 0 launch0 (V3 m) (body_obligation0 (tc (V3 m))) (A_eq0 (tc (V3 m))) 7 (by decide)
  (fun c => outs m 4 main_v9 c) fun c => (outs_e m c).symm

def reg1 := reg (dats m) 1 launch1 (V5 m (outs m)) (body_obligation1 (tc (V5 m (outs m)))) (A_eq1 (tc (V5 m (outs m)))) 7 (by decide)
  (fun c => outs m 6 main_v28 c) fun c => (outs_x m c).symm

theorem run_values (ρ : Dev nD → PrngReg) : θ_run defs (onTc (τ := τ) (main (F := F))) ⟨m, fun _ => 0, ρ⟩ (fun r => ∀ c : Dev nD,
      r.2.mem ((c.tc : Thread nD τ).loc main_v28) = V10 m (outs m) c main_v28
      ∧ r.2.mem ((c.tc : Thread nD τ).loc main_v9) = V10 m (outs m) c main_v9
      ∧ r.2.mem ((c.tc : Thread nD τ).loc main_v45) = V10 m (outs m) c main_v45
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)
      ∧ r.2.mem ((c.tc : Thread nD τ).loc main_arg19) = m ((c.tc : Thread nD τ).loc main_arg19)
      ∧ r.2.mem ((c.tc : Thread nD τ).loc main_arg20) = m ((c.tc : Thread nD τ).loc main_arg20)) :=
  (θ_run defs _ _).mono (fun r h c => by
    simp (disch := decide) only [h c, true_and]
    exact ⟨V10_main_arg0 .., V10_main_arg1 .., V10_main_arg2 .., V10_main_arg3 .., V10_main_arg4 .., V10_main_arg5 .., V10_main_arg6 ..,
      V10_main_arg7 .., V10_main_arg8 .., V10_main_arg9 .., V10_main_arg10 .., V10_main_arg11 .., V10_main_arg12 .., V10_main_arg13 ..,
      V10_main_arg14 .., V10_main_arg15 .., V10_main_arg16 .., V10_main_arg17 .., V10_main_arg18 .., V10_main_arg19 .., V10_main_arg20 ..⟩)
  (run_cond m ρ (outs m) (dats m) (reg0 m) (fun _ => .rfl) (fun _ => .rfl) (reg1 m) (fun _ => .rfl) (fun _ => .rfl))

theorem frame (ρ : Dev nD → PrngReg) : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)
      ∧ r.2.mem ((c.tc : Thread nD τ).loc main_arg19) = m ((c.tc : Thread nD τ).loc main_arg19)
      ∧ r.2.mem ((c.tc : Thread nD τ).loc main_arg20) = m ((c.tc : Thread nD τ).loc main_arg20)) :=
  (θ_run defs _ _).mono (fun r h c => (h c).2.2.2) (run_values m ρ)

end Cert.KernelIdeal.Frm

end
-- ==== Proof.KernelRunCond.lean ====
import proofs.«422153_j62534723830204_3_alg».proof.Proof.Gen.Kernel.Regions
import proofs.«422153_j62534723830204_3_alg».proof.Proof.LibFrameRun

noncomputable section

namespace Cert.Kernel.Frm

open Cert.Kernel Cert.Kernel.Gen Cert.FrameLib
open Idealize.ShloMosaic Idealize.ShloMosaic.TcCoe
open Idealize.SL Idealize.SL.BI
open scoped Idealize.SL.BI
open Idealize.SL.BI.BIBase Idealize.SL.BI.Laws Idealize.SL.ProofMode Idealize.SL.Sem
open Idealize.ShloMosaic.Pipeline (Dat Seg RegionSeg)

variable {F : FTy → Type} [FloatOps F]

variable (m : (ℓ : Loc nD τ sig) → Buf (Elt F) ℓ)

theorem run_cond (ρ : Dev nD → PrngReg) (outs : Outs (F := F))
    (pdats : (p : Fin 2) → (c : Dev nD) → Dat τ (Elt F) Unit ℕ (UR sig nD τ) ℕ (cfgs p) c)
    (R0 : RegionSeg (pcfgs (F := F)) adm pdats () defs₀ Variants.none noPair noLevel 0)
    (hpre0 : ∀ c : Dev nD, iprop(StableHlo.held (c : Thread nD τ) (Pipeline.ucRefs τ sig) (V3 m c) ∗ rest c) ⊢ R0.pre c)
    (hpost0 : ∀ c : Dev nD, R0.post c ⊢ iprop(StableHlo.held (c : Thread nD τ) (Pipeline.ucRefs τ sig) (V4 m outs c) ∗ rest c))
    (R1 : RegionSeg (pcfgs (F := F)) adm pdats () defs₀ Variants.none noPair noLevel 1)
    (hpre1 : ∀ c : Dev nD, iprop(StableHlo.held (c : Thread nD τ) (Pipeline.ucRefs τ sig) (V5 m outs c) ∗ rest c) ⊢ R1.pre c)
    (hpost1 : ∀ c : Dev nD, R1.post c ⊢ iprop(StableHlo.held (c : Thread nD τ) (Pipeline.ucRefs τ sig) (V6 m outs c) ∗ rest c)) :
    θ_run defs (onTc (τ := τ) (main (F := F))) ⟨m, fun _ => 0, ρ⟩ (fun r => ∀ (c : Dev nD) (b : Ref sig .tc),
      ¬ (Proc.devRef (τ := τ) .tc b).isScoped → r.2.mem ((c.tc : Thread nD τ).loc b) = V10 m outs c b) :=
  Pipeline.θ_run_regions_kit_dev (pcfgs (F := F)) adm pdats () cellOf_inj emb₁ defs₀ Variants.none noPair noLevel m ρ main
    (segs m outs Variants.none noPair noLevel (fun _ c => rest c) () pdats R0 R1)
    (fun c Q => by
      rewrite [main_chain c, Seg.run_eq_chain,
        show (segs m outs Variants.none noPair noLevel (fun _ c => rest c) () pdats R0 R1 c).map Seg.prog = [
          StableHlo.seq hostOps0,
          StableHlo.seq hostOps0_1,
          StableHlo.seq hostOps0_2,
          Prog.lift (.customCall (Pipeline.entry 0) ()),
          StableHlo.seq hostOps1,
          Prog.lift (.customCall (Pipeline.entry 1) ()),
          StableHlo.seq hostOps2,
          StableHlo.seq hostOps2_1,
          StableHlo.seq hostOps2_2,
          StableHlo.seq hostOps2_3 ] from rfl]
      exact .rfl)
    (fun c => by simp only [segs, Seg.pipes_host, Seg.pipes_region, Seg.pipes_nil]; decide) 0 (fun _ _ => rfl) _ _ (launch_elt _)
    (T₀ := fun c => iprop(StableHlo.held (c : Thread nD τ) (Pipeline.ucRefs τ sig) (V0 m c) ∗ rest c))
    (Tₙ := fun c => StableHlo.held (c : Thread nD τ) (Pipeline.ucRefs τ sig) (V10 m outs c))
    (hch := fun c => ⟨.rfl, .rfl, .rfl, hpre0 c, hpost0 c, hpre1 c, hpost1 c, .rfl, .rfl, .rfl,
      sep_mono .rfl (by iintro ⟨-, HO⟩; iexact HO)⟩)
    (hinit := launch_held m ρ) (QY := fun c s => ∀ b : Ref sig .tc,
      ¬ (Proc.devRef (τ := τ) .tc b).isScoped → s.mem ((c.tc : Thread nD τ).loc b) = V10 m outs c b)
    (hfin := fun c s' => held_read c _ s') (hQ := fun _ h => h)

end Cert.Kernel.Frm

end
-- ==== Proof.KernelFrameBody0.lean ====
import proofs.«422153_j62534723830204_3_alg».proof.Proof.Gen.Kernel.Launch
import proofs.«422153_j62534723830204_3_alg».proof.Proof.Gen.Kernel.Skeleton
import proofs.«422153_j62534723830204_3_alg».proof.Proof.Gen.Kernel.Points
import Idealize.ShloMosaic.Lib.Pipeline.FrameBody
import Idealize.ShloMosaic.Lib.Pipeline.TableIdle

noncomputable section

namespace Cert.Kernel.Frm

open Cert.Kernel Gen Idealize.ShloMosaic TcCoe Tactic Idealize.SL RA BI BIBase Sem
open Pipeline (Dat BodyObligation)

variable {F : FTy → Type} [FloatOps F]
  (V : (c : Dev nD) → (b : Ref sig .tc) → Buf (Elt F) ((c : Thread nD τ).loc b)) (c : Dev nD) (w : Fin cfg0.W) (t : Fin cfg0.N)

def iblk0 : ((cfg0.win w).xblock (cfg0.grid.coords t)).Idx → Elt F (cfg0.win w).elt :=
  ((cfg0.win w).blk t).view.read (Elt F) (V c (Pipeline.arrRef spec0 w))

abbrev r0_0 : Rect S8000x96 := Rect.unit _ _ inb_S8000x96_S8000x96_0_0
abbrev r0_1 : Rect S96x128 := Rect.unit _ _ inb_S96x128_S96x128_0_0
abbrev r0_2 : Rect S1x128 := Rect.unit _ _ inb_S1x128_S1x128_0_0
abbrev r0_3 : Rect S128x16 := Rect.unit _ _ inb_S128x16_S128x16_0_0
abbrev r0_4 : Rect S1x16 := Rect.unit _ _ inb_S1x16_S1x16_0_0
abbrev r0_7 : Rect S8000x16 := Rect.unit _ _ inb_S8000x16_S8000x16_0_0

def out0_7 (x0 : Vec F S8000x96 .bf16) (x1 : Vec F S96x128 .f32) (x2 : Vec F S1x128 .f32) (x3 : Vec F S128x16 .f32) (x4 x5 x6 : Vec F S1x16 .f32) : Vec F S8000x16 .f32 :=
  View.canon [⟨r0_7, k0_pay1 (k0_pay2 (View.ld x0 r0_0) (View.ld x1 r0_1) (View.ld x2 r0_2) (View.ld x3 r0_3) (View.ld x4 r0_4)) (View.ld x5 r0_4) (View.ld x6 r0_4)⟩]

def dat0 : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => iblk0 V c 4 t
    | ⟨5, _⟩ => iblk0 V c 5 t
    | ⟨6, _⟩ => iblk0 V c 6 t
    | ⟨7, _⟩ => out0_7 (iblk0 V c 0 t) (iblk0 V c 1 t) (iblk0 V c 2 t) (iblk0 V c 3 t) (iblk0 V c 4 t) (iblk0 V c 5 t) (iblk0 V c 6 t)
  Φ _ := Pipeline.ΦA spec0 c
  q _ := fullShare
  owed _ := 0

theorem A_eq0 : (dat0 V c).A w = V c (Pipeline.arrRef spec0 w) := rfl

theorem after0_7 : (dat0 V c).after 7 t = out0_7 (iblk0 V c 0 t) (iblk0 V c 1 t) (iblk0 V c 2 t) (iblk0 V c 3 t) (iblk0 V c 4 t) (iblk0 V c 5 t) (iblk0 V c 6 t) := by dsimp only [dat0]

theorem before0 (hw : w ≠ 7) (d) : (dat0 V c).before w t d = (dat0 V c).after w t := by
  fin_cases w <;> first | exact absurd rfl hw | exact ((dat0 V c).before_in_eq_fetched _ rfl (fun _ => rfl) (fun _ _ _ => rfl) (fun _ => rfl) t d).trans rfl

theorem body_obligation0 : BodyObligation (dat0 V c) defs₀ Variants.none () Set.univ := fun t => by
  rw [bigSep_W0, bigSep_W0]
  simp (disch := decide) only [before0]
  dsimp only [dat0]
  show _ ⊢ wp _ _ _ (bodyAt0 t) _
  unfold bodyAt0
  simp only [cc0__edge_kernel_eq_skeleton, cc0__edge_kernel_skel, k0_part1_eq_skeleton, k0_part1_skel, owns_eq_rep]
  iintro ⟨HΦ, Ho, ⟨%_, H0⟩, ⟨%_, H1⟩, ⟨%_, H2⟩, ⟨%_, H3⟩, ⟨%_, H4⟩, ⟨%_, H5⟩, ⟨%_, H6⟩, ⟨%d, H7⟩⟩
  sl_exec
  sl_step
  iframe
  isplitl [Ho]; · iexact Ho
  rw [← owns_eq_rep]; unfold owns
  iexists _; isplitr; swap; · iexact H7
  ipureintro
  sl_unfold_run_names
  simp only [View.readAt_eq_ld, View.read_rep]
  exact View.read_writes_eq_canon _ _ _ (View.cover_of_tiled _ S8000x16.size (by rfl))

end Cert.Kernel.Frm

end
-- ==== Proof.KernelFrameBody1.lean ====
import proofs.«422153_j62534723830204_3_alg».proof.Proof.Gen.Kernel.Launch
import proofs.«422153_j62534723830204_3_alg».proof.Proof.Gen.Kernel.Skeleton
import proofs.«422153_j62534723830204_3_alg».proof.Proof.Gen.Kernel.Points
import Idealize.ShloMosaic.Lib.Pipeline.FrameBody
import Idealize.ShloMosaic.Lib.Pipeline.TableIdle

noncomputable section

namespace Cert.Kernel.Frm

open Cert.Kernel Gen Idealize.ShloMosaic TcCoe Tactic Idealize.SL RA BI BIBase Sem
open Pipeline (Dat BodyObligation)

variable {F : FTy → Type} [FloatOps F]
  (V : (c : Dev nD) → (b : Ref sig .tc) → Buf (Elt F) ((c : Thread nD τ).loc b)) (c : Dev nD) (w : Fin cfg1.W) (t : Fin cfg1.N)

def iblk1 : ((cfg1.win w).xblock (cfg1.grid.coords t)).Idx → Elt F (cfg1.win w).elt :=
  ((cfg1.win w).blk t).view.read (Elt F) (V c (Pipeline.arrRef spec1 w))

abbrev r1_0 : Rect S2000x64 := Rect.unit _ _ inb_S2000x64_S2000x64_0_0
abbrev r1_1 : Rect S64x128 := Rect.unit _ _ inb_S64x128_S64x128_0_0
abbrev r1_2 : Rect S1x128 := Rect.unit _ _ inb_S1x128_S1x128_0_0
abbrev r1_3 : Rect S128x32 := Rect.unit _ _ inb_S128x32_S128x32_0_0
abbrev r1_4 : Rect S1x32 := Rect.unit _ _ inb_S1x32_S1x32_0_0
abbrev r1_7 : Rect S2000x32 := Rect.unit _ _ inb_S2000x32_S2000x32_0_0

def out1_7 (x0 : Vec F S2000x64 .bf16) (x1 : Vec F S64x128 .f32) (x2 : Vec F S1x128 .f32) (x3 : Vec F S128x32 .f32) (x4 x5 x6 : Vec F S1x32 .f32) : Vec F S2000x32 .f32 :=
  View.canon [⟨r1_7, k1_pay1 (k1_pay2 (View.ld x0 r1_0) (View.ld x1 r1_1) (View.ld x2 r1_2) (View.ld x3 r1_3) (View.ld x4 r1_4)) (View.ld x5 r1_4) (View.ld x6 r1_4)⟩]

def dat1 : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => iblk1 V c 4 t
    | ⟨5, _⟩ => iblk1 V c 5 t
    | ⟨6, _⟩ => iblk1 V c 6 t
    | ⟨7, _⟩ => out1_7 (iblk1 V c 0 t) (iblk1 V c 1 t) (iblk1 V c 2 t) (iblk1 V c 3 t) (iblk1 V c 4 t) (iblk1 V c 5 t) (iblk1 V c 6 t)
  Φ _ := Pipeline.ΦA spec1 c
  q _ := fullShare
  owed _ := 0

theorem A_eq1 : (dat1 V c).A w = V c (Pipeline.arrRef spec1 w) := rfl

theorem after1_7 : (dat1 V c).after 7 t = out1_7 (iblk1 V c 0 t) (iblk1 V c 1 t) (iblk1 V c 2 t) (iblk1 V c 3 t) (iblk1 V c 4 t) (iblk1 V c 5 t) (iblk1 V c 6 t) := by dsimp only [dat1]

theorem before1 (hw : w ≠ 7) (d) : (dat1 V c).before w t d = (dat1 V c).after w t := by
  fin_cases w <;> first | exact absurd rfl hw | exact ((dat1 V c).before_in_eq_fetched _ rfl (fun _ => rfl) (fun _ _ _ => rfl) (fun _ => rfl) t d).trans rfl

theorem body_obligation1 : BodyObligation (dat1 V c) defs₀ Variants.none () Set.univ := fun t => by
  rw [bigSep_W1, bigSep_W1]
  simp (disch := decide) only [before1]
  dsimp only [dat1]
  show _ ⊢ wp _ _ _ (bodyAt1 t) _
  unfold bodyAt1
  simp only [cc1__node_kernel_eq_skeleton, cc1__node_kernel_skel, k1_part1_eq_skeleton, k1_part1_skel, owns_eq_rep]
  iintro ⟨HΦ, Ho, ⟨%_, H0⟩, ⟨%_, H1⟩, ⟨%_, H2⟩, ⟨%_, H3⟩, ⟨%_, H4⟩, ⟨%_, H5⟩, ⟨%_, H6⟩, ⟨%d, H7⟩⟩
  sl_exec
  sl_step
  iframe
  isplitl [Ho]; · iexact Ho
  rw [← owns_eq_rep]; unfold owns
  iexists _; isplitr; swap; · iexact H7
  ipureintro
  sl_unfold_run_names
  simp only [View.readAt_eq_ld, View.read_rep]
  exact View.read_writes_eq_canon _ _ _ (View.cover_of_tiled _ S2000x32.size (by rfl))

end Cert.Kernel.Frm

end
-- ==== Proof.KernelFrameRun.lean ====
import proofs.«422153_j62534723830204_3_alg».proof.Proof.KernelRunCond
import proofs.«422153_j62534723830204_3_alg».proof.Proof.KernelFrameBody0
import proofs.«422153_j62534723830204_3_alg».proof.Proof.KernelFrameBody1

noncomputable section

namespace Cert.Kernel.Frm

open Cert.Kernel Cert.Kernel.Gen Cert.FrameLib
open Idealize.ShloMosaic Idealize.ShloMosaic.TcCoe Idealize.SL Idealize.SL.Sem
open Idealize.ShloMosaic.Pipeline (Dat)

variable {F : FTy → Type} [FloatOps F]

variable (m : (ℓ : Loc nD τ sig) → Buf (Elt F) ℓ)

def outE (c : Dev nD) : Buf (Elt F) ((c : Thread nD τ).loc main_v9) := (dat0 (tc (V3 m)) c).arrAt 7 cfg0.N

def V5' (c : Dev nD) : Valuation τ sig (Elt F) :=
  StableHlo.after hostOps1 (Function.update (V3 m c) main_v9 (outE m c))

def outX (c : Dev nD) : Buf (Elt F) ((c : Thread nD τ).loc main_v28) := (dat1 (tc (V5' m)) c).arrAt 7 cfg1.N

def outs : Outs (F := F) := fun _ r c =>
  Function.update (β := fun r : Ref sig .tc => Buf (Elt F) ((c : Thread nD τ).loc r))
    (Function.update (β := fun r : Ref sig .tc => Buf (Elt F) ((c : Thread nD τ).loc r))
      (fun r => m ((c : Thread nD τ).loc r)) main_v9 (outE m c)) main_v28 (outX m c) r

theorem outs_v9 (J : ℕ) (c : Dev nD) : outs m J main_v9 c = outE m c := by
  unfold outs; rw [Function.update_of_ne (by decide : main_v9 ≠ main_v28)]; exact Function.update_self ..

theorem V5_outs (c : Dev nD) : V5 m (outs m) c = V5' m c :=
  congrArg (fun x => StableHlo.after hostOps1 (Function.update (V3 m c) (Proc.devRef .tc main_v9) x)) (outs_v9 m 4 c)

theorem outs_e (c : Dev nD) : outs m 4 main_v9 c = (dat0 (fun c b => V3 m c b) c).arrAt 7 cfg0.N :=
  outs_v9 m 4 c
theorem outs_x (c : Dev nD) : outs m 6 main_v28 c = (dat1 (fun c b => V5 m (outs m) c b) c).arrAt 7 cfg1.N := by
  have h : tc (V5' m) = tc (V5 m (outs m)) := funext fun c => funext fun b => (congrFun (V5_outs m c) b).symm
  exact (show outs m 6 main_v28 c = outX m c by unfold outs; exact Function.update_self ..).trans (by unfold outX; rw [h])

def dats : (p : Fin 2) → (c : Dev nD) → Dat τ (Elt F) Unit ℕ (UR sig nD τ) ℕ (cfgs p) c
  | ⟨0, _⟩ => dat0 (tc (V3 m))
  | ⟨1, _⟩ => dat1 (tc (V5 m (outs m)))

def reg0 := reg (dats m) 0 launch0 (V3 m) (body_obligation0 (tc (V3 m))) (A_eq0 (tc (V3 m))) 7 (by decide)
  (fun c => outs m 4 main_v9 c) fun c => (outs_e m c).symm

def reg1 := reg (dats m) 1 launch1 (V5 m (outs m)) (body_obligation1 (tc (V5 m (outs m)))) (A_eq1 (tc (V5 m (outs m)))) 7 (by decide)
  (fun c => outs m 6 main_v28 c) fun c => (outs_x m c).symm

theorem run_values (ρ : Dev nD → PrngReg) : θ_run defs (onTc (τ := τ) (main (F := F))) ⟨m, fun _ => 0, ρ⟩ (fun r => ∀ c : Dev nD,
      r.2.mem ((c.tc : Thread nD τ).loc main_v28) = V10 m (outs m) c main_v28
      ∧ r.2.mem ((c.tc : Thread nD τ).loc main_v9) = V10 m (outs m) c main_v9
      ∧ r.2.mem ((c.tc : Thread nD τ).loc main_v45) = V10 m (outs m) c main_v45
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)
      ∧ r.2.mem ((c.tc : Thread nD τ).loc main_arg19) = m ((c.tc : Thread nD τ).loc main_arg19)
      ∧ r.2.mem ((c.tc : Thread nD τ).loc main_arg20) = m ((c.tc : Thread nD τ).loc main_arg20)) :=
  (θ_run defs _ _).mono (fun r h c => by
    simp (disch := decide) only [h c, true_and]
    exact ⟨V10_main_arg0 .., V10_main_arg1 .., V10_main_arg2 .., V10_main_arg3 .., V10_main_arg4 .., V10_main_arg5 .., V10_main_arg6 ..,
      V10_main_arg7 .., V10_main_arg8 .., V10_main_arg9 .., V10_main_arg10 .., V10_main_arg11 .., V10_main_arg12 .., V10_main_arg13 ..,
      V10_main_arg14 .., V10_main_arg15 .., V10_main_arg16 .., V10_main_arg17 .., V10_main_arg18 .., V10_main_arg19 .., V10_main_arg20 ..⟩)
  (run_cond m ρ (outs m) (dats m) (reg0 m) (fun _ => .rfl) (fun _ => .rfl) (reg1 m) (fun _ => .rfl) (fun _ => .rfl))

theorem frame (ρ : Dev nD → PrngReg) : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)
      ∧ r.2.mem ((c.tc : Thread nD τ).loc main_arg19) = m ((c.tc : Thread nD τ).loc main_arg19)
      ∧ r.2.mem ((c.tc : Thread nD τ).loc main_arg20) = m ((c.tc : Thread nD τ).loc main_arg20)) :=
  (θ_run defs _ _).mono (fun r h c => (h c).2.2.2) (run_values m ρ)

end Cert.Kernel.Frm

end
-- ==== Proof.Spec.lean ====
import Idealize.ShloMosaic.PureOps.Ideal
import Idealize.ShloMosaic.Lib.ValueIdx

open scoped BigOperators

noncomputable section

namespace Cert.Spec

open Idealize.ShloMosaic Idealize.ShloMosaic.ValueIdx

abbrev RArr (s : Shape) : Type := s.Idx → EReal
abbrev WArr (s : Shape) : Type := s.Idx → BitVec 32

def lin {K M : ℕ} (W : Fin K → Fin M → EReal) (b : Fin M → EReal) (v : Fin K → EReal) (j : Fin M) : EReal :=
  (∑ k : Fin K, v k * W k j) + b j

def relu (x : EReal) : EReal := max x 0

def mlp {K H O : ℕ} (W1 : Fin K → Fin H → EReal) (b1 : Fin H → EReal) (W2 : Fin H → Fin O → EReal) (b2 : Fin O → EReal)
    (v : Fin K → EReal) (j : Fin O) : EReal :=
  relu (lin W2 b2 (fun k => relu (lin W1 b1 v k)) j)

def mean {O : ℕ} (d : EReal) (h : Fin O → EReal) : EReal := Ideal.div (∑ k : Fin O, h k) d

def layerNorm {O : ℕ} (d ε : EReal) (g bt h : Fin O → EReal) (j : Fin O) : EReal :=
  (h j - mean d h) * Ideal.rsqrt (mean d (fun k => (h k - mean d h) * (h k - mean d h)) + ε) * g j + bt j

def mlpLN {K H O : ℕ} (d ε : EReal) (W1 : Fin K → Fin H → EReal) (b1 : Fin H → EReal) (W2 : Fin H → Fin O → EReal)
    (b2 g bt : Fin O → EReal) (v : Fin K → EReal) (j : Fin O) : EReal :=
  layerNorm d ε g bt (mlp W1 b1 W2 b2 v) j

abbrev c16 : EReal := Ideal.ofBits .f32 0x41800000#32
abbrev c32 : EReal := Ideal.ofBits .f32 0x42000000#32
abbrev cN : EReal := Ideal.ofBits .f32 0x47435000#32
abbrev cE : EReal := Ideal.ofBits .f32 0x49C35000#32
abbrev cEps : EReal := Ideal.ofBits .f32 0x3727C5AC#32
abbrev cOne : EReal := Ideal.ofBits .f32 0x3F800000#32

structure Args where
  x : RArr ⟨2, ![50000, 32]⟩
  ea : RArr ⟨2, ![1600000, 16]⟩
  u : RArr ⟨2, ![1, 16]⟩
  src : WArr ⟨1, ![1600000]⟩
  dst : WArr ⟨1, ![1600000]⟩
  eW1 : RArr ⟨2, ![96, 128]⟩
  eb1 : RArr ⟨1, ![128]⟩
  eW2 : RArr ⟨2, ![128, 16]⟩
  eb2 : RArr ⟨1, ![16]⟩
  eg : RArr ⟨1, ![16]⟩
  ebt : RArr ⟨1, ![16]⟩
  nW1 : RArr ⟨2, ![64, 128]⟩
  nb1 : RArr ⟨1, ![128]⟩
  nW2 : RArr ⟨2, ![128, 32]⟩
  nb2 : RArr ⟨1, ![32]⟩
  ng : RArr ⟨1, ![32]⟩
  nbt : RArr ⟨1, ![32]⟩
  gW1 : RArr ⟨2, ![64, 128]⟩
  gb1 : RArr ⟨1, ![128]⟩
  gW2 : RArr ⟨2, ![128, 16]⟩
  gb2 : RArr ⟨1, ![16]⟩

abbrev mat {A B : ℕ} (w : RArr ⟨2, ![A, B]⟩) (a : Fin A) (b : Fin B) : EReal := w (ix2 a b)
abbrev vec {A : ℕ} (w : RArr ⟨1, ![A]⟩) (a : Fin A) : EReal := w (ix1 a)

def nodeOf (w : BitVec 32) : Fin 50000 := ⟨min w.toInt.toNat 49999, by omega⟩

def InRange (idx : WArr ⟨1, ![1600000]⟩) : Prop := ∀ e : Fin 1600000, 0 ≤ (idx (ix1 e)).toInt ∧ (idx (ix1 e)).toInt < 50000

variable (A : Args)

def sN (e : Fin 1600000) : Fin 50000 := nodeOf (A.src (ix1 e))
def dN (e : Fin 1600000) : Fin 50000 := nodeOf (A.dst (ix1 e))

def eIn (e : Fin 1600000) (l : Fin 96) : EReal :=
  if h₁ : l.val < 16 then A.ea (ix2 e (⟨l.val, h₁⟩ : Fin 16))
  else if h₂ : l.val < 48 then A.x (ix2 (sN A e) (⟨l.val - 16, by omega⟩ : Fin 32))
  else if h₃ : l.val < 80 then A.x (ix2 (dN A e) (⟨l.val - 48, by omega⟩ : Fin 32))
  else A.u (ix2 (0 : Fin 1) (⟨l.val - 80, by omega⟩ : Fin 16))

def eOut (e : Fin 1600000) (j : Fin 16) : EReal :=
  mlpLN c16 cEps (mat A.eW1) (vec A.eb1) (mat A.eW2) (vec A.eb2) (vec A.eg) (vec A.ebt) (eIn A e) j

def aggSum (n : Fin 50000) (j : Fin 16) : EReal := ∑ e : Fin 1600000, if dN A e = n then eOut A e j else 0
def cnt (n : Fin 50000) : EReal := ∑ e : Fin 1600000, if dN A e = n then cOne else 0

def agg (n : Fin 50000) (j : Fin 16) : EReal := Ideal.div (aggSum A n j) (max (cnt A n) cOne)

def nIn (n : Fin 50000) (l : Fin 64) : EReal :=
  if h₁ : l.val < 32 then A.x (ix2 n (⟨l.val, h₁⟩ : Fin 32))
  else if h₂ : l.val < 48 then agg A n (⟨l.val - 32, by omega⟩ : Fin 16)
  else A.u (ix2 (0 : Fin 1) (⟨l.val - 48, by omega⟩ : Fin 16))

def xOut (n : Fin 50000) (j : Fin 32) : EReal :=
  mlpLN c32 cEps (mat A.nW1) (vec A.nb1) (mat A.nW2) (vec A.nb2) (vec A.ng) (vec A.nbt) (nIn A n) j

def meanX (j : Fin 32) : EReal := Ideal.div (∑ n : Fin 50000, xOut A n j) cN
def meanE (j : Fin 16) : EReal := Ideal.div (∑ e : Fin 1600000, eOut A e j) cE

def meanEByNode (j : Fin 16) : EReal := Ideal.div (∑ n : Fin 50000, aggSum A n j) cE

def gInOf (mE : Fin 16 → EReal) (l : Fin 64) : EReal :=
  if h₁ : l.val < 16 then A.u (ix2 (0 : Fin 1) (⟨l.val, h₁⟩ : Fin 16))
  else if h₂ : l.val < 48 then meanX A (⟨l.val - 16, by omega⟩ : Fin 32)
  else mE (⟨l.val - 48, by omega⟩ : Fin 16)

def uOutOf (mE : Fin 16 → EReal) (j : Fin 16) : EReal :=
  mlp (mat A.gW1) (vec A.gb1) (mat A.gW2) (vec A.gb2) (gInOf A mE) j
def uOut (j : Fin 16) : EReal := uOutOf A (meanE A) j

theorem sum_aggSum (j : Fin 16) : (∑ n : Fin 50000, aggSum A n j) = ∑ e : Fin 1600000, eOut A e j := by
  unfold aggSum
  rw [Finset.sum_comm]
  exact Finset.sum_congr rfl fun e _ => by rw [Finset.sum_ite_eq Finset.univ (dN A e)]; simp

theorem meanEByNode_eq : meanEByNode A = meanE A := by
  funext j; unfold meanEByNode meanE; rw [sum_aggSum]

end Cert.Spec

end
-- ==== Proof.LibDotPlain.lean ====
import Idealize.ShloMosaic.PureOps.Ideal.Laws
import Idealize.ShloMosaic.Lib.ValueIdx

noncomputable section

open scoped BigOperators

namespace Cert.LibDotPlain

open Idealize.ShloMosaic Idealize.ShloMosaic.ValueIdx

variable {m n k : Nat} (w : DotDims.WF ⟨2, ![m, k]⟩ ⟨2, ![k, n]⟩ ⟨2, ![m, n]⟩ [1] [0] [0] [1] [] [])

-- The plain product: the left operand's last axis against the right operand's first.
abbrev plain : DotDims ⟨2, ![m, k]⟩ ⟨2, ![k, n]⟩ ⟨2, ![m, n]⟩ := ⟨[1], [0], [0], [1], [], [], w⟩

-- One coordinate is contracted: reindex the sum along it and read both operands' indices.
theorem matmul_zero_apply {φ₁ φ₂ : FTy} (prec : Option ContractPrecision) (A : FVec Ideal ⟨2, ![m, k]⟩ φ₁)
    (B : FVec Ideal ⟨2, ![k, n]⟩ φ₂) (a : Fin m) (b : Fin n) :
    FloatOps.matmul (plain w) prec A B (constant ⟨2, ![m, n]⟩ .f32 0x00000000#32) (ix2 a b)
      = ∑ c : Fin k, A (ix2 a c) * B (ix2 c b) := by
  rw [Ideal.matmul_constant_zero_apply, ← Equiv.sum_comp (contrEquiv1 (plain w) k rfl rfl).symm]
  refine Finset.sum_congr rfl fun c _ => ?_
  have c2 := contrEquiv1_symm_val (plain w) k rfl rfl c
  have l2 : (plain w).lhsIdx (ix2 a b) ((contrEquiv1 _ k rfl rfl).symm c) = ix2 a c := by
    funext ax; apply Fin.ext
    match ax with
    | ⟨0, _⟩ => simp [DotDims.lhsIdx]; rfl
    | ⟨1, _⟩ => simp [DotDims.lhsIdx]; exact c2
  have r2 : (plain w).rhsIdx (ix2 a b) ((contrEquiv1 _ k rfl rfl).symm c) = ix2 c b := by
    funext ax; apply Fin.ext
    match ax with
    | ⟨0, _⟩ => simp [DotDims.rhsIdx]; exact c2
    | ⟨1, _⟩ => simp [DotDims.rhsIdx]; rfl
  rw [l2, r2]

end Cert.LibDotPlain

end
-- ==== Proof.LibColumn.lean ====
import Idealize.ShloMosaic.Lib.ValueLayout

namespace Cert.LibColumn

open Idealize.ShloMosaic Idealize.ShloMosaic.ValueIdx

variable {α : Type} {a b : ℕ}

-- The row-major position of `(i, u)` in `[a, 1]` is `i * 1 + u` with `u = 0`.
theorem shapeCast_a_a1_apply (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    rw [Shape.rowMajor_val_two, Shape.rowMajor_val_one]
    show i.val = i.val * 1 + u.val
    omega)

-- Only the unit axis is broadcast along; the row coordinate is kept.
theorem broadcastTo_a1_ab_apply (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Cert.LibColumn
-- ==== Proof.KPay0.lean ====
import proofs.«422153_j62534723830204_3_alg».proof.Proof.Spec
import proofs.«422153_j62534723830204_3_alg».proof.Proof.LibDotPlain
import proofs.«422153_j62534723830204_3_alg».proof.Proof.LibColumn
import Idealize.ShloMosaic.PureOps.Ideal.Laws
import Idealize.ShloMosaic.Lib.ValueIdx
import Idealize.ShloMosaic.Lib.ValueLayout
import Idealize.ShloMosaic.Lib.Pipeline.Value

open scoped BigOperators

noncomputable section

namespace Cert.PayLayers

open Idealize.ShloMosaic Idealize.ShloMosaic.ValueIdx

section Dense
variable {m K N : ℕ} {φ₁ φ₂ : FTy} (w : DotDims.WF ⟨2, ![m, K]⟩ ⟨2, ![K, N]⟩ ⟨2, ![m, N]⟩ [1] [0] [0] [1] [] [])
  (hb : (⟨2, ![1, N]⟩ : Shape).Broadcasts ⟨2, ![m, N]⟩)
  (A : FVec Ideal ⟨2, ![m, K]⟩ φ₁) (B : FVec Ideal ⟨2, ![K, N]⟩ φ₂) (b : FVec Ideal ⟨2, ![1, N]⟩ .f32)

-- `max (A · B + b, 0)`, the row `b` added to every row of the product.
def denseRelu : FVec Ideal ⟨2, ![m, N]⟩ .f32 :=
  maximumf
    (addf
      (matmul (Cert.LibDotPlain.plain w) none A B
        (constant (F := Ideal) ⟨2, ![m, N]⟩ .f32 0x00000000#32))
      (broadcastTo ⟨2, ![m, N]⟩ b hb))
    (broadcast ⟨2, ![m, N]⟩ (Scalar.ofBits (F := Ideal) .f32 0x00000000#32))

theorem denseRelu_apply (r : Fin m) (j : Fin N) : denseRelu w hb A B b (ix2 r j)
    = Cert.Spec.relu (Cert.Spec.lin (fun k k' => B (ix2 k k')) (fun k => b (ix2 (0 : Fin 1) k)) (fun l => A (ix2 r l)) j) := by
  unfold denseRelu Cert.Spec.relu Cert.Spec.lin
  show max (FloatOps.matmul _ none A B (constant (F := Ideal) ⟨2, ![m, N]⟩ .f32 0x00000000#32) (ix2 r j)
      + broadcastTo ⟨2, ![m, N]⟩ b hb (ix2 r j)) (Ideal.ofBits .f32 0x00000000#32) = _
  rw [Cert.LibDotPlain.matmul_zero_apply, broadcastTo_1b_ab_apply, Ideal.ofBits_zero_f32]

end Dense

variable {m O : ℕ} (hred : (⟨2, ![m, O]⟩ : Shape).Reduces [1] ⟨1, ![m]⟩) (hsc : (⟨1, ![m]⟩ : Shape).ShapeCasts ⟨2, ![m, 1]⟩)
  (hbc : (⟨2, ![m, 1]⟩ : Shape).Broadcasts ⟨2, ![m, O]⟩) (hb : (⟨2, ![1, O]⟩ : Shape).Broadcasts ⟨2, ![m, O]⟩)
  (d ε : BitVec 32)

section Norm
variable (h : FVec Ideal ⟨2, ![m, O]⟩ .f32) (g bt : FVec Ideal ⟨2, ![1, O]⟩ .f32)

-- The column of row sums divided by `d`.
def rowMean : FVec Ideal ⟨2, ![m, 1]⟩ .f32 :=
  divf
    (shapeCast ⟨2, ![m, 1]⟩ (multiReduction .add [1] ⟨1, ![m]⟩ h 0x00000000#32 hred (.inl rfl) rfl) hsc)
    (broadcast ⟨2, ![m, 1]⟩ (Scalar.ofBits (F := Ideal) .f32 d))

theorem lift_row (r : Fin m) (k : Fin O) : hred.lift (ix1 r) k = ix2 r k := by
  funext ax; apply Fin.ext
  match ax with
  | ⟨0, _⟩ => rfl
  | ⟨1, _⟩ => rfl

theorem rowMean_apply (r : Fin m) :
    rowMean hred hsc d h (ix2 r (0 : Fin 1)) = Cert.Spec.mean (Ideal.ofBits .f32 d) (fun k => h (ix2 r k)) := by
  unfold rowMean Cert.Spec.mean
  rw [divf_apply, Cert.LibColumn.shapeCast_a_a1_apply]
  refine congrArg (fun t => Ideal.div t (Ideal.ofBits .f32 d)) ?_
  refine (Ideal.multiReduction_add_single h 0x00000000#32 hred (.inl rfl) rfl (ix1 r)).trans ?_
  exact Finset.sum_congr rfl fun k _ => congrArg h (lift_row hred r k)

-- Each row less its mean.
def centred : FVec Ideal ⟨2, ![m, O]⟩ .f32 :=
  subf h (broadcastTo ⟨2, ![m, O]⟩ (rowMean hred hsc d h) hbc)

theorem centred_apply (r : Fin m) (j : Fin O) :
    centred hred hsc hbc d h (ix2 r j) = h (ix2 r j) - Cert.Spec.mean (Ideal.ofBits .f32 d) (fun k => h (ix2 r k)) := by
  unfold centred
  rw [subf_apply, Cert.LibColumn.broadcastTo_a1_ab_apply, rowMean_apply]

-- Each centred row over the square root of its variance plus `ε`, times the row `g`, plus the row `bt`.
def rowLN : FVec Ideal ⟨2, ![m, O]⟩ .f32 :=
  addf
    (mulf
      (mulf (centred hred hsc hbc d h)
        (broadcastTo ⟨2, ![m, O]⟩
          (rsqrt (addf (rowMean hred hsc d (mulf (centred hred hsc hbc d h) (centred hred hsc hbc d h)))
            (broadcast ⟨2, ![m, 1]⟩ (Scalar.ofBits (F := Ideal) .f32 ε))))
          hbc))
      (broadcastTo ⟨2, ![m, O]⟩ g hb))
    (broadcastTo ⟨2, ![m, O]⟩ bt hb)

theorem rowLN_apply (r : Fin m) (j : Fin O) : rowLN hred hsc hbc hb d ε h g bt (ix2 r j)
    = Cert.Spec.layerNorm (Ideal.ofBits .f32 d) (Ideal.ofBits .f32 ε) (fun k => g (ix2 (0 : Fin 1) k))
        (fun k => bt (ix2 (0 : Fin 1) k)) (fun k => h (ix2 r k)) j := by
  unfold rowLN Cert.Spec.layerNorm
  rw [addf_apply, mulf_apply, mulf_apply, Cert.LibColumn.broadcastTo_a1_ab_apply, broadcastTo_1b_ab_apply, broadcastTo_1b_ab_apply]
  show _
      * Ideal.rsqrt (rowMean hred hsc d (mulf (centred hred hsc hbc d h) (centred hred hsc hbc d h)) (ix2 r (0 : Fin 1))
          + Ideal.ofBits .f32 ε) * _ + _ = _
  rw [rowMean_apply, centred_apply]
  simp only [mulf_apply, centred_apply]

end Norm

section Block
variable {K H : ℕ} (w1 : DotDims.WF ⟨2, ![m, K]⟩ ⟨2, ![K, H]⟩ ⟨2, ![m, H]⟩ [1] [0] [0] [1] [] [])
  (w2 : DotDims.WF ⟨2, ![m, H]⟩ ⟨2, ![H, O]⟩ ⟨2, ![m, O]⟩ [1] [0] [0] [1] [] [])
  (hb1 : (⟨2, ![1, H]⟩ : Shape).Broadcasts ⟨2, ![m, H]⟩)
  (hc0 : (⟨2, ![m, K]⟩ : Shape).ShapeCasts ⟨2, ![m, K]⟩) (hc1 : (⟨2, ![1, H]⟩ : Shape).ShapeCasts ⟨2, ![1, H]⟩)
  (hc2 : (⟨2, ![1, O]⟩ : Shape).ShapeCasts ⟨2, ![1, O]⟩) (hlt : FTy.bits .bf16 < FTy.bits .f32)
  (x0 : FVec Ideal ⟨2, ![m, K]⟩ .bf16) (x1 : FVec Ideal ⟨2, ![K, H]⟩ .f32) (x2 : FVec Ideal ⟨2, ![1, H]⟩ .f32)
  (x3 : FVec Ideal ⟨2, ![H, O]⟩ .f32) (x4 x5 x6 : FVec Ideal ⟨2, ![1, O]⟩ .f32)

-- Two dense layers with activation, then the normalisation of each row with scale `x5` and shift `x6`.
def block : FVec Ideal ⟨2, ![m, O]⟩ .f32 :=
  rowLN hred hsc hbc hb d ε
    (denseRelu w2 hb
      (truncf .bf16 (denseRelu w1 hb1 (shapeCast ⟨2, ![m, K]⟩ x0 hc0) (truncf .bf16 x1 hlt) (shapeCast ⟨2, ![1, H]⟩ x2 hc1)) hlt)
      (truncf .bf16 x3 hlt) (shapeCast ⟨2, ![1, O]⟩ x4 hc2))
    (shapeCast ⟨2, ![1, O]⟩ x5 hc2) (shapeCast ⟨2, ![1, O]⟩ x6 hc2)

theorem block_apply (r : Fin m) (j : Fin O) :
    block hred hsc hbc hb d ε w1 w2 hb1 hc0 hc1 hc2 hlt x0 x1 x2 x3 x4 x5 x6 (ix2 r j)
      = Cert.Spec.mlpLN (Ideal.ofBits .f32 d) (Ideal.ofBits .f32 ε) (fun k k' => x1 (ix2 k k')) (fun k => x2 (ix2 (0 : Fin 1) k))
          (fun k k' => x3 (ix2 k k')) (fun k => x4 (ix2 (0 : Fin 1) k)) (fun k => x5 (ix2 (0 : Fin 1) k))
          (fun k => x6 (ix2 (0 : Fin 1) k)) (fun l => x0 (ix2 r l)) j := by
  unfold block Cert.Spec.mlpLN Cert.Spec.mlp
  rw [rowLN_apply]
  simp only [denseRelu_apply, truncf_apply, shapeCast_self]

end Block

end Cert.PayLayers

namespace Cert.KernelIdeal.Val

theorem zeroOff : (![0, 0] : Fin 2 → Nat) = fun _ => 0 := funext fun a => by fin_cases a <;> rfl

end Cert.KernelIdeal.Val

end
-- ==== Proof.KBlocks0.lean ====
import proofs.«422153_j62534723830204_3_alg».proof.Proof.KPay0
import proofs.«422153_j62534723830204_3_alg».proof.Proof.FrameBody0
import proofs.«422153_j62534723830204_3_alg».proof.Proof.Spec
import Idealize.ShloMosaic.Lib.Pipeline.Value
import Idealize.ShloMosaic.Lib.ValueIdx

noncomputable section

namespace Cert.KernelIdeal.Val

open Cert.KernelIdeal Cert.KernelIdeal.Gen Cert.KernelIdeal.Frm
open Idealize.ShloMosaic Idealize.ShloMosaic.TcCoe Idealize.ShloMosaic.ValueIdx Idealize.SL.Sem
open Idealize.ShloMosaic.Pipeline (Dat)

variable (V : (c : Dev nD) → (b : Ref sig .tc) → Buf (Elt Ideal) ((c : Thread nD τ).loc b))

namespace Blocks0

variable (c : Dev nD) (t : Fin cfg0.N)

-- Row `e`, column `j` of the updated edges: the perceptron with normalisation of row `e` of the edge inputs.
def edgeArr (e : Fin 1600000) (j : Fin 16) : EReal :=
  Cert.Spec.mlpLN Cert.Spec.c16 Cert.Spec.cEps
    (fun k k' => V c main_arg5 (ix2 k k'))
    (fun k => V c main_v5 (ix2 (0 : Fin 1) k))
    (fun k k' => V c main_arg7 (ix2 k k'))
    (fun k => V c main_v6 (ix2 (0 : Fin 1) k))
    (fun k => V c main_v7 (ix2 (0 : Fin 1) k))
    (fun k => V c main_v8 (ix2 (0 : Fin 1) k))
    (fun l => V c main_v4 (ix2 e l)) j

theorem blockIdx : ∀ t : Fin cfg0.N, win0_0.index t 0 = t.val ∧ win0_0.index t 1 = 0 ∧ ∀ a : Fin 2,
    win0_7.index t a = win0_0.index t a ∧ win0_1.index t a = 0 ∧ win0_2.index t a = 0 ∧ win0_3.index t a = 0
    ∧ win0_4.index t a = 0 ∧ win0_5.index t a = 0 ∧ win0_6.index t a = 0 :=
  (by decide +kernel : ∀ t : Fin grid0.N, _)

theorem w1 : (iblk0 V c 1 t : Vec Ideal S96x128 .f32) = V c main_arg5 :=
  funext fun y => congrArg (V c main_arg5) (funext fun a => Fin.ext (win0_1.rect_emb_val_of_index_zero t a ((blockIdx t).2.2 a).2.1 y))
theorem w2 : (iblk0 V c 2 t : Vec Ideal S1x128 .f32) = V c main_v5 :=
  funext fun y => congrArg (V c main_v5) (funext fun a => Fin.ext (win0_2.rect_emb_val_of_index_zero t a ((blockIdx t).2.2 a).2.2.1 y))
theorem w3 : (iblk0 V c 3 t : Vec Ideal S128x16 .f32) = V c main_arg7 :=
  funext fun y => congrArg (V c main_arg7) (funext fun a => Fin.ext (win0_3.rect_emb_val_of_index_zero t a ((blockIdx t).2.2 a).2.2.2.1 y))
theorem w4 : (iblk0 V c 4 t : Vec Ideal S1x16 .f32) = V c main_v6 :=
  funext fun y => congrArg (V c main_v6) (funext fun a => Fin.ext (win0_4.rect_emb_val_of_index_zero t a ((blockIdx t).2.2 a).2.2.2.2.1 y))
theorem w5 : (iblk0 V c 5 t : Vec Ideal S1x16 .f32) = V c main_v7 :=
  funext fun y => congrArg (V c main_v7) (funext fun a => Fin.ext (win0_5.rect_emb_val_of_index_zero t a ((blockIdx t).2.2 a).2.2.2.2.2.1 y))
theorem w6 : (iblk0 V c 6 t : Vec Ideal S1x16 .f32) = V c main_v8 :=
  funext fun y => congrArg (V c main_v8) (funext fun a => Fin.ext (win0_6.rect_emb_val_of_index_zero t a ((blockIdx t).2.2 a).2.2.2.2.2.2 y))

-- Block `t` starts at row `8000 t` and has 8000 rows.
theorem rows_apply (r : Fin 8000) (l : Fin 96) (e : Fin 1600000) (he : e.val = t.val * 8000 + r.val) :
    (iblk0 V c 0 t : Vec Ideal S8000x96 .bf16) (ix2 r l) = (V c main_v4 : S1600000x96.Idx → EReal) (ix2 e l) :=
  congrArg (V c main_v4) (Shape.idx_ext₂
    ((win0_0.rect_emb_val t (ix2 r l) 0).trans (by rw [(blockIdx t).1]; exact he.symm))
    (win0_0.rect_emb_val_of_index_zero t 1 (blockIdx t).2.1 (ix2 r l)))

-- Entry by entry: the arithmetic on row `r` of block `t` is the array function at row `8000 t + r`.
theorem flushed_eq :
    (dat0 V c).flushed 7 t = ((cfg0.win 7).blk t).view.read (Elt Ideal) fun i => edgeArr V c (i 0) (i 1) := by
  show (cfg0.win 7).cut (grid0.coords t) ((dat0 V c).after 7 t) = _
  rw [after0_7]
  unfold out0_7
  rw [View.canon_unit_zero zeroOff]
  simp only [View.ld_unit_zero (S := S8000x96) zeroOff, View.ld_unit_zero (S := S96x128) zeroOff, View.ld_unit_zero (S := S1x128) zeroOff,
    View.ld_unit_zero (S := S128x16) zeroOff, View.ld_unit_zero (S := S1x16) zeroOff]
  obtain ⟨h0, h1, h⟩ := blockIdx t
  refine funext fun (y : S8000x16.Idx) => ?_
  obtain ⟨r, j, rfl⟩ : ∃ (r : Fin 8000) (j : Fin 16), y = ix2 r j := ⟨y 0, y 1, eq_ix2 y⟩
  have he := (win0_7.rect_emb_val t (ix2 r j) 0).trans (by rw [(h 0).1, h0])
  refine (Cert.PayLayers.block_apply _ _ _ _ _ _ _ _ _ _ _ _ _ _ _ _ _ _ _ _ r j).trans ?_
  rw [w1 V c t, w2 V c t, w3 V c t, w4 V c t, w5 V c t, w6 V c t]
  exact congr (congrArg (Cert.Spec.mlpLN _ _ _ _ _ _ _ _) (funext fun l => rows_apply V c t r l _ he))
    (Fin.ext (win0_7.rect_emb_val_of_index_zero t 1 ((h 1).1.trans h1) (ix2 r j))).symm

-- Row `e` lies in block `e / 8000`.
theorem cover (i : S1600000x16.Idx) : ∃ t : Fin cfg0.N, (cfg0.win 7).flush t = true ∧ i ∈ ((cfg0.win 7).blk t).view.set := by
  have hN : cfg0.N = 200 := N_0
  have hi : (i 0).val < 1600000 := (i 0).isLt
  have ht : (i 0).val / 8000 < cfg0.N := by omega
  obtain ⟨h0, h1, h⟩ := blockIdx ⟨_, ht⟩
  have hy := ((cfg0.win 7).blk ⟨_, ht⟩).view.emb_mem_set (ix2 (⟨(i 0).val % 8000, Nat.mod_lt _ (by decide)⟩ : Fin 8000) (i 1))
  rw [show ((cfg0.win 7).blk ⟨_, ht⟩).view.emb _ = i from Shape.idx_ext₂
    ((win0_7.rect_emb_val ⟨_, ht⟩ _ 0).trans (by rw [(h 0).1, h0]; exact Nat.div_add_mod' _ _))
    (win0_7.rect_emb_val_of_index_zero ⟨_, ht⟩ 1 ((h 1).1.trans h1) _)] at hy
  exact ⟨_, flush0_7 _, hy⟩

end Blocks0

theorem arr0_apply (c : Dev nD) (e : Fin 1600000) (j : Fin 16) :
    ((dat0 V c).arrAt 7 cfg0.N : S1600000x16.Idx → EReal) (ix2 e j) = Blocks0.edgeArr V c e j :=
  congrFun ((dat0 V c).arrAt_eq_of_cover 7 (fun i => Blocks0.edgeArr V c (i 0) (i 1)) (fun t _ => Blocks0.flushed_eq V c t) Blocks0.cover) (ix2 e j)

end Cert.KernelIdeal.Val

end
-- ==== Proof.KBlocks1.lean ====
import proofs.«422153_j62534723830204_3_alg».proof.Proof.KPay0
import proofs.«422153_j62534723830204_3_alg».proof.Proof.FrameBody1
import proofs.«422153_j62534723830204_3_alg».proof.Proof.Spec
import Idealize.ShloMosaic.Lib.Pipeline.Value
import Idealize.ShloMosaic.Lib.ValueIdx

noncomputable section

namespace Cert.KernelIdeal.Val

open Cert.KernelIdeal Cert.KernelIdeal.Gen Cert.KernelIdeal.Frm
open Idealize.ShloMosaic Idealize.ShloMosaic.TcCoe Idealize.ShloMosaic.ValueIdx Idealize.SL.Sem
open Idealize.ShloMosaic.Pipeline (Dat)

variable (V : (c : Dev nD) → (b : Ref sig .tc) → Buf (Elt Ideal) ((c : Thread nD τ).loc b))

namespace Blocks1

variable (c : Dev nD) (t : Fin cfg1.N)

-- Row `e`, column `j` of the updated nodes: the perceptron with normalisation of row `e` of the node inputs.
def nodeArr (e : Fin 50000) (j : Fin 32) : EReal :=
  Cert.Spec.mlpLN Cert.Spec.c32 Cert.Spec.cEps
    (fun k k' => V c main_arg11 (ix2 k k'))
    (fun k => V c main_v24 (ix2 (0 : Fin 1) k))
    (fun k k' => V c main_arg13 (ix2 k k'))
    (fun k => V c main_v25 (ix2 (0 : Fin 1) k))
    (fun k => V c main_v26 (ix2 (0 : Fin 1) k))
    (fun k => V c main_v27 (ix2 (0 : Fin 1) k))
    (fun l => V c main_v23 (ix2 e l)) j

theorem blockIdx : ∀ t : Fin cfg1.N, win1_0.index t 0 = t.val ∧ win1_0.index t 1 = 0 ∧ ∀ a : Fin 2,
    win1_7.index t a = win1_0.index t a ∧ win1_1.index t a = 0 ∧ win1_2.index t a = 0 ∧ win1_3.index t a = 0
    ∧ win1_4.index t a = 0 ∧ win1_5.index t a = 0 ∧ win1_6.index t a = 0 :=
  (by decide +kernel : ∀ t : Fin grid1.N, _)

theorem w1 : (iblk1 V c 1 t : Vec Ideal S64x128 .f32) = V c main_arg11 :=
  funext fun y => congrArg (V c main_arg11) (funext fun a => Fin.ext (win1_1.rect_emb_val_of_index_zero t a ((blockIdx t).2.2 a).2.1 y))
theorem w2 : (iblk1 V c 2 t : Vec Ideal S1x128 .f32) = V c main_v24 :=
  funext fun y => congrArg (V c main_v24) (funext fun a => Fin.ext (win1_2.rect_emb_val_of_index_zero t a ((blockIdx t).2.2 a).2.2.1 y))
theorem w3 : (iblk1 V c 3 t : Vec Ideal S128x32 .f32) = V c main_arg13 :=
  funext fun y => congrArg (V c main_arg13) (funext fun a => Fin.ext (win1_3.rect_emb_val_of_index_zero t a ((blockIdx t).2.2 a).2.2.2.1 y))
theorem w4 : (iblk1 V c 4 t : Vec Ideal S1x32 .f32) = V c main_v25 :=
  funext fun y => congrArg (V c main_v25) (funext fun a => Fin.ext (win1_4.rect_emb_val_of_index_zero t a ((blockIdx t).2.2 a).2.2.2.2.1 y))
theorem w5 : (iblk1 V c 5 t : Vec Ideal S1x32 .f32) = V c main_v26 :=
  funext fun y => congrArg (V c main_v26) (funext fun a => Fin.ext (win1_5.rect_emb_val_of_index_zero t a ((blockIdx t).2.2 a).2.2.2.2.2.1 y))
theorem w6 : (iblk1 V c 6 t : Vec Ideal S1x32 .f32) = V c main_v27 :=
  funext fun y => congrArg (V c main_v27) (funext fun a => Fin.ext (win1_6.rect_emb_val_of_index_zero t a ((blockIdx t).2.2 a).2.2.2.2.2.2 y))

-- Block `t` starts at row `2000 t` and has 2000 rows.
theorem rows_apply (r : Fin 2000) (l : Fin 64) (e : Fin 50000) (he : e.val = t.val * 2000 + r.val) :
    (iblk1 V c 0 t : Vec Ideal S2000x64 .bf16) (ix2 r l) = (V c main_v23 : S50000x64.Idx → EReal) (ix2 e l) :=
  congrArg (V c main_v23) (Shape.idx_ext₂
    ((win1_0.rect_emb_val t (ix2 r l) 0).trans (by rw [(blockIdx t).1]; exact he.symm))
    (win1_0.rect_emb_val_of_index_zero t 1 (blockIdx t).2.1 (ix2 r l)))

-- Entry by entry: the arithmetic on row `r` of block `t` is the array function at row `2000 t + r`.
theorem flushed_eq :
    (dat1 V c).flushed 7 t = ((cfg1.win 7).blk t).view.read (Elt Ideal) fun i => nodeArr V c (i 0) (i 1) := by
  show (cfg1.win 7).cut (grid1.coords t) ((dat1 V c).after 7 t) = _
  rw [after1_7]
  unfold out1_7
  rw [View.canon_unit_zero zeroOff]
  simp only [View.ld_unit_zero (S := S2000x64) zeroOff, View.ld_unit_zero (S := S64x128) zeroOff, View.ld_unit_zero (S := S1x128) zeroOff,
    View.ld_unit_zero (S := S128x32) zeroOff, View.ld_unit_zero (S := S1x32) zeroOff]
  obtain ⟨h0, h1, h⟩ := blockIdx t
  refine funext fun (y : S2000x32.Idx) => ?_
  obtain ⟨r, j, rfl⟩ : ∃ (r : Fin 2000) (j : Fin 32), y = ix2 r j := ⟨y 0, y 1, eq_ix2 y⟩
  have he := (win1_7.rect_emb_val t (ix2 r j) 0).trans (by rw [(h 0).1, h0])
  refine (Cert.PayLayers.block_apply _ _ _ _ _ _ _ _ _ _ _ _ _ _ _ _ _ _ _ _ r j).trans ?_
  rw [w1 V c t, w2 V c t, w3 V c t, w4 V c t, w5 V c t, w6 V c t]
  exact congr (congrArg (Cert.Spec.mlpLN _ _ _ _ _ _ _ _) (funext fun l => rows_apply V c t r l _ he))
    (Fin.ext (win1_7.rect_emb_val_of_index_zero t 1 ((h 1).1.trans h1) (ix2 r j))).symm

-- Row `e` lies in block `e / 2000`.
theorem cover (i : S50000x32.Idx) : ∃ t : Fin cfg1.N, (cfg1.win 7).flush t = true ∧ i ∈ ((cfg1.win 7).blk t).view.set := by
  have hN : cfg1.N = 25 := N_1
  have hi : (i 0).val < 50000 := (i 0).isLt
  have ht : (i 0).val / 2000 < cfg1.N := by omega
  obtain ⟨h0, h1, h⟩ := blockIdx ⟨_, ht⟩
  have hy := ((cfg1.win 7).blk ⟨_, ht⟩).view.emb_mem_set (ix2 (⟨(i 0).val % 2000, Nat.mod_lt _ (by decide)⟩ : Fin 2000) (i 1))
  rw [show ((cfg1.win 7).blk ⟨_, ht⟩).view.emb _ = i from Shape.idx_ext₂
    ((win1_7.rect_emb_val ⟨_, ht⟩ _ 0).trans (by rw [(h 0).1, h0]; exact Nat.div_add_mod' _ _))
    (win1_7.rect_emb_val_of_index_zero ⟨_, ht⟩ 1 ((h 1).1.trans h1) _)] at hy
  exact ⟨_, flush1_7 _, hy⟩

end Blocks1

theorem arr1_apply (c : Dev nD) (e : Fin 50000) (j : Fin 32) :
    ((dat1 V c).arrAt 7 cfg1.N : S50000x32.Idx → EReal) (ix2 e j) = Blocks1.nodeArr V c e j :=
  congrFun ((dat1 V c).arrAt_eq_of_cover 7 (fun i => Blocks1.nodeArr V c (i 0) (i 1)) (fun t _ => Blocks1.flushed_eq V c t) Blocks1.cover) (ix2 e j)

end Cert.KernelIdeal.Val

end
-- ==== Proof.KArgs.lean ====
import proofs.«422153_j62534723830204_3_alg».proof.KernelIdeal
import proofs.«422153_j62534723830204_3_alg».proof.Proof.Spec

noncomputable section

namespace Cert.KernelIdeal.Val

open Cert.KernelIdeal Idealize.ShloMosaic Idealize.ShloMosaic.TcCoe Idealize.SL.Sem

def kargs (m : (ℓ : Loc nD τ sig) → Buf (Elt Ideal) ℓ) (c : Dev nD) : Cert.Spec.Args where
  x := m ((c.tc : Thread nD τ).loc main_arg0)
  ea := m ((c.tc : Thread nD τ).loc main_arg1)
  u := m ((c.tc : Thread nD τ).loc main_arg2)
  src := m ((c.tc : Thread nD τ).loc main_arg3)
  dst := m ((c.tc : Thread nD τ).loc main_arg4)
  eW1 := m ((c.tc : Thread nD τ).loc main_arg5)
  eb1 := m ((c.tc : Thread nD τ).loc main_arg6)
  eW2 := m ((c.tc : Thread nD τ).loc main_arg7)
  eb2 := m ((c.tc : Thread nD τ).loc main_arg8)
  eg := m ((c.tc : Thread nD τ).loc main_arg9)
  ebt := m ((c.tc : Thread nD τ).loc main_arg10)
  nW1 := m ((c.tc : Thread nD τ).loc main_arg11)
  nb1 := m ((c.tc : Thread nD τ).loc main_arg12)
  nW2 := m ((c.tc : Thread nD τ).loc main_arg13)
  nb2 := m ((c.tc : Thread nD τ).loc main_arg14)
  ng := m ((c.tc : Thread nD τ).loc main_arg15)
  nbt := m ((c.tc : Thread nD τ).loc main_arg16)
  gW1 := m ((c.tc : Thread nD τ).loc main_arg17)
  gb1 := m ((c.tc : Thread nD τ).loc main_arg18)
  gW2 := m ((c.tc : Thread nD τ).loc main_arg19)
  gb2 := m ((c.tc : Thread nD τ).loc main_arg20)

end Cert.KernelIdeal.Val

end
-- ==== Proof.LibTakeRows.lean ====
import Idealize.ShloMosaic.Lib.ValueIdx
import Idealize.ShloMosaic.Lib.Pipeline.Value

noncomputable section

namespace Cert.TakeRows

open Idealize.ShloMosaic Idealize.ShloMosaic.ValueIdx

variable {α : Type} {R C M : Nat}

variable (sb : List (Fin 2)) (ss : Fin 2 → Nat) (wf : GatherDims.WF ⟨2, ![R, C]⟩ ⟨2, ![M, 1]⟩ ⟨2, ![M, C]⟩ [1] [0] [] [0] sb 1 ss)

abbrev takeRowsDims :
    GatherDims ⟨2, ![R, C]⟩ ⟨2, ![M, 1]⟩ ⟨2, ![M, C]⟩ where
  offsetDims := [1]
  collapsedSliceDims := [0]
  operandBatchingDims := []
  startIndicesBatchingDims := sb
  startIndexMap := [0]
  indexVectorDim := 1
  sliceSizes := ss
  wf := wf

variable (idx : IVec ⟨2, ![M, 1]⟩ 32) (p : Fin M) (q : Fin C)

theorem takeRows_axis0 :
    (takeRowsDims sb ss wf).start (ix2 p q) idx (0 : Fin 2) + (takeRowsDims sb ss wf).batchCoord (ix2 p q) (0 : Fin 2)
        + (takeRowsDims sb ss wf).offCoord (ix2 p q) (0 : Fin 2)
      = min (idx (ix2 p (0 : Fin 1))).toInt.toNat (R - 1) := by
  have hm : (0 : Fin 2) ∈ (takeRowsDims sb ss wf).startIndexMap := by
    show (0 : Fin 2) ∈ ([0] : List (Fin 2)); decide
  have hsl : ss 0 = 1 := (takeRowsDims sb ss wf).slice_collapsed 0 (by show (0 : Fin 2) ∈ ([0] : List (Fin 2)); decide)
  rw [GatherDims.batchCoord_eq_zero _ _ _ List.not_mem_nil,
    GatherDims.offCoord_eq_zero _ _ _ (fun h => ((GatherDims.mem_sKept _ _).mp h).1
      (show (0 : Fin 2) ∈ ([0] : List (Fin 2)) by decide))]
  simp only [Nat.add_zero]
  unfold GatherDims.start
  rw [dif_pos hm]
  have hsi : (takeRowsDims sb ss wf).siIdx (ix2 p q) ⟨List.idxOf (0 : Fin 2) (takeRowsDims sb ss wf).startIndexMap,
      List.idxOf_lt_length_iff.2 hm⟩ = ix2 p (0 : Fin 1) := by
    funext b; refine Fin.ext ?_
    match b with
    | ⟨0, _⟩ => rfl
    | ⟨1, _⟩ => rfl
  rw [hsi]
  show min (idx (ix2 p (0 : Fin 1))).toInt.toNat (R - ss 0) = _
  rw [hsl]

theorem takeRows_axis1 :
    (takeRowsDims sb ss wf).start (ix2 p q) idx (1 : Fin 2) + (takeRowsDims sb ss wf).batchCoord (ix2 p q) (1 : Fin 2)
        + (takeRowsDims sb ss wf).offCoord (ix2 p q) (1 : Fin 2) = q.val := by
  have hm : (1 : Fin 2) ∉ (takeRowsDims sb ss wf).startIndexMap := by
    show (1 : Fin 2) ∉ ([0] : List (Fin 2)); decide
  have hk : (1 : Fin 2) ∈ (takeRowsDims sb ss wf).sKept :=
    (GatherDims.mem_sKept _ _).mpr ⟨by show (1 : Fin 2) ∉ ([0] : List (Fin 2)); decide, List.not_mem_nil⟩
  rw [GatherDims.batchCoord_eq_zero _ _ _ List.not_mem_nil]
  unfold GatherDims.start GatherDims.offCoord
  rw [dif_neg hm, dif_pos hk]
  simp only [Nat.add_zero, Nat.zero_add]
  rfl

theorem take_rows_apply (d : GatherDims ⟨2, ![R, C]⟩ ⟨2, ![M, 1]⟩ ⟨2, ![M, C]⟩)
    (hoff : d.offsetDims = [1]) (hcoll : d.collapsedSliceDims = [0]) (hob : d.operandBatchingDims = [])
    (hsim : d.startIndexMap = [0]) (hivd : d.indexVectorDim = 1) (hR : 0 < R)
    (x : (⟨2, ![R, C]⟩ : Shape).Idx → α) (idx : IVec ⟨2, ![M, 1]⟩ 32) (p : Fin M) (q : Fin C) :
    Host.gather d x idx (ix2 p q)
      = x (ix2 (⟨min (idx (ix2 p (0 : Fin 1))).toInt.toNat (R - 1), by omega⟩ : Fin R) q) := by
  obtain ⟨od, cd, ob, sb, sim, ivd, ss, wf⟩ := d
  dsimp only at hoff hcoll hob hsim hivd
  subst hoff hcoll hob hsim hivd
  show Host.gather (takeRowsDims sb ss wf) x idx (ix2 p q) = _
  unfold Host.gather
  congr 1
  funext a
  refine Fin.ext ?_
  show (takeRowsDims sb ss wf).start (ix2 p q) idx a + (takeRowsDims sb ss wf).batchCoord (ix2 p q) a
    + (takeRowsDims sb ss wf).offCoord (ix2 p q) a = _
  match a with
  | ⟨0, _⟩ => exact takeRows_axis0 sb ss wf idx p q
  | ⟨1, _⟩ => exact takeRows_axis1 sb ss wf idx p q

end Cert.TakeRows

end
-- ==== Proof.LibUnitAxis.lean ====
import Idealize.ShloMosaic.Lib.ValueIdx
import Idealize.ShloMosaic.Lib.Pipeline.Value
import Idealize.ShloMosaic.Lib.ValueLayout
import Idealize.ShloMosaic.PureOps.Reduce

noncomputable section

namespace Cert.LibUnitAxis

open Idealize.ShloMosaic Idealize.ShloMosaic.ValueIdx

variable {α : Type}

-- A vector repeated along C columns reads, at (p, q), its entry p.
theorem bcast_cols_apply {M C : Nat} (h : (⟨1, ![M]⟩ : Shape).BroadcastsInDim ⟨2, ![M, C]⟩ ![0])
    (v : (⟨1, ![M]⟩ : Shape).Idx → α) (p : Fin M) (q : Fin C) :
    broadcastInDim ⟨2, ![M, C]⟩ ![0] h v (ix2 p q) = v (ix1 p) :=
  broadcastInDim_apply _ h v _ (ix1 p) fun a => by
    match a with
    | ⟨0, _⟩ =>
      show p.val = if M = 1 then 0 else p.val
      split
      · next h1 => have := p.isLt; omega
      · rfl

theorem bcast_col_apply {M : Nat} (h : (⟨1, ![M]⟩ : Shape).BroadcastsInDim ⟨2, ![M, 1]⟩ ![0])
    (v : (⟨1, ![M]⟩ : Shape).Idx → α) (p : Fin M) :
    broadcastInDim ⟨2, ![M, 1]⟩ ![0] h v (ix2 p (0 : Fin 1)) = v (ix1 p) :=
  bcast_cols_apply h v p 0

-- A vector laid as the one row of a matrix reads, at column q, its entry q.
theorem bcast_row_apply {C : Nat} (h : (⟨1, ![C]⟩ : Shape).BroadcastsInDim ⟨2, ![1, C]⟩ ![1])
    (v : (⟨1, ![C]⟩ : Shape).Idx → α) (q : Fin C) :
    broadcastInDim ⟨2, ![1, C]⟩ ![1] h v (ix2 (0 : Fin 1) q) = v (ix1 q) :=
  broadcastInDim_apply _ h v _ (ix1 q) fun a => by
    match a with
    | ⟨0, _⟩ =>
      show q.val = if C = 1 then 0 else q.val
      split
      · next h1 => have := q.isLt; omega
      · rfl

-- Matrices laid side by side read, at (e, l), piece k at (e, l - pre), pre the widths of the pieces before it.
theorem cat_cols_apply {R n N : Nat} (xs : List ((s : Shape) × (s.Idx → α)))
    (h : Shape.Concatenates (xs.map (·.1)) ⟨2, ![R, N]⟩ (1 : Fin 2)) (e : Fin R) (l : Fin N)
    (k : Nat) (x₁ : (⟨2, ![R, n]⟩ : Shape).Idx → α) (hxk : xs[k]? = some ⟨⟨2, ![R, n]⟩, x₁⟩) (pre : Nat)
    (hpre : (((xs.take k).map (·.1)).map fun s => if h : s.rank = 2 then s.size ((1 : Fin 2).cast h.symm) else 0).sum = pre)
    (j : Fin n) (ha : pre + j.val = l.val) :
    concatenate ⟨2, ![R, N]⟩ (1 : Fin 2) xs h (ix2 e l) = x₁ (ix2 e j) :=
  have ⟨hk, hx⟩ := List.getElem?_eq_some_iff.1 hxk
  concatenate_apply_piece (t := ⟨2, ![R, N]⟩) (1 : Fin 2) xs h (ix2 e l) k hk ⟨2, ![R, n]⟩ x₁ hx rfl pre hpre (ix2 e j)
    (fun b hb => by match b, hb with | ⟨0, _⟩, _ => rfl | ⟨1, _⟩, hb => exact absurd rfl hb) ha

-- Over a unit axis the conjunction from 1 has one term: 1 ∧ b = b.
theorem reduce_andi_unit_apply {M : Nat} {u : Shape} (x : IVec ⟨2, ![M, 1]⟩ 1) (init : u.Idx → BitVec 1)
    (h : (⟨2, ![M, 1]⟩ : Shape).ReducesTo [1] ⟨1, ![M]⟩) (hu : 0 < u.numel) (hinit : ∀ i, init i = 1#1) (p : Fin M) :
    Host.reduce IntOp.andi x init h hu (ix1 p) = x (ix2 p (0 : Fin 1)) := by
  rw [Host.reduce_eq_fold]
  have hset : (Finset.univ.filter fun i : (⟨2, ![M, 1]⟩ : Shape).Idx => h.drop i = ix1 p)
      = {ix2 p (0 : Fin 1)} := by
    ext i
    simp only [Finset.mem_filter, Finset.mem_univ, true_and, Finset.mem_singleton]
    have hv : ((h.drop i) 0 : Nat) = (i 0).val := Shape.ReducesTo.drop_apply_val h i 0
    constructor
    · intro e
      rw [e] at hv
      funext a
      match a with
      | ⟨0, _⟩ => exact Fin.ext hv.symm
      | ⟨1, _⟩ =>
        refine Fin.ext ?_
        have h1 : (i 1).val < 1 := (i 1).isLt
        show (i 1).val = 0
        omega
    · intro e
      subst e
      funext b
      match b with
      | ⟨0, _⟩ => exact Fin.ext hv
  rw [hset, Finset.fold_singleton, hinit]
  rcases BitVec.eq_zero_or_eq_one (x (ix2 p (0 : Fin 1))) with e | e <;> rw [e] <;> decide

end Cert.LibUnitAxis

end
-- ==== Proof.KHost0.lean ====
import proofs.«422153_j62534723830204_3_alg».proof.Proof.Gen.KernelIdeal.Regions
import proofs.«422153_j62534723830204_3_alg».proof.Proof.KArgs
import proofs.«422153_j62534723830204_3_alg».proof.Proof.Spec
import proofs.«422153_j62534723830204_3_alg».proof.Proof.LibTakeRows
import proofs.«422153_j62534723830204_3_alg».proof.Proof.LibUnitAxis
import Idealize.ShloMosaic.Lib.StableHlo.Run
import Idealize.ShloMosaic.Lib.ValueIdx
import Idealize.ShloMosaic.Lib.ValueLayout
import Idealize.ShloMosaic.Lib.Pipeline.Value
import Idealize.ShloMosaic.PureOps.Ideal.Laws

noncomputable section

namespace Cert.KernelIdeal.Val

open Cert.KernelIdeal Cert.KernelIdeal.Gen Idealize.ShloMosaic Idealize.ShloMosaic.TcCoe Idealize.ShloMosaic.ValueIdx Idealize.SL.Sem

namespace Host0

theorem toInt_zero32 : (0#32 : BitVec 32).toInt = 0 := by decide
theorem toInt_top32 : (49999#32 : BitVec 32).toInt = 49999 := by decide

theorem cmpi_slt_zero (w : BitVec 32) (h : 0 ≤ w.toInt) : IntOp.cmpi .slt w 0#32 = 0#1 := by
  have hb : w.slt 0#32 = false := by
    rw [← Bool.not_eq_true, BitVec.slt_iff_toInt_lt, toInt_zero32]; omega
  show BitVec.ofBool (w.slt 0#32) = 0#1
  rw [hb]; rfl

theorem cmpi_sge_zero (w : BitVec 32) (h : 0 ≤ w.toInt) : IntOp.cmpi .sge w 0#32 = 1#1 := by
  have hb : (0#32 : BitVec 32).sle w = true := by
    rw [BitVec.sle_iff_toInt_le, toInt_zero32]; exact h
  show BitVec.ofBool ((0#32 : BitVec 32).sle w) = 1#1
  rw [hb]; rfl

theorem cmpi_sle_top (w : BitVec 32) (h : w.toInt < 50000) : IntOp.cmpi .sle w 49999#32 = 1#1 := by
  have hb : w.sle 49999#32 = true := by
    rw [BitVec.sle_iff_toInt_le, toInt_top32]; omega
  show BitVec.ofBool (w.sle 49999#32) = 1#1
  rw [hb]; rfl

def takeCol (idx : IVec S1600000 32) : IVec S1600000x1 32 :=
  broadcastInDim S1600000x1 ![0] bcast_S1600000_S1600000x1_0
    (select (cmpi .slt idx (broadcastInDim S1600000 ![] bcast_S_S1600000 (constantI S_ 32 0#32)))
      (addi idx (broadcastInDim S1600000 ![] bcast_S_S1600000 (constantI S_ 32 50000#32))) idx)

def takeMask (col : IVec S1600000x1 32) : IVec S1600000 1 :=
  Host.reduce IntOp.andi
    (andi (cmpi .sge col (broadcastInDim S1600000x1 ![] bcast_S_S1600000x1 (constantI S_ 32 0#32)))
      (cmpi .sle col (broadcastInDim S1600000x1 ![0, 1] bcast_S1x1_S1600000x1_0_1
        (broadcastInDim S1x1 ![1] bcast_S1_S1x1_1 (constantI S1 32 49999#32)))))
    (constantI S_ 1 1#1) reducesTo_S1600000x1_S1600000_d1 h_S_

def takeFn {F : FTy → Type} [FloatOps F] (x : FVec F S50000x32 .f32) (idx : IVec S1600000 32) : FVec F S1600000x32 .f32 :=
  select (broadcastInDim S1600000x32 ![0] bcast_S1600000_S1600000x32_0 (takeMask (takeCol idx)))
    (Host.gather gather_S50000x32_S1600000x1_S1600000x32_1_0_n_n_0_1_132 x (takeCol idx))
    (broadcastInDim S1600000x32 ![] bcast_S_S1600000x32 (constant (F := F) S_ .f32 0x7FC00000#32))

theorem takeCol_apply (idx : IVec S1600000 32) (e : Fin 1600000) (h : 0 ≤ (idx (ix1 e)).toInt) :
    takeCol idx (ix2 e (0 : Fin 1)) = idx (ix1 e) := by
  unfold takeCol
  refine (Cert.LibUnitAxis.bcast_col_apply bcast_S1600000_S1600000x1_0 _ e).trans ?_
  show Scalar.select (IntOp.cmpi .slt (idx (ix1 e)) 0#32) (IntOp.addi (idx (ix1 e)) 50000#32) (idx (ix1 e)) = idx (ix1 e)
  rw [cmpi_slt_zero _ h, select_zero]

theorem takeMask_apply (col : IVec S1600000x1 32) (e : Fin 1600000)
    (h0 : 0 ≤ (col (ix2 e (0 : Fin 1))).toInt) (h1 : (col (ix2 e (0 : Fin 1))).toInt < 50000) :
    takeMask col (ix1 e) = 1#1 := by
  unfold takeMask
  refine (Cert.LibUnitAxis.reduce_andi_unit_apply _ _ reducesTo_S1600000x1_S1600000_d1 h_S_ (fun _ => rfl) e).trans ?_
  show IntOp.andi (IntOp.cmpi .sge (col (ix2 e (0 : Fin 1))) 0#32) (IntOp.cmpi .sle (col (ix2 e (0 : Fin 1))) 49999#32) = 1#1
  rw [cmpi_sge_zero _ h0, cmpi_sle_top _ h1]; rfl

theorem takeFn_apply (x : FVec Ideal S50000x32 .f32) (idx : IVec S1600000 32) (e : Fin 1600000) (q : Fin 32)
    (h0 : 0 ≤ (idx (ix1 e)).toInt) (h1 : (idx (ix1 e)).toInt < 50000) :
    takeFn x idx (ix2 e q) = x (ix2 (Cert.Spec.nodeOf (idx (ix1 e))) q) := by
  have hcol : takeCol idx (ix2 e (0 : Fin 1)) = idx (ix1 e) := takeCol_apply idx e h0
  have hmask : takeMask (takeCol idx) (ix1 e) = 1#1 :=
    takeMask_apply _ e (by rw [hcol]; exact h0) (by rw [hcol]; exact h1)
  unfold takeFn
  show Scalar.select (broadcastInDim S1600000x32 ![0] bcast_S1600000_S1600000x32_0 (takeMask (takeCol idx)) (ix2 e q))
      (Host.gather gather_S50000x32_S1600000x1_S1600000x32_1_0_n_n_0_1_132 x (takeCol idx) (ix2 e q)) _ = _
  rw [Cert.LibUnitAxis.bcast_cols_apply bcast_S1600000_S1600000x32_0 _ e q, hmask, select_one,
    Cert.TakeRows.take_rows_apply _ rfl rfl rfl rfl rfl (by decide) x (takeCol idx) e q]
  simp only [hcol]
  rfl

section AnyFloats
variable {F : FTy → Type} [FloatOps F]

theorem ofBuf_toBuf {T : BufTy} (x : StableHlo.TRef sig T) (v : T.Contents (Elt F)) :
    x.ofBuf (x.toBuf v) = v := by
  obtain ⟨r, h, h2, h3⟩ := x
  subst h
  rfl

theorem ofBuf_arg0 (p1 p2 p3) (v : (⟨S50000x32, .f32⟩ : BufTy).Contents (Elt F)) :
    (StableHlo.TRef.of (T := ⟨S50000x32, .f32⟩) main_arg0 p1 p2 p3).ofBuf v = v := rfl
theorem ofBuf_arg3 (p1 p2 p3) (v : (⟨S1600000, .i32⟩ : BufTy).Contents (Elt F)) :
    (StableHlo.TRef.of (T := ⟨S1600000, .i32⟩) main_arg3 p1 p2 p3).ofBuf v = v := rfl
theorem ofBuf_arg4 (p1 p2 p3) (v : (⟨S1600000, .i32⟩ : BufTy).Contents (Elt F)) :
    (StableHlo.TRef.of (T := ⟨S1600000, .i32⟩) main_arg4 p1 p2 p3).ofBuf v = v := rfl
theorem toBuf_v0 (p1 p2 p3) (v : (⟨S1600000x32, .f32⟩ : BufTy).Contents (Elt F)) :
    (StableHlo.TRef.of (T := ⟨S1600000x32, .f32⟩) main_v0 p1 p2 p3).toBuf v = v := rfl
theorem toBuf_v1 (p1 p2 p3) (v : (⟨S1600000x32, .f32⟩ : BufTy).Contents (Elt F)) :
    (StableHlo.TRef.of (T := ⟨S1600000x32, .f32⟩) main_v1 p1 p2 p3).toBuf v = v := rfl

abbrev catList (ea : FVec F S1600000x16 .f32) (xs xd : FVec F S1600000x32 .f32) (u : FVec F S1x16 .f32) :
    List ((s : Shape) × (s.Idx → F .f32)) :=
  [⟨S1600000x16, ea⟩, ⟨S1600000x32, xs⟩, ⟨S1600000x32, xd⟩,
    ⟨S1600000x16, broadcastInDim S1600000x16 ![0, 1] bcast_S1x16_S1600000x16_0_1 u⟩]
def catFn (ea : FVec F S1600000x16 .f32) (xs xd : FVec F S1600000x32 .f32) (u : FVec F S1x16 .f32) :
    FVec F S1600000x96 .f32 :=
  concatenate S1600000x96 1 (catList ea xs xd u)
    concatenates_S1600000x16_S1600000x32_S1600000x32_S1600000x16_S1600000x96_d1

theorem cat_W (W : Valuation τ sig (Elt F)) :
    StableHlo.after hostOps0_2 W (Proc.devRef .tc main_v4)
      = truncf .bf16 (catFn (W (Proc.devRef .tc main_arg1)) (W (Proc.devRef .tc main_v0)) (W (Proc.devRef .tc main_v1))
          (W (Proc.devRef .tc main_arg2))) bitsLt_bf16_f32 := by
  after_results_simp
  unfold catFn
  rfl

end AnyFloats

variable (m : (ℓ : Loc nD τ sig) → Buf (Elt Ideal) ℓ) (c : Dev nD)

theorem V2_v0 : V2 m c main_v0 = takeFn (F := Ideal) (kargs m c).x (kargs m c).src :=
  (V2_of m c main_v0 (by decide)).trans <| by
    after_results_simp
    simp only [ofBuf_toBuf, ofBuf_arg0, ofBuf_arg3, toBuf_v0]
    unfold takeFn takeMask takeCol
    rfl
theorem V2_v1 : V2 m c main_v1 = takeFn (F := Ideal) (kargs m c).x (kargs m c).dst :=
  .trans (by
    after_results_simp
    simp only [ofBuf_toBuf, ofBuf_arg0, ofBuf_arg4, toBuf_v1]
    unfold takeFn takeMask takeCol
    rfl) (congrArg₂ (takeFn (F := Ideal)) (V1_of m c main_arg0 (by decide)) (V1_of m c main_arg4 (by decide)))
theorem V2_arg1 : V2 m c main_arg1 = (kargs m c).ea :=
  (V2_of m c main_arg1 (by decide)).trans (V1_of m c main_arg1 (by decide))
theorem V2_arg2 : V2 m c main_arg2 = (kargs m c).u :=
  (V2_of m c main_arg2 (by decide)).trans (V1_of m c main_arg2 (by decide))

theorem v4_eq : V3 m c main_v4 = truncf .bf16 (catFn (F := Ideal) (kargs m c).ea (takeFn (F := Ideal) (kargs m c).x (kargs m c).src)
    (takeFn (F := Ideal) (kargs m c).x (kargs m c).dst) (kargs m c).u) bitsLt_bf16_f32 := by
  refine (cat_W (V2 m c)).trans ?_
  rw [V2_v0 m c, V2_v1 m c, V2_arg1 m c, V2_arg2 m c]

end Host0

open Host0

variable (m : (ℓ : Loc nD τ sig) → Buf (Elt Ideal) ℓ) (c : Dev nD)

-- Row e of the side-by-side array is edge e's input row: each piece read at its own column.
theorem v4_apply (hs : Cert.Spec.InRange (kargs m c).src) (hd : Cert.Spec.InRange (kargs m c).dst)
    (e : Fin 1600000) (l : Fin 96) :
    (V3 m c main_v4 : S1600000x96.Idx → EReal) (ix2 e l) = Cert.Spec.eIn (kargs m c) e l := by
  refine (congrFun (v4_eq m c) (ix2 e l)).trans ?_
  refine (truncf_apply (s := S1600000x96) (φ := .f32) (ψ := .bf16) _ _ _).trans ?_
  have hl := l.isLt
  unfold Cert.Spec.eIn Cert.Spec.sN Cert.Spec.dN catFn
  split
  · next h₁ => exact Cert.LibUnitAxis.cat_cols_apply _ _ e l 0 _ rfl 0 rfl (⟨l.val, h₁⟩ : Fin 16) (Nat.zero_add _)
  · split
    · exact (Cert.LibUnitAxis.cat_cols_apply _ _ e l 1 _ rfl 16 rfl (⟨l.val - 16, by omega⟩ : Fin 32)
        (by show 16 + (l.val - 16) = l.val; omega)).trans (takeFn_apply _ _ e _ (hs e).1 (hs e).2)
    · split
      · exact (Cert.LibUnitAxis.cat_cols_apply _ _ e l 2 _ rfl 48 rfl (⟨l.val - 48, by omega⟩ : Fin 32)
          (by show 48 + (l.val - 48) = l.val; omega)).trans (takeFn_apply _ _ e _ (hd e).1 (hd e).2)
      · refine (Cert.LibUnitAxis.cat_cols_apply _ _ e l 3 _ rfl 80 rfl (⟨l.val - 80, by omega⟩ : Fin 16)
          (by show 80 + (l.val - 80) = l.val; omega)).trans ?_
        refine broadcastInDim_apply _ bcast_S1x16_S1600000x16_0_1 _ _ (ix2 (0 : Fin 1) (⟨l.val - 80, by omega⟩ : Fin 16)) fun a => ?_
        match a with
        | ⟨0, _⟩ => rfl
        | ⟨1, _⟩ => rfl

-- A vector recast as a one-row matrix reads, at column k, its entry k.
theorem vec_row_apply {a : Nat} {X : (⟨2, ![1, a]⟩ : Shape).Idx → EReal} {v w : (⟨1, ![a]⟩ : Shape).Idx → EReal}
    {h : (⟨1, ![a]⟩ : Shape).ShapeCasts ⟨2, ![1, a]⟩} (e : X = shapeCast ⟨2, ![1, a]⟩ v h) (hv : v = w) (k : Fin a) :
    X (ix2 (0 : Fin 1) k) = w (ix1 k) := by
  subst e hv
  exact shapeCast_a_1a_apply _ _ 0 k

theorem v5_apply (k : Fin 128) : (V3 m c main_v5 : S1x128.Idx → EReal) (ix2 (0 : Fin 1) k) = (kargs m c).eb1 (ix1 k) :=
  vec_row_apply (by after_results_simp <;> rfl) ((V2_of m c main_arg6 (by decide)).trans (V1_of m c main_arg6 (by decide))) k
theorem v6_apply (k : Fin 16) : (V3 m c main_v6 : S1x16.Idx → EReal) (ix2 (0 : Fin 1) k) = (kargs m c).eb2 (ix1 k) :=
  vec_row_apply (by after_results_simp <;> rfl) ((V2_of m c main_arg8 (by decide)).trans (V1_of m c main_arg8 (by decide))) k
theorem v7_apply (k : Fin 16) : (V3 m c main_v7 : S1x16.Idx → EReal) (ix2 (0 : Fin 1) k) = (kargs m c).eg (ix1 k) :=
  vec_row_apply (by after_results_simp <;> rfl) ((V2_of m c main_arg9 (by decide)).trans (V1_of m c main_arg9 (by decide))) k
theorem v8_apply (k : Fin 16) : (V3 m c main_v8 : S1x16.Idx → EReal) (ix2 (0 : Fin 1) k) = (kargs m c).ebt (ix1 k) :=
  vec_row_apply (by after_results_simp <;> rfl) ((V2_of m c main_arg10 (by decide)).trans (V1_of m c main_arg10 (by decide))) k

theorem V3_arg5 : (V3 m c main_arg5 : S96x128.Idx → EReal) = (kargs m c).eW1 :=
  (V3_of m c main_arg5 (by decide)).trans ((V2_of m c main_arg5 (by decide)).trans (V1_of m c main_arg5 (by decide)))
theorem V3_arg7 : (V3 m c main_arg7 : S128x16.Idx → EReal) = (kargs m c).eW2 :=
  (V3_of m c main_arg7 (by decide)).trans ((V2_of m c main_arg7 (by decide)).trans (V1_of m c main_arg7 (by decide)))

end Cert.KernelIdeal.Val

end
-- ==== Proof.LibScatterRows.lean ====
import Idealize.ShloMosaic.PureOps.Ideal
import Idealize.ShloMosaic.PureOps.Contract
import Idealize.ShloMosaic.Lib.ValueIdx

noncomputable section

open scoped BigOperators

namespace Cert.ScatterRows

open Idealize.ShloMosaic Idealize.ShloMosaic.ValueIdx

variable {R C M : Nat} (wf : ScatterDims.WF ⟨2, ![R, C]⟩ ⟨2, ![M, 1]⟩ ⟨2, ![M, C]⟩ [1] [0] [0] 1)

abbrev scatterRowsDims :
    ScatterDims ⟨2, ![R, C]⟩ ⟨2, ![M, 1]⟩ ⟨2, ![M, C]⟩ where
  updateWindowDims := [1]
  insertedWindowDims := [0]
  scatterDimsToOperandDims := [0]
  indexVectorDim := 1
  wf := wf

variable (idx : IVec ⟨2, ![M, 1]⟩ 32) (p : Fin M) (q : Fin C)

theorem scatterRows_start0 :
    (scatterRowsDims wf).start (ix2 p q) idx (0 : Fin 2) = (idx (ix2 p (0 : Fin 1))).toInt := by
  have hm : (0 : Fin 2) ∈ (scatterRowsDims wf).scatterDimsToOperandDims := by
    show (0 : Fin 2) ∈ ([0] : List (Fin 2)); decide
  unfold ScatterDims.start
  rw [dif_pos hm]
  have hsi : (scatterRowsDims wf).siIdx (ix2 p q) ⟨List.idxOf (0 : Fin 2) (scatterRowsDims wf).scatterDimsToOperandDims,
      List.idxOf_lt_length_iff.2 hm⟩ = ix2 p (0 : Fin 1) := by
    funext b; refine Fin.ext ?_
    match b with
    | ⟨0, _⟩ => rfl
    | ⟨1, _⟩ => rfl
  rw [hsi]

theorem scatterRows_start1 :
    (scatterRowsDims wf).start (ix2 p q) idx (1 : Fin 2) = 0 := by
  have hm : (1 : Fin 2) ∉ (scatterRowsDims wf).scatterDimsToOperandDims := by
    show (1 : Fin 2) ∉ ([0] : List (Fin 2)); decide
  unfold ScatterDims.start
  rw [dif_neg hm]

theorem scatterRows_window0 :
    (scatterRowsDims wf).window (ix2 p q) (0 : Fin 2) = 0 := by
  have hk : (0 : Fin 2) ∉ (scatterRowsDims wf).sKept := by
    show (0 : Fin 2) ∉ ((List.finRange 2).filter (fun a => a ∉ ([0] : List (Fin 2)))); decide
  unfold ScatterDims.window
  rw [dif_neg hk]

theorem scatterRows_window1 :
    (scatterRowsDims wf).window (ix2 p q) (1 : Fin 2) = q.val := by
  have hk : (1 : Fin 2) ∈ (scatterRowsDims wf).sKept := by
    show (1 : Fin 2) ∈ ((List.finRange 2).filter (fun a => a ∉ ([0] : List (Fin 2)))); decide
  unfold ScatterDims.window
  rw [dif_pos hk]
  rfl

theorem scatterRows_resultIdx_iff (n : Fin R) (o : Fin C) :
    (scatterRowsDims wf).resultIdx? (ix2 p q) idx = some (ix2 n o)
      ↔ (idx (ix2 p (0 : Fin 1))).toInt = (n.val : Int) ∧ q = o := by
  have h0 : (scatterRowsDims wf).start (ix2 p q) idx (0 : Fin 2) + (scatterRowsDims wf).window (ix2 p q) (0 : Fin 2)
      = (idx (ix2 p (0 : Fin 1))).toInt := by
    rw [scatterRows_start0, scatterRows_window0]; simp
  have h1 : (scatterRowsDims wf).start (ix2 p q) idx (1 : Fin 2) + (scatterRowsDims wf).window (ix2 p q) (1 : Fin 2)
      = (q.val : Int) := by
    rw [scatterRows_start1, scatterRows_window1]; simp
  unfold ScatterDims.resultIdx?
  constructor
  · intro h
    split_ifs at h with hc
    have e := Option.some.inj h
    have e0 : ((scatterRowsDims wf).start (ix2 p q) idx (0 : Fin 2)
        + (scatterRowsDims wf).window (ix2 p q) (0 : Fin 2)).toNat = n.val := congrArg Fin.val (congrFun e (0 : Fin 2))
    have e1 : ((scatterRowsDims wf).start (ix2 p q) idx (1 : Fin 2)
        + (scatterRowsDims wf).window (ix2 p q) (1 : Fin 2)).toNat = o.val := congrArg Fin.val (congrFun e (1 : Fin 2))
    have c0 := (hc (0 : Fin 2)).1
    rw [h0] at e0 c0
    rw [h1] at e1
    refine ⟨by omega, Fin.ext (by omega)⟩
  · rintro ⟨hn, rfl⟩
    have hc : ∀ a : Fin 2, 0 ≤ (scatterRowsDims wf).start (ix2 p q) idx a + (scatterRowsDims wf).window (ix2 p q) a
        ∧ (scatterRowsDims wf).start (ix2 p q) idx a + (scatterRowsDims wf).window (ix2 p q) a
          < (⟨2, ![R, C]⟩ : Shape).size a := by
      intro a
      match a with
      | ⟨0, _⟩ =>
        show 0 ≤ (scatterRowsDims wf).start (ix2 p q) idx (0 : Fin 2) + (scatterRowsDims wf).window (ix2 p q) (0 : Fin 2)
          ∧ (scatterRowsDims wf).start (ix2 p q) idx (0 : Fin 2) + (scatterRowsDims wf).window (ix2 p q) (0 : Fin 2)
            < (R : Int)
        rw [h0, hn]; have := n.isLt; omega
      | ⟨1, _⟩ =>
        show 0 ≤ (scatterRowsDims wf).start (ix2 p q) idx (1 : Fin 2) + (scatterRowsDims wf).window (ix2 p q) (1 : Fin 2)
          ∧ (scatterRowsDims wf).start (ix2 p q) idx (1 : Fin 2) + (scatterRowsDims wf).window (ix2 p q) (1 : Fin 2)
            < (C : Int)
        rw [h1]; have := q.isLt; omega
    rw [dif_pos hc]
    congr 1
    funext a
    refine Fin.ext ?_
    match a with
    | ⟨0, _⟩ =>
      show ((scatterRowsDims wf).start (ix2 p q) idx (0 : Fin 2)
        + (scatterRowsDims wf).window (ix2 p q) (0 : Fin 2)).toNat = n.val
      rw [h0, hn]; rfl
    | ⟨1, _⟩ =>
      show ((scatterRowsDims wf).start (ix2 p q) idx (1 : Fin 2)
        + (scatterRowsDims wf).window (ix2 p q) (1 : Fin 2)).toNat = q.val
      rw [h1]; rfl

theorem scatter_rows_apply (d : ScatterDims ⟨2, ![R, C]⟩ ⟨2, ![M, 1]⟩ ⟨2, ![M, C]⟩)
    (huw : d.updateWindowDims = [1]) (hiw : d.insertedWindowDims = [0]) (hsd : d.scatterDimsToOperandDims = [0])
    (hiv : d.indexVectorDim = 1)
    (x : (⟨2, ![R, C]⟩ : Shape).Idx → EReal) (idx : IVec ⟨2, ![M, 1]⟩ 32) (upd : (⟨2, ![M, C]⟩ : Shape).Idx → EReal)
    (n : Fin R) (o : Fin C) :
    Host.scatterAdd (F := Ideal) (φ := .f32) d x idx upd (ix2 n o)
      = x (ix2 n o) + ∑ p ∈ Finset.univ.filter (fun p : Fin M => (idx (ix2 p (0 : Fin 1))).toInt = (n.val : Int)),
          upd (ix2 p o) := by
  obtain ⟨uw, iw, sd, iv, wf⟩ := d
  dsimp only at huw hiw hsd hiv
  subst huw hiw hsd hiv
  show Ideal.hostScatterAdd (scatterRowsDims wf) x idx upd (ix2 n o) = _
  unfold Ideal.hostScatterAdd
  congr 1

  rw [Finset.sum_filter, Finset.sum_filter, sum_idx2]
  refine Finset.sum_congr rfl fun p _ => ?_

  simp only [scatterRows_resultIdx_iff]
  by_cases hp : (idx (ix2 p (0 : Fin 1))).toInt = (n.val : Int)
  · simp only [hp, true_and, if_true]
    exact (Finset.sum_ite_eq' Finset.univ o fun q => upd (ix2 p q)).trans (if_pos (Finset.mem_univ o))
  · simp only [hp, false_and, if_false]
    exact Finset.sum_const_zero

end Cert.ScatterRows

end
-- ==== Proof.KHost1.lean ====
import proofs.«422153_j62534723830204_3_alg».proof.Proof.Gen.KernelIdeal.Regions
import proofs.«422153_j62534723830204_3_alg».proof.Proof.KArgs
import proofs.«422153_j62534723830204_3_alg».proof.Proof.Spec
import proofs.«422153_j62534723830204_3_alg».proof.Proof.LibScatterRows
import proofs.«422153_j62534723830204_3_alg».proof.Proof.LibUnitAxis
import Idealize.ShloMosaic.Lib.StableHlo.Run
import Idealize.ShloMosaic.Lib.ValueIdx
import Idealize.ShloMosaic.Lib.ValueLayout
import Idealize.ShloMosaic.Lib.Pipeline.Value
import Idealize.ShloMosaic.Lib.IdealHost
import Idealize.ShloMosaic.PureOps.Ideal.Laws

noncomputable section

open scoped BigOperators

namespace Cert.KernelIdeal.Val

open Cert.KernelIdeal Cert.KernelIdeal.Gen Idealize.ShloMosaic Idealize.ShloMosaic.TcCoe Idealize.ShloMosaic.ValueIdx Idealize.SL.Sem

variable (m : (ℓ : Loc nD τ sig) → Buf (Elt Ideal) ℓ) (c : Dev nD)
variable (outs : Outs (F := Ideal))

theorem V5_keep (r : Ref sig .tc) (h5 : r ∉ hostOps1_W := by decide) (h4 : r ∉ ([main_v9] : List (Ref sig .tc)) := by decide)
    (h3 : r ∉ hostOps0_2_W := by decide) (h2 : r ∉ hostOps0_1_W := by decide) (h1 : r ∉ hostOps0_W := by decide) :
    V5 m outs c r = m ((c.tc : Thread nD τ).loc r) :=
  (V5_of m outs c r h5).trans <| (V4_of m outs c r h4).trans <| (V3_of m c r h3).trans <|
    (V2_of m c r h2).trans <| (V1_of m c r h1).trans rfl

theorem V5_arg0 : V5 m outs c main_arg0 = (kargs m c).x := V5_keep m c outs main_arg0
theorem V5_arg2 : V5 m outs c main_arg2 = (kargs m c).u := V5_keep m c outs main_arg2
theorem V5_arg4 : V5 m outs c main_arg4 = (kargs m c).dst := V5_keep m c outs main_arg4
theorem V5_arg11 : (V5 m outs c main_arg11 : S64x128.Idx → EReal) = (kargs m c).nW1 := V5_keep m c outs main_arg11
theorem V5_arg12 : V5 m outs c main_arg12 = (kargs m c).nb1 := V5_keep m c outs main_arg12
theorem V5_arg13 : (V5 m outs c main_arg13 : S128x32.Idx → EReal) = (kargs m c).nW2 := V5_keep m c outs main_arg13
theorem V5_arg14 : V5 m outs c main_arg14 = (kargs m c).nb2 := V5_keep m c outs main_arg14
theorem V5_arg15 : V5 m outs c main_arg15 = (kargs m c).ng := V5_keep m c outs main_arg15
theorem V5_arg16 : V5 m outs c main_arg16 = (kargs m c).nbt := V5_keep m c outs main_arg16

theorem V5_v9 : V5 m outs c main_v9 = outs 4 main_v9 c :=
  (V5_of m outs c main_v9 (by decide)).trans (Function.update_self ..)

theorem e_v11 : V5 m outs c main_v11
    = concatenate S1600000x17 1 [⟨S1600000x16, (V5 m outs c main_v9 : S1600000x16.Idx → EReal)⟩,
        ⟨S1600000x1, broadcastInDim S1600000x1 ![] bcast_S_S1600000x1 (constant (F := Ideal) S_ .f32 0x3F800000#32)⟩]
        concatenates_S1600000x16_S1600000x1_S1600000x17_d1 := by
  after_results_simp <;> rfl

theorem e_v13 : V5 m outs c main_v13
    = broadcastInDim S1600000x1 ![0] bcast_S1600000_S1600000x1_0 (V5 m outs c main_arg4 : S1600000.Idx → BitVec 32) := by
  after_results_simp <;> rfl

theorem e_v14 : V5 m outs c main_v14
    = Host.scatterAdd (F := Ideal) (φ := .f32) scatter_S50000x17_S1600000x1_S1600000x17_1_0_0_1
        (broadcastInDim S50000x17 ![] bcast_S_S50000x17 (constant (F := Ideal) S_ .f32 0x00000000#32))
        (V5 m outs c main_v13) (V5 m outs c main_v11) := by
  after_results_simp <;> rfl

theorem e_v15 : V5 m outs c main_v15
    = extractStridedSlice S50000x16 ![0, 0] (V5 m outs c main_v14 : S50000x17.Idx → EReal) slices_S50000x17_S50000x16_0_0 := by
  after_results_simp <;> rfl

theorem e_v16 : V5 m outs c main_v16
    = extractStridedSlice S50000x1 ![0, 16] (V5 m outs c main_v14 : S50000x17.Idx → EReal) slices_S50000x17_S50000x1_0_16 := by
  after_results_simp <;> rfl

theorem e_v18 : V5 m outs c main_v18
    = maximumf (F := Ideal) (φ := .f32) (V5 m outs c main_v16 : S50000x1.Idx → EReal)
        (broadcastInDim S50000x1 ![] bcast_S_S50000x1 (constant (F := Ideal) S_ .f32 0x3F800000#32)) := by
  after_results_simp <;> rfl

theorem e_v19 : V5 m outs c main_v19
    = broadcastInDim S50000x16 ![0, 1] bcast_S50000x1_S50000x16_0_1 (V5 m outs c main_v18 : S50000x1.Idx → EReal) := by
  after_results_simp <;> rfl

theorem e_v20 : V5 m outs c main_v20
    = Host.divf (F := Ideal) (φ := .f32) (V5 m outs c main_v15 : S50000x16.Idx → EReal) (V5 m outs c main_v19 : S50000x16.Idx → EReal) := by
  after_results_simp <;> rfl

theorem e_v23 : V5 m outs c main_v23
    = truncf (F := Ideal) .bf16 (concatenate S50000x64 1 [⟨S50000x32, (V5 m outs c main_arg0 : S50000x32.Idx → EReal)⟩,
        ⟨S50000x16, (V5 m outs c main_v20 : S50000x16.Idx → EReal)⟩,
        ⟨S50000x16, broadcastInDim S50000x16 ![0, 1] bcast_S1x16_S50000x16_0_1 (V5 m outs c main_arg2 : S1x16.Idx → EReal)⟩]
        concatenates_S50000x32_S50000x16_S50000x16_S50000x64_d1) bitsLt_bf16_f32 := by
  after_results_simp <;> rfl

theorem toInt_eq_iff_dN (A : Cert.Spec.Args) (hd : Cert.Spec.InRange A.dst) (e : Fin 1600000) (n : Fin 50000) :
    (A.dst (ix1 e)).toInt = (n.val : Int) ↔ Cert.Spec.dN A e = n := by
  obtain ⟨h0, h1⟩ := hd e
  have hn := n.isLt
  unfold Cert.Spec.dN Cert.Spec.nodeOf
  rw [Fin.ext_iff]
  show _ ↔ min (A.dst (ix1 e)).toInt.toNat 49999 = n.val
  omega

theorem sum_received (A : Cert.Spec.Args) (hd : Cert.Spec.InRange A.dst) (n : Fin 50000) (g : Fin 1600000 → EReal) :
    (∑ p ∈ Finset.univ.filter (fun p : Fin 1600000 => (A.dst (ix1 p)).toInt = (n.val : Int)), g p)
      = ∑ e : Fin 1600000, if Cert.Spec.dN A e = n then g e else 0 := by
  rw [Finset.sum_filter]
  refine Finset.sum_congr rfl fun e _ => ?_
  by_cases h : Cert.Spec.dN A e = n
  · rw [if_pos h, if_pos ((toInt_eq_iff_dN A hd e n).2 h)]
  · rw [if_neg h, if_neg (fun h' => h ((toInt_eq_iff_dN A hd e n).1 h'))]

theorem v11_apply_edge (p : Fin 1600000) (j : Fin 16) (o : Fin 17) (ho : o.val = j.val) :
    (V5 m outs c main_v11 : S1600000x17.Idx → EReal) (ix2 p o) = (outs 4 main_v9 c : S1600000x16.Idx → EReal) (ix2 p j) := by
  rw [e_v11, V5_v9]
  exact Cert.LibUnitAxis.cat_cols_apply _ _ p o 0 _ rfl 0 rfl j (by omega)

theorem v11_apply_one (p : Fin 1600000) :
    (V5 m outs c main_v11 : S1600000x17.Idx → EReal) (ix2 p (16 : Fin 17)) = Cert.Spec.cOne := by
  rw [e_v11]
  exact (Cert.LibUnitAxis.cat_cols_apply _ _ p (16 : Fin 17) 1 _ rfl 16 rfl (0 : Fin 1) rfl).trans
    (broadcastInDim_scalar_apply _ _ _)

theorem v13_apply (p : Fin 1600000) :
    (V5 m outs c main_v13 : S1600000x1.Idx → BitVec 32) (ix2 p (0 : Fin 1)) = (kargs m c).dst (ix1 p) := by
  rw [e_v13, Cert.LibUnitAxis.bcast_col_apply, V5_arg4]

theorem v14_apply (n : Fin 50000) (o : Fin 17) (g : Fin 1600000 → EReal)
    (hg : ∀ p, (V5 m outs c main_v11 : S1600000x17.Idx → EReal) (ix2 p o) = g p) :
    (V5 m outs c main_v14 : S50000x17.Idx → EReal) (ix2 n o)
      = ∑ p ∈ Finset.univ.filter (fun p : Fin 1600000 => ((kargs m c).dst (ix1 p)).toInt = (n.val : Int)), g p := by
  rw [e_v14]
  refine (Cert.ScatterRows.scatter_rows_apply scatter_S50000x17_S1600000x1_S1600000x17_1_0_0_1 rfl rfl rfl rfl _ _ _ n o).trans ?_
  rw [broadcastInDim_scalar_apply, constant_apply, Ideal.ofBits_zero_f32, zero_add]
  exact Finset.sum_congr (Finset.filter_congr fun p _ => by rw [v13_apply]) fun p _ => hg p

theorem v21_apply (n : Fin 50000) (j : Fin 16) :
    broadcastInDim S50000x16 ![0, 1] bcast_S1x16_S50000x16_0_1 (V5 m outs c main_arg2 : S1x16.Idx → EReal) (ix2 n j)
      = (kargs m c).u (ix2 (0 : Fin 1) j) := by
  rw [V5_arg2]
  refine broadcastInDim_apply _ _ _ (ix2 n j) (ix2 (0 : Fin 1) j) fun a => ?_
  match a with
  | ⟨0, _⟩ => rfl
  | ⟨1, _⟩ =>
    show j.val = if (16 : ℕ) = 1 then 0 else j.val
    rw [if_neg (by decide)]

section
variable (hd : Cert.Spec.InRange (kargs m c).dst)
  (he : ∀ (e : Fin 1600000) (j : Fin 16),
      (outs 4 main_v9 c : S1600000x16.Idx → EReal) (ix2 e j) = Cert.Spec.eOut (kargs m c) e j)
include hd he

theorem v16_apply (n : Fin 50000) :
    (V5 m outs c main_v16 : S50000x1.Idx → EReal) (ix2 n (0 : Fin 1)) = Cert.Spec.cnt (kargs m c) n := by
  rw [e_v16]
  refine (slice2_axis1_apply 16 _ slices_S50000x17_S50000x1_0_16 n (0 : Fin 1) (16 : Fin 17) rfl).trans ?_
  refine (v14_apply m c outs n _ (fun _ => Cert.Spec.cOne) fun e => v11_apply_one m c outs e).trans ?_
  unfold Cert.Spec.cnt
  exact sum_received (kargs m c) hd n _

theorem v15_apply (n : Fin 50000) (j : Fin 16) :
    (V5 m outs c main_v15 : S50000x16.Idx → EReal) (ix2 n j) = Cert.Spec.aggSum (kargs m c) n j := by
  rw [e_v15]
  refine (slice2_axis1_apply 0 _ slices_S50000x17_S50000x16_0_0 n j (⟨j.val, Nat.lt_trans j.isLt (by decide)⟩ : Fin 17)
    (Nat.zero_add _).symm).trans ?_
  refine (v14_apply m c outs n _ (fun e => Cert.Spec.eOut (kargs m c) e j)
    fun e => (v11_apply_edge m c outs e j _ rfl).trans (he e j)).trans ?_
  unfold Cert.Spec.aggSum
  exact sum_received (kargs m c) hd n _

theorem v18_apply (n : Fin 50000) :
    (V5 m outs c main_v18 : S50000x1.Idx → EReal) (ix2 n (0 : Fin 1)) = max (Cert.Spec.cnt (kargs m c) n) Cert.Spec.cOne := by
  rw [e_v18]
  refine (maximumf_apply _ _ _).trans ?_
  rw [v16_apply m c outs hd he n, broadcastInDim_scalar_apply]
  rfl

theorem v19_apply (n : Fin 50000) (j : Fin 16) :
    (V5 m outs c main_v19 : S50000x16.Idx → EReal) (ix2 n j) = max (Cert.Spec.cnt (kargs m c) n) Cert.Spec.cOne := by
  rw [e_v19]
  refine (broadcastInDim_apply _ _ _ (ix2 n j) (ix2 n (0 : Fin 1)) fun a => ?_).trans (v18_apply m c outs hd he n)
  match a with
  | ⟨0, _⟩ =>
    show n.val = if (50000 : ℕ) = 1 then 0 else n.val
    rw [if_neg (by decide)]
  | ⟨1, _⟩ => rfl

theorem v20_apply (n : Fin 50000) (j : Fin 16) :
    (V5 m outs c main_v20 : S50000x16.Idx → EReal) (ix2 n j) = Cert.Spec.agg (kargs m c) n j := by
  rw [e_v20]
  refine (hostDivf_apply _ _ _).trans ?_
  rw [v15_apply m c outs hd he n j, v19_apply m c outs hd he n j]
  rfl

-- The node perceptron's input row [node | average | global]; the change of float format is the identity on the extended reals.
theorem v23_apply (n : Fin 50000) (l : Fin 64) :
    (V5 m outs c main_v23 : S50000x64.Idx → EReal) (ix2 n l) = Cert.Spec.nIn (kargs m c) n l := by
  rw [e_v23]
  refine (truncf_apply (s := S50000x64) (φ := .f32) (ψ := .bf16) _ _ _).trans ?_
  have hl := l.isLt
  unfold Cert.Spec.nIn
  split
  · next h₁ =>
    exact (Cert.LibUnitAxis.cat_cols_apply _ _ n l 0 _ rfl 0 rfl (⟨l.val, h₁⟩ : Fin 32) (Nat.zero_add _)).trans
      (congrFun (V5_arg0 m c outs) _)
  · split
    · exact (Cert.LibUnitAxis.cat_cols_apply _ _ n l 1 _ rfl 32 rfl (⟨l.val - 32, by omega⟩ : Fin 16)
        (by show 32 + (l.val - 32) = l.val; omega)).trans (v20_apply m c outs hd he n _)
    · exact (Cert.LibUnitAxis.cat_cols_apply _ _ n l 2 _ rfl 48 rfl (⟨l.val - 48, by omega⟩ : Fin 16)
        (by show 48 + (l.val - 48) = l.val; omega)).trans (v21_apply m c outs n _)

end

theorem v24_apply (k : Fin 128) :
    (V5 m outs c main_v24 : S1x128.Idx → EReal) (ix2 (0 : Fin 1) k) = (kargs m c).nb1 (ix1 k) := by
  rw [← V5_arg12 m c outs]
  exact (congrFun (by after_results_simp <;> rfl) _).trans (shapeCast_a_1a_apply _ shapeCasts_S128_S1x128 0 k)

theorem v25_apply (k : Fin 32) :
    (V5 m outs c main_v25 : S1x32.Idx → EReal) (ix2 (0 : Fin 1) k) = (kargs m c).nb2 (ix1 k) := by
  rw [← V5_arg14 m c outs]
  exact (congrFun (by after_results_simp <;> rfl) _).trans (shapeCast_a_1a_apply _ shapeCasts_S32_S1x32 0 k)

theorem v26_apply (k : Fin 32) :
    (V5 m outs c main_v26 : S1x32.Idx → EReal) (ix2 (0 : Fin 1) k) = (kargs m c).ng (ix1 k) := by
  rw [← V5_arg15 m c outs]
  exact (congrFun (by after_results_simp <;> rfl) _).trans (shapeCast_a_1a_apply _ shapeCasts_S32_S1x32 0 k)

theorem v27_apply (k : Fin 32) :
    (V5 m outs c main_v27 : S1x32.Idx → EReal) (ix2 (0 : Fin 1) k) = (kargs m c).nbt (ix1 k) := by
  rw [← V5_arg16 m c outs]
  exact (congrFun (by after_results_simp <;> rfl) _).trans (shapeCast_a_1a_apply _ shapeCasts_S32_S1x32 0 k)

end Cert.KernelIdeal.Val

end
-- ==== Proof.KHost2.lean ====
import proofs.«422153_j62534723830204_3_alg».proof.Proof.Gen.KernelIdeal.Regions
import proofs.«422153_j62534723830204_3_alg».proof.Proof.KArgs
import proofs.«422153_j62534723830204_3_alg».proof.Proof.Spec
import proofs.«422153_j62534723830204_3_alg».proof.Proof.LibUnitAxis
import Idealize.ShloMosaic.Lib.StableHlo.Run
import Idealize.ShloMosaic.Lib.ValueIdx
import Idealize.ShloMosaic.Lib.ValueLayout
import Idealize.ShloMosaic.Lib.Pipeline.Value
import Idealize.ShloMosaic.Lib.IdealHost
import Idealize.ShloMosaic.PureOps.Ideal.Laws

noncomputable section

namespace Cert.KernelIdeal.Val

open Cert.KernelIdeal Cert.KernelIdeal.Gen Idealize.ShloMosaic Idealize.ShloMosaic.TcCoe Idealize.ShloMosaic.ValueIdx Idealize.SL.Sem
open Cert.LibUnitAxis
open scoped BigOperators

-- The sum down the rows of a matrix is, column by column, the initial value plus the column's sum.
theorem sum_rows {R C : Nat} {u : Shape} (x : FVec Ideal ⟨2, ![R, C]⟩ .f32) (init : u.Idx → EReal)
    (h : (⟨2, ![R, C]⟩ : Shape).ReducesTo [0] ⟨1, ![C]⟩) (hu : 0 < u.numel) (q : Fin C) :
    Host.reduceAdd (F := Ideal) (φ := .f32) x init h hu (ix1 q)
      = init (Shape.Idx.first hu) + ∑ n : Fin R, x (ix2 n q) := by
  have hr : (⟨2, ![R, C]⟩ : Shape).Reduces [0] ⟨1, ![C]⟩ := let ⟨a, b⟩ := h; ⟨a, Nat.one_pos, b⟩
  rw [hostReduceAdd_apply, Ideal.hostReduceAdd_single h hr]
  refine congrArg (_ + ·) (Finset.sum_congr rfl fun k _ => ?_)
  exact congrArg x (funext fun a => Fin.ext (by match a with | ⟨0, _⟩ => rfl | ⟨1, _⟩ => rfl))

-- The row sum from zero, laid as one row and divided by a constant laid over that row: the column's sum over the constant.
theorem mean_rows {R C : Nat} (x : FVec Ideal ⟨2, ![R, C]⟩ .f32) (w : BitVec 32)
    (hr : (⟨2, ![R, C]⟩ : Shape).ReducesTo [0] ⟨1, ![C]⟩) (hb : (⟨1, ![C]⟩ : Shape).BroadcastsInDim ⟨2, ![1, C]⟩ ![1])
    (hs : S_.BroadcastsInDim ⟨2, ![1, C]⟩ ![]) (q : Fin C) :
    Host.divf (F := Ideal) (broadcastInDim ⟨2, ![1, C]⟩ ![1] hb
        (Host.reduceAdd (F := Ideal) (φ := .f32) x (constant (F := Ideal) S_ .f32 0x00000000#32) hr h_S_))
      (broadcastInDim ⟨2, ![1, C]⟩ ![] hs (constant (F := Ideal) S_ .f32 w)) (ix2 (0 : Fin 1) q)
      = Ideal.div (∑ n : Fin R, x (ix2 n q)) (Ideal.ofBits .f32 w) := by
  rw [hostDivf_apply, bcast_row_apply, broadcastInDim_scalar_apply, sum_rows, constant_apply, constant_apply,
    Ideal.ofBits_zero_f32, zero_add]

-- A one-row matrix times a matrix reads, at column k, the sum over the contracted axis of the products.
theorem dense_apply {K N : Nat} (d : DotDims ⟨2, ![1, K]⟩ ⟨2, ![K, N]⟩ ⟨2, ![1, N]⟩)
    (h1 : d.lhsContracting = [1]) (h2 : d.rhsContracting = [0]) (h3 : d.lhsNonContracting = [0])
    (h4 : d.rhsNonContracting = [1]) (h5 : d.lhsBatch = []) (h6 : d.rhsBatch = [])
    (y : FVec Ideal ⟨2, ![1, K]⟩ .f32) (w : FVec Ideal ⟨2, ![K, N]⟩ .f32) (k : Fin N) :
    Host.dotGeneral (F := Ideal) d none y w (ix2 (0 : Fin 1) k)
      = ∑ l : Fin K, y (ix2 (0 : Fin 1) l) * w (ix2 l k) := by
  obtain ⟨lc, rc, ln, rn, lb, rb, wf⟩ := d
  dsimp only at h1 h2 h3 h4 h5 h6
  subst h1 h2 h3 h4 h5 h6
  simp only [Host.dotGeneral]
  rw [Ideal.dotGeneral_apply, ← Equiv.sum_comp (contrEquiv1 _ K rfl rfl).symm]
  refine Finset.sum_congr rfl fun l _ => ?_
  have hk := contrEquiv1_symm_val (DotDims.mk (sl := ⟨2, ![1, K]⟩) (sr := ⟨2, ![K, N]⟩) (so := ⟨2, ![1, N]⟩)
    [1] [0] [0] [1] [] [] wf) K rfl rfl l
  congr 2 <;> funext a <;> refine Fin.ext ?_
  · match a with
    | ⟨0, _⟩ => rfl
    | ⟨1, _⟩ => exact (DotDims.lhsIdx_val_of_single _ rfl _ _).trans hk
  · match a with
    | ⟨0, _⟩ => exact (DotDims.rhsIdx_val_of_single _ rfl _ _).trans hk
    | ⟨1, _⟩ => rfl

-- The maximum with the zero constant laid over any shape.
theorem relu_apply {t : Shape} (z : FVec Ideal t .f32) (h : S_.BroadcastsInDim t ![]) (j : t.Idx) :
    maximumf z (broadcastInDim t ![] h (constant (F := Ideal) S_ .f32 0x00000000#32)) j = max (z j) 0 := by
  rw [maximumf_apply, broadcastInDim_scalar_apply, constant_apply, Ideal.ofBits_zero_f32]

variable (m : (ℓ : Loc nD τ sig) → Buf (Elt Ideal) ℓ) (c : Dev nD) (outs : Outs (F := Ideal))

theorem e_v32 : V7 m outs c main_v32
    = Host.divf (F := Ideal) (broadcastInDim S1x32 ![1] bcast_S32_S1x32_1
        (Host.reduceAdd (F := Ideal) (φ := .f32) (V6 m outs c main_v28 : S50000x32.Idx → EReal)
          (constant (F := Ideal) S_ .f32 0x00000000#32) reducesTo_S50000x32_S32_d0 h_S_))
      (broadcastInDim S1x32 ![] bcast_S_S1x32 (constant (F := Ideal) S_ .f32 0x47435000#32)) := by
  after_results_simp <;> rfl

theorem e_v36 : V7 m outs c main_v36
    = Host.divf (F := Ideal) (broadcastInDim S1x16 ![1] bcast_S16_S1x16_1
        (Host.reduceAdd (F := Ideal) (φ := .f32) (V6 m outs c main_v15 : S50000x16.Idx → EReal)
          (constant (F := Ideal) S_ .f32 0x00000000#32) reducesTo_S50000x16_S16_d0 h_S_))
      (broadcastInDim S1x16 ![] bcast_S_S1x16 (constant (F := Ideal) S_ .f32 0x49C35000#32)) := by
  after_results_simp <;> rfl

theorem e_v37 : V7 m outs c main_v37
    = concatenate S1x64 1 [⟨S1x16, (V6 m outs c main_arg2 : S1x16.Idx → EReal)⟩,
        ⟨S1x32, (V7 m outs c main_v32 : S1x32.Idx → EReal)⟩,
        ⟨S1x16, (V7 m outs c main_v36 : S1x16.Idx → EReal)⟩]
        concatenates_S1x16_S1x32_S1x16_S1x64_d1 := by
  after_results_simp <;> rfl

theorem e_v40 : V7 m outs c main_v40
    = addf (F := Ideal) (s := S1x128) (φ := .f32)
        (Host.dotGeneral (F := Ideal) (φ₁ := .f32) (φ₂ := .f32) dot_S1x64_S64x128_S1x128_1_0_0_1_n_n none
          (V7 m outs c main_v37 : S1x64.Idx → EReal) (V6 m outs c main_arg17 : S64x128.Idx → EReal))
        (broadcastInDim S1x128 ![1] bcast_S128_S1x128_1 (V6 m outs c main_arg18 : S128.Idx → EReal)) := by
  after_results_simp <;> rfl

theorem e_v41 : V8 m outs c main_v41
    = maximumf (F := Ideal) (s := S1x128) (φ := .f32) (V7 m outs c main_v40)
        (broadcastInDim S1x128 ![] bcast_S_S1x128 (constant (F := Ideal) S_ .f32 0x00000000#32)) := by
  after_results_simp <;> rfl

theorem e_v44 : V9 m outs c main_v44
    = addf (F := Ideal) (s := S1x16) (φ := .f32)
        (Host.dotGeneral (F := Ideal) (φ₁ := .f32) (φ₂ := .f32) dot_S1x128_S128x16_S1x16_1_0_0_1_n_n none
          (V8 m outs c main_v41 : S1x128.Idx → EReal) (V8 m outs c main_arg19 : S128x16.Idx → EReal))
        (broadcastInDim S1x16 ![1] bcast_S16_S1x16_1 (V8 m outs c main_arg20 : S16.Idx → EReal)) := by
  after_results_simp <;> rfl

theorem e_v45 : V10 m outs c main_v45
    = maximumf (F := Ideal) (s := S1x16) (φ := .f32) (V9 m outs c main_v44)
        (broadcastInDim S1x16 ![] bcast_S_S1x16 (constant (F := Ideal) S_ .f32 0x00000000#32)) := by
  after_results_simp <;> rfl

theorem V6_v28 : V6 m outs c main_v28 = outs 6 main_v28 c := Function.update_self ..

theorem V6_v15 : V6 m outs c main_v15 = V5 m outs c main_v15 := V6_of m outs c main_v15 (by decide)

theorem V6_keep (r : Ref sig .tc) (h0 : r ∉ hostOps0_W := by decide) (h1 : r ∉ hostOps0_1_W := by decide)
    (h2 : r ∉ hostOps0_2_W := by decide) (h4 : r ∉ ([main_v9] : List (Ref sig .tc)) := by decide)
    (h5 : r ∉ hostOps1_W := by decide) (h6 : r ∉ ([main_v28] : List (Ref sig .tc)) := by decide) :
    V6 m outs c r = m ((c : Thread nD τ).loc r) :=
  (V6_of m outs c r h6).trans <| (V5_of m outs c r h5).trans <| (V4_of m outs c r h4).trans <|
    (V3_of m c r h2).trans <| (V2_of m c r h1).trans <| V1_of m c r h0

theorem V6_arg2 : V6 m outs c main_arg2 = (kargs m c).u := V6_keep m c outs main_arg2
theorem V6_arg17 : V6 m outs c main_arg17 = (kargs m c).gW1 := V6_keep m c outs main_arg17
theorem V6_arg18 : V6 m outs c main_arg18 = (kargs m c).gb1 := V6_keep m c outs main_arg18
theorem V8_arg19 : V8 m outs c main_arg19 = (kargs m c).gW2 :=
  (V8_of m outs c main_arg19 (by decide)).trans <| (V7_of m outs c main_arg19 (by decide)).trans <| V6_keep m c outs main_arg19
theorem V8_arg20 : V8 m outs c main_arg20 = (kargs m c).gb2 :=
  (V8_of m outs c main_arg20 (by decide)).trans <| (V7_of m outs c main_arg20 (by decide)).trans <| V6_keep m c outs main_arg20

section
variable (hx : ∀ (n : Fin 50000) (j : Fin 32), (outs 6 main_v28 c : S50000x32.Idx → EReal) (ix2 n j) = Cert.Spec.xOut (kargs m c) n j)
  (hagg : ∀ (n : Fin 50000) (j : Fin 16), (V5 m outs c main_v15 : S50000x16.Idx → EReal) (ix2 n j) = Cert.Spec.aggSum (kargs m c) n j)
include hx hagg

theorem v32_apply (q : Fin 32) :
    (V7 m outs c main_v32 : S1x32.Idx → EReal) (ix2 (0 : Fin 1) q) = Cert.Spec.meanX (kargs m c) q := by
  rw [e_v32, V6_v28, mean_rows]
  exact congrArg (fun s : EReal => Ideal.div s Cert.Spec.cN) (Finset.sum_congr rfl fun n _ => hx n q)

theorem v36_apply (q : Fin 16) :
    (V7 m outs c main_v36 : S1x16.Idx → EReal) (ix2 (0 : Fin 1) q) = Cert.Spec.meanEByNode (kargs m c) q := by
  rw [e_v36, V6_v15, mean_rows]
  exact congrArg (fun s : EReal => Ideal.div s Cert.Spec.cE) (Finset.sum_congr rfl fun n _ => hagg n q)

theorem v37_apply (l : Fin 64) :
    (V7 m outs c main_v37 : S1x64.Idx → EReal) (ix2 (0 : Fin 1) l)
      = Cert.Spec.gInOf (kargs m c) (Cert.Spec.meanEByNode (kargs m c)) l := by
  rw [e_v37]
  have hl := l.isLt
  unfold Cert.Spec.gInOf
  split
  · next h₁ =>
    exact (cat_cols_apply _ _ 0 l 0 _ rfl 0 rfl (⟨l.val, h₁⟩ : Fin 16) (Nat.zero_add _)).trans (congrFun (V6_arg2 m c outs) _)
  · split
    · exact (cat_cols_apply _ _ 0 l 1 _ rfl 16 rfl (⟨l.val - 16, by omega⟩ : Fin 32)
        (by show 16 + (l.val - 16) = l.val; omega)).trans (v32_apply m c outs hx hagg _)
    · exact (cat_cols_apply _ _ 0 l 2 _ rfl 48 rfl (⟨l.val - 48, by omega⟩ : Fin 16)
        (by show 48 + (l.val - 48) = l.val; omega)).trans (v36_apply m c outs hx hagg _)

theorem v40_apply (k : Fin 128) :
    (V7 m outs c main_v40 : S1x128.Idx → EReal) (ix2 (0 : Fin 1) k)
      = Cert.Spec.lin (Cert.Spec.mat (kargs m c).gW1) (Cert.Spec.vec (kargs m c).gb1)
          (Cert.Spec.gInOf (kargs m c) (Cert.Spec.meanEByNode (kargs m c))) k := by
  rw [e_v40, addf_apply, dense_apply _ rfl rfl rfl rfl rfl rfl, bcast_row_apply, V6_arg17, V6_arg18]
  exact congrArg (fun s : EReal => s + (kargs m c).gb1 (ix1 k))
    (Finset.sum_congr rfl fun l _ => congrArg (fun t : EReal => t * (kargs m c).gW1 (ix2 l k)) (v37_apply m c outs hx hagg l))

theorem v41_apply (k : Fin 128) :
    (V8 m outs c main_v41 : S1x128.Idx → EReal) (ix2 (0 : Fin 1) k)
      = Cert.Spec.relu (Cert.Spec.lin (Cert.Spec.mat (kargs m c).gW1) (Cert.Spec.vec (kargs m c).gb1)
          (Cert.Spec.gInOf (kargs m c) (Cert.Spec.meanEByNode (kargs m c))) k) := by
  rw [e_v41, relu_apply, v40_apply m c outs hx hagg k]
  rfl

theorem v44_apply (j : Fin 16) :
    (V9 m outs c main_v44 : S1x16.Idx → EReal) (ix2 (0 : Fin 1) j)
      = Cert.Spec.lin (Cert.Spec.mat (kargs m c).gW2) (Cert.Spec.vec (kargs m c).gb2)
          (fun k => Cert.Spec.relu (Cert.Spec.lin (Cert.Spec.mat (kargs m c).gW1) (Cert.Spec.vec (kargs m c).gb1)
            (Cert.Spec.gInOf (kargs m c) (Cert.Spec.meanEByNode (kargs m c))) k)) j := by
  rw [e_v44, addf_apply, dense_apply _ rfl rfl rfl rfl rfl rfl, bcast_row_apply, V8_arg19, V8_arg20]
  exact congrArg (fun s : EReal => s + (kargs m c).gb2 (ix1 j))
    (Finset.sum_congr rfl fun k _ => congrArg (fun t : EReal => t * (kargs m c).gW2 (ix2 k j)) (v41_apply m c outs hx hagg k))

theorem v45_apply (j : Fin 16) :
    (V10 m outs c main_v45 : S1x16.Idx → EReal) (ix2 (0 : Fin 1) j)
      = Cert.Spec.uOutOf (kargs m c) (Cert.Spec.meanEByNode (kargs m c)) j := by
  rw [e_v45, relu_apply, v44_apply m c outs hx hagg j]
  rfl

end

theorem V10_v28 : V10 m outs c main_v28 = outs 6 main_v28 c :=
  (V10_of m outs c main_v28 (by decide)).trans <| (V9_of m outs c main_v28 (by decide)).trans <|
    (V8_of m outs c main_v28 (by decide)).trans <| (V7_of m outs c main_v28 (by decide)).trans (Function.update_self ..)

theorem V10_v9 : V10 m outs c main_v9 = outs 4 main_v9 c :=
  (V10_of m outs c main_v9 (by decide)).trans <| (V9_of m outs c main_v9 (by decide)).trans <|
    (V8_of m outs c main_v9 (by decide)).trans <| (V7_of m outs c main_v9 (by decide)).trans <|
    (V6_of m outs c main_v9 (by decide)).trans <| (V5_of m outs c main_v9 (by decide)).trans (Function.update_self ..)

end Cert.KernelIdeal.Val

end
-- ==== Proof.KVal.lean ====
import proofs.«422153_j62534723830204_3_alg».proof.Proof.FrameRun
import proofs.«422153_j62534723830204_3_alg».proof.Proof.KBlocks0
import proofs.«422153_j62534723830204_3_alg».proof.Proof.KBlocks1
import proofs.«422153_j62534723830204_3_alg».proof.Proof.KHost0
import proofs.«422153_j62534723830204_3_alg».proof.Proof.KHost1
import proofs.«422153_j62534723830204_3_alg».proof.Proof.KHost2

noncomputable section

namespace Cert.KernelIdeal.Val

open Cert.KernelIdeal Cert.KernelIdeal.Gen Cert.KernelIdeal.Frm Idealize.ShloMosaic Idealize.ShloMosaic.TcCoe
  Idealize.ShloMosaic.ValueIdx Idealize.SL.Sem

variable (m : (ℓ : Loc nD τ sig) → Buf (Elt Ideal) ℓ) (c : Dev nD)
  (hs : Cert.Spec.InRange (kargs m c).src) (hd : Cert.Spec.InRange (kargs m c).dst)
include hs hd

theorem outs_e_apply (e : Fin 1600000) (j : Fin 16) :
    (outs m 4 main_v9 c : S1600000x16.Idx → EReal) (ix2 e j) = Cert.Spec.eOut (kargs m c) e j := by
  rw [outs_e, arr0_apply]
  unfold Cert.Spec.eOut Blocks0.edgeArr
  simp only [V3_arg5 m c, V3_arg7 m c, v5_apply m c, v6_apply m c, v7_apply m c, v8_apply m c, v4_apply m c hs hd]

theorem outs_x_apply (n : Fin 50000) (j : Fin 32) :
    (outs m 6 main_v28 c : S50000x32.Idx → EReal) (ix2 n j) = Cert.Spec.xOut (kargs m c) n j := by
  rw [outs_x, arr1_apply]
  unfold Cert.Spec.xOut Blocks1.nodeArr
  simp only [V5_arg11 m c (outs m), V5_arg13 m c (outs m), v24_apply m c (outs m), v25_apply m c (outs m),
    v26_apply m c (outs m), v27_apply m c (outs m), v23_apply m c (outs m) hd (outs_e_apply m c hs hd)]

theorem x_out_apply (n : Fin 50000) (j : Fin 32) :
    (V10 m (outs m) c main_v28 : S50000x32.Idx → EReal) (ix2 n j) = Cert.Spec.xOut (kargs m c) n j := by
  rw [V10_v28]; exact outs_x_apply m c hs hd n j

theorem e_out_apply (e : Fin 1600000) (j : Fin 16) :
    (V10 m (outs m) c main_v9 : S1600000x16.Idx → EReal) (ix2 e j) = Cert.Spec.eOut (kargs m c) e j := by
  rw [V10_v9]; exact outs_e_apply m c hs hd e j

-- The mean of the updated edges, summed node by node over the received sums, counts every edge once.
theorem u_out_apply (j : Fin 16) :
    (V10 m (outs m) c main_v45 : S1x16.Idx → EReal) (ix2 (0 : Fin 1) j) = Cert.Spec.uOut (kargs m c) j := by
  rw [v45_apply m c (outs m) (outs_x_apply m c hs hd) (v15_apply m c (outs m) hd (outs_e_apply m c hs hd)) j,
    Cert.Spec.meanEByNode_eq]
  rfl

end Cert.KernelIdeal.Val

end
-- ==== Proof.PreDecode.lean ====
import proofs.«422153_j62534723830204_3_alg».proof.Defs
import proofs.«422153_j62534723830204_3_alg».proof.Proof.KArgs
import Idealize.ShloMosaic.Lib.ReduceAll

noncomputable section

namespace Cert.PreDecode

open Idealize.ShloMosaic Idealize.ShloMosaic.ValueIdx
open Cert.Pre_finite_inputs

variable [hPre : Cert.Pre_finite_inputs.Facts]

-- If the test 0 ≤ w < 50000, taken at every word w of an index array and folded by `and`, gives one, the array is in range.
theorem range_of_all (idx : IVec S1600000 32) (init : IVec S_ 1) (j : S_.Idx)
    (e : Host.reduce IntOp.andi
          (andi (cmpi .sge idx (broadcastInDim S1600000 ![] Facts.bcast_S_S1600000 (constantI S_ 32 0#32)))
            (cmpi .slt idx (broadcastInDim S1600000 ![] Facts.bcast_S_S1600000 (constantI S_ 32 50000#32))))
          init Facts.reducesTo_S1600000_S_d0 Facts.h_S_ j = 1#1) :
    Cert.Spec.InRange idx := fun k =>
  have ⟨h0, h1⟩ := IntOp.andi_eq_one.1
    (Host.reduce_andi_all _ init Facts.reducesTo_S1600000_S_d0 Facts.h_S_ j e (ix1 k))
  ⟨IntOp.cmpi_sge.1 h0, IntOp.cmpi_slt.1 h1⟩

end Cert.PreDecode

namespace Cert.KernelIdeal.Val

open Idealize.ShloMosaic Idealize.SL.Sem Cert.Pre_finite_inputs

-- Only the last two conjuncts of the precondition concern the index arrays: one range test each.
theorem ranges_of_pre [hPre : Cert.Pre_finite_inputs.Facts] (m : (ℓ : Loc Cert.KernelIdeal.nD Cert.KernelIdeal.τ Cert.KernelIdeal.sig) → Buf (Elt Ideal) ℓ) (h : Cert.Pre_KernelIdeal m) (c : Dev Cert.KernelIdeal.nD) :
    Cert.Spec.InRange (kargs m c).src ∧ Cert.Spec.InRange (kargs m c).dst := by
  have e0 := congrFun (h c) ValueIdx.ix0
  unfold fn fn_part1 fn_part2 fn_part3 fn_part4 fn_part5 fn_part6 at e0
  obtain ⟨h100, h106⟩ := IntOp.andi_eq_one.1 e0
  obtain ⟨-, h99⟩ := IntOp.andi_eq_one.1 h100
  exact ⟨Cert.PreDecode.range_of_all _ _ _ h99, Cert.PreDecode.range_of_all _ _ _ h106⟩

end Cert.KernelIdeal.Val

end
-- ==== Proof.RefArgs.lean ====
import proofs.«422153_j62534723830204_3_alg».proof.Proof.Spec
import Idealize.ShloMosaic.PureOps.Ideal.Laws
import Idealize.ShloMosaic.Lib.Pipeline.Value

noncomputable section

namespace Cert.ReferenceIdeal.RefVal

open Idealize.ShloMosaic Idealize.ShloMosaic.ValueIdx Cert.Spec

abbrev mkArgs := @Args.mk

-- Of pieces joined along the columns, piece `k`, whose columns start at `pre`, is read at column `l - pre`.
theorem concat_cols {α : Type} {R C Ck : ℕ} {xs : List ((s : Shape) × (s.Idx → α))}
    {h : Shape.Concatenates (xs.map (·.1)) ⟨2, ![R, C]⟩ (1 : Fin 2)} (r : Fin R) (l : Fin C) (k pre q : ℕ)
    {x : (⟨2, ![R, Ck]⟩ : Shape).Idx → α} (hx : xs[k]? = some ⟨_, x⟩ := by rfl)
    (hpre : (((xs.take k).map (·.1)).map fun s =>
      if h : s.rank = 2 then s.size ((1 : Fin 2).cast h.symm) else 0).sum = pre := by rfl)
    (hq : q < Ck := by omega) (hl : pre + q = l.val := by omega) :
    concatenate ⟨2, ![R, C]⟩ (1 : Fin 2) xs h (ix2 r l) = x (ix2 r ⟨q, hq⟩) := by
  obtain ⟨hk, hx⟩ := List.getElem?_eq_some_iff.1 hx
  exact concatenate_apply_piece (t := ⟨2, ![R, C]⟩) (1 : Fin 2) xs h (ix2 r l) k hk _ x hx rfl pre hpre (ix2 r ⟨q, hq⟩)
    (fun b hb => by match b with | ⟨0, _⟩ => rfl | ⟨1, _⟩ => exact absurd rfl hb) hl

-- A dense layer followed by the activation, read at (r, j), the operands given through their index maps.
theorem dense_at {R K M : ℕ} {Y : RArr ⟨2, ![R, K]⟩} {W : RArr ⟨2, ![K, M]⟩} {b : RArr ⟨1, ![M]⟩} {v : Fin K → EReal}
    {r : Fin R} (hY : ∀ k, Y (ix2 r k) = v k) (j : Fin M) {li : Fin K → (⟨2, ![R, K]⟩ : Shape).Idx}
    {wi : Fin K → (⟨2, ![K, M]⟩ : Shape).Idx} {bi : (⟨1, ![M]⟩ : Shape).Idx}
    (hl : ∀ k, li k = ix2 r k := by exact fun _ => eq_ix2 _) (hw : ∀ k, wi k = ix2 k j := by exact fun _ => eq_ix2 _)
    (hb : bi = ix1 j := by exact eq_ix1 _) :
    FloatOps.maximumf (F := Ideal) (φ := .f32) (FloatOps.addf (∑ k, Y (li k) * W (wi k)) (b bi))
      (FloatOps.ofBits .f32 0x00000000#32) = relu (lin (mat W) (vec b) v j) := by
  simp only [hl, hw, hb, hY, Ideal.maximumf_def, Ideal.addf_def, Ideal.ofBits_def, Ideal.ofBits_zero_f32]
  rfl

end Cert.ReferenceIdeal.RefVal

end
-- ==== Proof.RefE.lean ====
import proofs.«422153_j62534723830204_3_alg».proof.Proof.RefRead
import proofs.«422153_j62534723830204_3_alg».proof.Proof.RefArgs
import proofs.«422153_j62534723830204_3_alg».proof.Proof.LibTakeRows

noncomputable section

namespace Cert.ReferenceIdeal.RefVal

open Cert.ReferenceIdeal Cert.ReferenceIdeal.Gen Cert.ReferenceIdeal.Read Idealize.ShloMosaic Idealize.ShloMosaic.ValueIdx Cert.Spec

-- Adding the table's height to negative words only leaves a non-negative word as it is.
theorem select_word (w : BitVec 32) (h0 : 0 ≤ w.toInt) :
    Scalar.select (IntOp.cmpi .slt w 0#32) (IntOp.addi w 50000#32) w = w := by
  rw [eq_zero_of_ne_one (mt IntOp.cmpi_slt.1 (by rw [BitVec.toInt_zero]; omega)), select_zero]

variable (A : Args) (hs : InRange A.src) (hd : InRange A.dst)

abbrev outRow (e : Fin 1600000) (j : Fin 16) : EReal :=
  mlp (mat A.eW1) (vec A.eb1) (mat A.eW2) (vec A.eb2) (eIn A e) j

-- Taking rows by a column of words picks, for edge e, the table's row at the node that e's word names.
theorem take_node (idx : (⟨S1600000x1, .i32⟩ : BufTy).Contents (Elt Ideal)) (e : Fin 1600000) (q : Fin 32) :
    Host.gather gather_S50000x32_S1600000x1_S1600000x32_1_0_n_n_0_1_132 A.x idx (ix2 e q)
      = A.x (ix2 (nodeOf (idx (ix2 e (0 : Fin 1)))) q) :=
  Cert.TakeRows.take_rows_apply gather_S50000x32_S1600000x1_S1600000x32_1_0_n_n_0_1_132 rfl rfl rfl rfl rfl
    (by decide) A.x idx e q

theorem v1_apply (e : Fin 1600000) (q : Fin 16) :
    val_main_v1 (F := Ideal) A.u (ix2 e q) = A.u (ix2 (0 : Fin 1) q) := by
  rw [val_main_v1_apply, val_main_v0_apply]
  exact congrArg A.u (funext fun a => Fin.ext (by
    match a with
    | ⟨0, _⟩ => rfl
    | ⟨1, _⟩ => exact Nat.mod_eq_of_lt q.isLt))

include hs in
theorem v8_apply (e : Fin 1600000) (q : Fin 32) :
    val_main_v8 (F := Ideal) A.x A.src (ix2 e q) = A.x (ix2 (sN A e) q) := by
  unfold val_main_v8
  rw [take_node, val_main_v7_apply, (show idx_main_v7 (ix2 e (0 : Fin 1)) = ix1 e from eq_ix1 _),
    val_main_v6_apply, val_main_v3_apply, val_main_v5_apply, val_main_v2_apply, val_main_v4_apply, val_main_c_apply,
    val_main_c_0_apply, select_word _ (hs e).1]
  rfl

include hd in
theorem v15_apply (e : Fin 1600000) (q : Fin 32) :
    val_main_v15 (F := Ideal) A.x A.dst (ix2 e q) = A.x (ix2 (dN A e) q) := by
  unfold val_main_v15
  rw [take_node, val_main_v14_apply, (show idx_main_v14 (ix2 e (0 : Fin 1)) = ix1 e from eq_ix1 _),
    val_main_v13_apply, val_main_v10_apply, val_main_v12_apply, val_main_v9_apply, val_main_v11_apply, val_main_c_1_apply,
    val_main_c_2_apply, select_word _ (hd e).1]
  rfl

include hs hd

theorem row_in (e : Fin 1600000) (l : Fin 96) :
    val_main_v16 (F := Ideal) A.x A.ea A.u A.src A.dst (ix2 e l) = eIn A e l := by
  unfold val_main_v16 eIn
  by_cases h₁ : l.val < 16
  · rw [dif_pos h₁]
    exact concat_cols e l 0 0 l.val
  rw [dif_neg h₁]
  by_cases h₂ : l.val < 48
  · rw [dif_pos h₂]
    exact (concat_cols e l 1 16 (l.val - 16)).trans (v8_apply A hs e _)
  rw [dif_neg h₂]
  by_cases h₃ : l.val < 80
  · rw [dif_pos h₃]
    exact (concat_cols e l 2 48 (l.val - 48)).trans (v15_apply A hd e _)
  rw [dif_neg h₃]
  exact (concat_cols e l 3 80 (l.val - 80)).trans (v1_apply A e _)

theorem second (i : S1600000x16.Idx) :
    val_main_v26 (F := Ideal) A.x A.ea A.u A.src A.dst A.eW1 A.eb1 A.eW2 A.eb2 i = outRow A (i 0) (i 1) := by
  obtain ⟨e, j, rfl⟩ : ∃ (e : Fin 1600000) (j : Fin 16), i = ix2 e j := ⟨i 0, i 1, eq_ix2 i⟩
  rw [val_main_v26_apply, val_main_v25_apply, val_main_v22_apply, val_main_v24_apply, val_main_v23_apply,
    val_main_call1_v0_apply]
  refine dense_at (r := e) (fun k => ?_) j
  rw [val_main_v21_apply, val_main_v20_apply, val_main_v17_apply, val_main_v19_apply, val_main_v18_apply,
    val_main_call0_v0_apply]
  exact dense_at (row_in A hs hd e) k

-- The updated edge: both sides centre the perceptron's row by its mean and scale it by rsqrt (variance + ε).
theorem edge (e : Fin 1600000) (j : Fin 16) :
    val_main_v50 (F := Ideal) A.x A.ea A.u A.src A.dst A.eW1 A.eb1 A.eW2 A.eb2 A.eg A.ebt (ix2 e j) = eOut A e j := by
  simp only [val_main_v50_apply, val_main_v47_apply, val_main_v44_apply, val_main_v39_apply, val_main_v38_apply,
    val_main_v43_apply, val_main_v42_apply, val_main_v41_apply, val_main_v40_apply, val_main_cst_6_apply,
    val_main_v46_apply, val_main_v45_apply, val_main_v49_apply, val_main_v48_apply, val_main_v37_apply,
    val_main_v35_apply, val_main_v34_apply, val_main_v36_apply, val_main_cst_5_apply, val_main_cst_4_apply,
    val_main_v33_apply, val_main_v32_apply, val_main_v31_apply, val_main_v30_apply, val_main_v28_apply,
    val_main_v27_apply, val_main_v29_apply, val_main_cst_3_apply, val_main_cst_apply, second A hs hd,
    Ideal.ofBits_def, Ideal.ofBits_zero_f32, zero_add,
    (show idx_main_v45 (idx_main_v46 (ix2 e j)) = ix1 j from eq_ix1 _),
    (show idx_main_v48 (idx_main_v49 (ix2 e j)) = ix1 j from eq_ix1 _)]
  rfl

end Cert.ReferenceIdeal.RefVal

end
-- ==== Proof.RefX.lean ====
import proofs.«422153_j62534723830204_3_alg».proof.Proof.RefRead
import proofs.«422153_j62534723830204_3_alg».proof.Proof.LibScatterRows
import proofs.«422153_j62534723830204_3_alg».proof.Proof.RefArgs

noncomputable section

namespace Cert.ReferenceIdeal.RefVal

open Cert.ReferenceIdeal Cert.ReferenceIdeal.Gen Cert.ReferenceIdeal.Read Idealize.ShloMosaic Idealize.ShloMosaic.ValueIdx Cert.Spec

-- Clamping to the table's height does nothing to a value already below it, so an in-range word equals n exactly when its node is n.
theorem toInt_eq_iff_nodeOf (w : BitVec 32) (h0 : 0 ≤ w.toInt) (h1 : w.toInt < 50000) (n : Fin 50000) :
    w.toInt = (n.val : Int) ↔ nodeOf w = n := by
  rw [Fin.ext_iff]
  show _ ↔ min w.toInt.toNat 49999 = n.val
  omega

variable (A : Args) (hd : InRange A.dst)

abbrev nRow (n : Fin 50000) (j : Fin 32) : EReal :=
  mlp (mat A.nW1) (vec A.nb1) (mat A.nW2) (vec A.nb2) (nIn A n) j

theorem v63_apply (n : Fin 50000) (q : Fin 16) : val_main_v63 (F := Ideal) A.u (ix2 n q) = A.u (ix2 (0 : Fin 1) q) := by
  rw [val_main_v63_apply, val_main_v62_apply]
  exact congrArg A.u (funext fun a => Fin.ext (by
    match a with
    | ⟨0, _⟩ => rfl
    | ⟨1, _⟩ => exact Nat.mod_eq_of_lt q.isLt))

include hd

-- Adding a one into row dst e for every edge e leaves in row n the number of edges n receives.
theorem v57_apply (n : Fin 50000) : val_main_v57 (F := Ideal) A.dst (ix2 n (0 : Fin 1)) = cnt A n := by
  unfold val_main_v57
  rw [Cert.ScatterRows.scatter_rows_apply
      scatter_S50000x1_S1600000x1_S1600000x1_1_0_0_1 rfl rfl rfl rfl,
    val_main_v55_apply, val_main_cst_9_apply, Ideal.ofBits_def, Ideal.ofBits_zero_f32, zero_add, Finset.sum_filter]
  unfold cnt
  refine Finset.sum_congr rfl fun e _ => ?_
  rw [val_main_v56_apply, (show idx_main_v56 (ix2 e (0 : Fin 1)) = ix1 e from eq_ix1 _), val_main_v54_apply,
    val_main_cst_8_apply, Ideal.ofBits_def]
  exact if_congr (toInt_eq_iff_nodeOf _ (hd e).1 (hd e).2 n) rfl rfl

variable (h50 : ∀ (e : Fin 1600000) (j : Fin 16),
  val_main_v50 (F := Ideal) A.x A.ea A.u A.src A.dst A.eW1 A.eb1 A.eW2 A.eb2 A.eg A.ebt (ix2 e j) = eOut A e j)
include h50

-- Adding edge e's updated row into row dst e for every e leaves in row n the sum over the edges n receives.
theorem v53_apply (n : Fin 50000) (j : Fin 16) :
    val_main_v53 (F := Ideal) A.x A.ea A.u A.src A.dst A.eW1 A.eb1 A.eW2 A.eb2 A.eg A.ebt (ix2 n j) = aggSum A n j := by
  unfold val_main_v53
  rw [Cert.ScatterRows.scatter_rows_apply
      scatter_S50000x16_S1600000x1_S1600000x16_1_0_0_1 rfl rfl rfl rfl,
    val_main_v51_apply, val_main_cst_7_apply, Ideal.ofBits_def, Ideal.ofBits_zero_f32, zero_add, Finset.sum_filter]
  unfold aggSum
  refine Finset.sum_congr rfl fun e _ => ?_
  rw [val_main_v52_apply, (show idx_main_v52 (ix2 e (0 : Fin 1)) = ix1 e from eq_ix1 _), h50]
  exact if_congr (toInt_eq_iff_nodeOf _ (hd e).1 (hd e).2 n) rfl rfl

theorem v61_apply (n : Fin 50000) (j : Fin 16) :
    val_main_v61 (F := Ideal) A.x A.ea A.u A.src A.dst A.eW1 A.eb1 A.eW2 A.eb2 A.eg A.ebt (ix2 n j) = agg A n j := by
  rw [val_main_v61_apply, val_main_v60_apply, (show idx_main_v60 (ix2 n j) = ix2 n (0 : Fin 1) from eq_ix2 _),
    val_main_v59_apply, val_main_v58_apply, val_main_cst_10_apply, v53_apply A hd h50, v57_apply A hd]
  rfl

theorem v64_apply (n : Fin 50000) (l : Fin 64) :
    val_main_v64 (F := Ideal) A.x A.ea A.u A.src A.dst A.eW1 A.eb1 A.eW2 A.eb2 A.eg A.ebt (ix2 n l) = nIn A n l := by
  unfold val_main_v64 nIn
  by_cases h₁ : l.val < 32
  · rw [dif_pos h₁]
    exact concat_cols n l 0 0 l.val
  rw [dif_neg h₁]
  by_cases h₂ : l.val < 48
  · rw [dif_pos h₂]
    exact (concat_cols n l 1 32 (l.val - 32)).trans (v61_apply A hd h50 n _)
  rw [dif_neg h₂]
  exact (concat_cols n l 2 48 (l.val - 48)).trans (v63_apply A n _)

theorem v74_apply (i : S50000x32.Idx) :
    val_main_v74 (F := Ideal) A.x A.ea A.u A.src A.dst A.eW1 A.eb1 A.eW2 A.eb2 A.eg A.ebt A.nW1 A.nb1 A.nW2 A.nb2 i
      = nRow A (i 0) (i 1) := by
  obtain ⟨n, j, rfl⟩ : ∃ (n : Fin 50000) (j : Fin 32), i = ix2 n j := ⟨i 0, i 1, eq_ix2 i⟩
  rw [val_main_v74_apply, val_main_v73_apply, val_main_v70_apply, val_main_v72_apply, val_main_v71_apply,
    val_main_call3_v0_apply]
  refine dense_at (r := n) (fun c => ?_) j
  rw [val_main_v69_apply, val_main_v68_apply, val_main_v65_apply, val_main_v67_apply, val_main_v66_apply,
    val_main_call2_v0_apply]
  exact dense_at (v64_apply A hd h50 n) c

-- The updated node: both sides centre the perceptron's row by its mean and scale it by rsqrt (variance + ε).
theorem node (n : Fin 50000) (j : Fin 32) :
    val_main_v98 (F := Ideal) A.x A.ea A.u A.src A.dst A.eW1 A.eb1 A.eW2 A.eb2 A.eg A.ebt A.nW1 A.nb1 A.nW2 A.nb2 A.ng A.nbt (ix2 n j)
      = xOut A n j := by
  simp only [val_main_v98_apply, val_main_v95_apply, val_main_v92_apply, val_main_v87_apply, val_main_v86_apply,
    val_main_v91_apply, val_main_v90_apply, val_main_v89_apply, val_main_v88_apply, val_main_cst_15_apply,
    val_main_v94_apply, val_main_v93_apply, val_main_v97_apply, val_main_v96_apply, val_main_v85_apply,
    val_main_v83_apply, val_main_v82_apply, val_main_v84_apply, val_main_cst_14_apply, val_main_cst_13_apply,
    val_main_v81_apply, val_main_v80_apply, val_main_v79_apply, val_main_v78_apply, val_main_v76_apply,
    val_main_v75_apply, val_main_v77_apply, val_main_cst_12_apply, val_main_cst_11_apply, v74_apply A hd h50,
    Ideal.ofBits_def, Ideal.ofBits_zero_f32, zero_add,
    (show idx_main_v93 (idx_main_v94 (ix2 n j)) = ix1 j from eq_ix1 _),
    (show idx_main_v96 (idx_main_v97 (ix2 n j)) = ix1 j from eq_ix1 _)]
  rfl

end Cert.ReferenceIdeal.RefVal

end
-- ==== Proof.RefU.lean ====
import proofs.«422153_j62534723830204_3_alg».proof.Proof.RefE
import proofs.«422153_j62534723830204_3_alg».proof.Proof.RefX

noncomputable section

namespace Cert.ReferenceIdeal.RefVal

open Cert.ReferenceIdeal Cert.ReferenceIdeal.Gen Cert.ReferenceIdeal.Read Idealize.ShloMosaic Idealize.ShloMosaic.ValueIdx Cert.Spec

section
variable (A : Args)
  (h50 : ∀ (e : Fin 1600000) (j : Fin 16),
    val_main_v50 (F := Ideal) A.x A.ea A.u A.src A.dst A.eW1 A.eb1 A.eW2 A.eb2 A.eg A.ebt (ix2 e j) = eOut A e j)
  (h98 : ∀ (n : Fin 50000) (j : Fin 32),
    val_main_v98 (F := Ideal) A.x A.ea A.u A.src A.dst A.eW1 A.eb1 A.eW2 A.eb2 A.eg A.ebt A.nW1 A.nb1 A.nW2 A.nb2 A.ng A.nbt (ix2 n j)
      = xOut A n j)

include h98 in
theorem nodeMean_at (c : Fin 32) :
    val_main_v102 (F := Ideal) A.x A.ea A.u A.src A.dst A.eW1 A.eb1 A.eW2 A.eb2 A.eg A.ebt A.nW1 A.nb1 A.nW2 A.nb2 A.ng A.nbt (ix2 (0 : Fin 1) c)
      = meanX A c := by
  rw [val_main_v102_apply, val_main_v100_apply, val_main_v99_apply, val_main_v101_apply, val_main_cst_17_apply,
    val_main_cst_16_apply]
  simp only [h98, Ideal.hostDivf_def, Ideal.ofBits_def, Ideal.ofBits_zero_f32, zero_add,
    (show ∀ n, idx_main_v99 (idx_main_v100 (ix2 (0 : Fin 1) c)) n = ix2 n c from fun _ => eq_ix2 _)]
  rfl

include h50 in
theorem edgeMean_at (c : Fin 16) :
    val_main_v106 (F := Ideal) A.x A.ea A.u A.src A.dst A.eW1 A.eb1 A.eW2 A.eb2 A.eg A.ebt (ix2 (0 : Fin 1) c)
      = meanE A c := by
  rw [val_main_v106_apply, val_main_v104_apply, val_main_v103_apply, val_main_v105_apply, val_main_cst_19_apply,
    val_main_cst_18_apply]
  simp only [h50, Ideal.hostDivf_def, Ideal.ofBits_def, Ideal.ofBits_zero_f32, zero_add,
    (show ∀ e, idx_main_v103 (idx_main_v104 (ix2 (0 : Fin 1) c)) e = ix2 e c from fun _ => eq_ix2 _)]
  rfl

include h50 h98

theorem globalIn_at (l : Fin 64) :
    val_main_v107 (F := Ideal) A.x A.ea A.u A.src A.dst A.eW1 A.eb1 A.eW2 A.eb2 A.eg A.ebt A.nW1 A.nb1 A.nW2 A.nb2 A.ng A.nbt (ix2 (0 : Fin 1) l)
      = gInOf A (meanE A) l := by
  unfold val_main_v107 gInOf
  by_cases h₁ : l.val < 16
  · rw [dif_pos h₁]
    exact concat_cols 0 l 0 0 l.val
  rw [dif_neg h₁]
  by_cases h₂ : l.val < 48
  · rw [dif_pos h₂]
    exact (concat_cols 0 l 1 16 (l.val - 16)).trans (nodeMean_at A h98 _)
  rw [dif_neg h₂]
  exact (concat_cols 0 l 2 48 (l.val - 48)).trans (edgeMean_at A h50 _)

-- The updated global row: two dense layers on the global row joined with the node mean and the edge mean.
theorem glob (j : Fin 16) :
    val_main_v115 (F := Ideal) A.x A.ea A.u A.src A.dst A.eW1 A.eb1 A.eW2 A.eb2 A.eg A.ebt A.nW1 A.nb1 A.nW2 A.nb2 A.ng A.nbt A.gW1 A.gb1 A.gW2 A.gb2 (ix2 (0 : Fin 1) j)
      = uOut A j := by
  rw [val_main_v115_apply, val_main_v114_apply, val_main_v112_apply, val_main_v113_apply, val_main_call5_v0_apply]
  refine dense_at (r := 0) (fun k => ?_) j
  rw [val_main_v111_apply, val_main_v110_apply, val_main_v108_apply, val_main_v109_apply, val_main_call4_v0_apply]
  exact dense_at (globalIn_at A h50 h98) k

end

variable (x0 : (⟨S50000x32, .f32⟩ : BufTy).Contents (Elt Ideal)) (x1 : (⟨S1600000x16, .f32⟩ : BufTy).Contents (Elt Ideal))
  (x2 : (⟨S1x16, .f32⟩ : BufTy).Contents (Elt Ideal)) (x3 x4 : (⟨S1600000, .i32⟩ : BufTy).Contents (Elt Ideal))
  (x5 : (⟨S96x128, .f32⟩ : BufTy).Contents (Elt Ideal)) (x6 : (⟨S128, .f32⟩ : BufTy).Contents (Elt Ideal))
  (x7 : (⟨S128x16, .f32⟩ : BufTy).Contents (Elt Ideal)) (x8 x9 x10 : (⟨S16, .f32⟩ : BufTy).Contents (Elt Ideal))
  (x11 : (⟨S64x128, .f32⟩ : BufTy).Contents (Elt Ideal)) (x12 : (⟨S128, .f32⟩ : BufTy).Contents (Elt Ideal))
  (x13 : (⟨S128x32, .f32⟩ : BufTy).Contents (Elt Ideal)) (x14 x15 x16 : (⟨S32, .f32⟩ : BufTy).Contents (Elt Ideal))
  (x17 : (⟨S64x128, .f32⟩ : BufTy).Contents (Elt Ideal)) (x18 : (⟨S128, .f32⟩ : BufTy).Contents (Elt Ideal))
  (x19 : (⟨S128x16, .f32⟩ : BufTy).Contents (Elt Ideal)) (x20 : (⟨S16, .f32⟩ : BufTy).Contents (Elt Ideal))

theorem v50_apply (hs : InRange x3) (hd : InRange x4) (e : Fin 1600000) (j : Fin 16) :
    val_main_v50 (F := Ideal) x0 x1 x2 x3 x4 x5 x6 x7 x8 x9 x10 (ix2 e j)
      = Cert.Spec.eOut (mkArgs x0 x1 x2 x3 x4 x5 x6 x7 x8 x9 x10 x11 x12 x13 x14 x15 x16 x17 x18 x19 x20) e j :=
  edge (mkArgs x0 x1 x2 x3 x4 x5 x6 x7 x8 x9 x10 x11 x12 x13 x14 x15 x16 x17 x18 x19 x20) hs hd e j

theorem v98_apply (hd : InRange x4)
    (h50 : ∀ (e : Fin 1600000) (j : Fin 16),
      val_main_v50 (F := Ideal) x0 x1 x2 x3 x4 x5 x6 x7 x8 x9 x10 (ix2 e j)
        = eOut (mkArgs x0 x1 x2 x3 x4 x5 x6 x7 x8 x9 x10 x11 x12 x13 x14 x15 x16 x17 x18 x19 x20) e j)
    (n : Fin 50000) (j : Fin 32) :
    val_main_v98 (F := Ideal) x0 x1 x2 x3 x4 x5 x6 x7 x8 x9 x10 x11 x12 x13 x14 x15 x16 (ix2 n j)
      = xOut (mkArgs x0 x1 x2 x3 x4 x5 x6 x7 x8 x9 x10 x11 x12 x13 x14 x15 x16 x17 x18 x19 x20) n j :=
  node (mkArgs x0 x1 x2 x3 x4 x5 x6 x7 x8 x9 x10 x11 x12 x13 x14 x15 x16 x17 x18 x19 x20) hd h50 n j

theorem v115_apply
    (h50 : ∀ (e : Fin 1600000) (j : Fin 16), val_main_v50 (F := Ideal) x0 x1 x2 x3 x4 x5 x6 x7 x8 x9 x10 (ix2 e j)
      = eOut (mkArgs x0 x1 x2 x3 x4 x5 x6 x7 x8 x9 x10 x11 x12 x13 x14 x15 x16 x17 x18 x19 x20) e j)
    (h98 : ∀ (n : Fin 50000) (j : Fin 32), val_main_v98 (F := Ideal) x0 x1 x2 x3 x4 x5 x6 x7 x8 x9 x10 x11 x12 x13 x14 x15 x16 (ix2 n j)
      = xOut (mkArgs x0 x1 x2 x3 x4 x5 x6 x7 x8 x9 x10 x11 x12 x13 x14 x15 x16 x17 x18 x19 x20) n j)
    (j : Fin 16) :
    val_main_v115 (F := Ideal) x0 x1 x2 x3 x4 x5 x6 x7 x8 x9 x10 x11 x12 x13 x14 x15 x16 x17 x18 x19 x20 (ix2 (0 : Fin 1) j)
      = uOut (mkArgs x0 x1 x2 x3 x4 x5 x6 x7 x8 x9 x10 x11 x12 x13 x14 x15 x16 x17 x18 x19 x20) j :=
  glob (mkArgs x0 x1 x2 x3 x4 x5 x6 x7 x8 x9 x10 x11 x12 x13 x14 x15 x16 x17 x18 x19 x20) h50 h98 j

end Cert.ReferenceIdeal.RefVal

end
-- ==== Proof.lean ====
import proofs.«422153_j62534723830204_3_alg».proof.Defs
import proofs.«422153_j62534723830204_3_alg».proof.Proof.Gen.Kernel
import proofs.«422153_j62534723830204_3_alg».proof.Proof.Gen.KernelIdeal
import proofs.«422153_j62534723830204_3_alg».proof.Proof.Gen.ReferenceIdeal
import proofs.«422153_j62534723830204_3_alg».proof.Proof.RefRun
import proofs.«422153_j62534723830204_3_alg».proof.Proof.Gen.Pre_finite_inputs
import proofs.«422153_j62534723830204_3_alg».proof.Proof.FrameRun
import proofs.«422153_j62534723830204_3_alg».proof.Proof.KernelFrameRun
import proofs.«422153_j62534723830204_3_alg».proof.Proof.KVal
import proofs.«422153_j62534723830204_3_alg».proof.Proof.PreDecode
import proofs.«422153_j62534723830204_3_alg».proof.Proof.RefE
import proofs.«422153_j62534723830204_3_alg».proof.Proof.RefX
import proofs.«422153_j62534723830204_3_alg».proof.Proof.RefU
import Idealize.ShloMosaic.Adequacy
import Idealize.ShloMosaic.Init

noncomputable section

namespace Cert.Proof

open Idealize.ShloMosaic TcCoe ValueIdx Idealize.SL.Sem Cert.KernelIdeal Cert.KernelIdeal.Gen Cert.ReferenceIdeal.RefVal

theorem frame_k : Cert.frame_Kernel := fun m ρ _ => Cert.Kernel.Frm.frame m ρ

theorem frame_ki : Cert.frame_KernelIdeal := fun m ρ _ => Frm.frame m ρ

theorem frame_ri : Cert.frame_ReferenceIdeal := fun m ρ _ =>
  (θ_run Cert.ReferenceIdeal.defs _ _).mono (fun _ h c => (h c).2.2.2) (run m ρ)

-- Both programs end at the specification's three arrays of the same arguments, index by index.
theorem algebraic : Cert.algebraic_KernelIdeal_ReferenceIdeal := by
  intro m ρ m' ρ' hpre hagree
  refine ⟨fun c => V10 m (Frm.outs m) c main_v28, fun c => V10 m (Frm.outs m) c main_v9,
    fun c => V10 m (Frm.outs m) c main_v45, Frm.run_values m ρ,
    (θ_run Cert.ReferenceIdeal.defs _ _).mono (fun _ h c => ?_) (run m' ρ')⟩
  obtain ⟨hs, hd⟩ := Val.ranges_of_pre m hpre c
  obtain ⟨h0, h1, h2, h3, h4, h5, h6, h7, h8, h9, h10, h11, h12, h13, h14, h15, h16, h17, h18, h19, h20⟩ := hagree c
  refine ⟨(h c).1.trans ?_, (h c).2.1.trans ?_, (h c).2.2.1.trans ?_, (h c).2.2.2⟩
  · rw [h0, h1, h2, h3, h4, h5, h6, h7, h8, h9, h10, h11, h12, h13, h14, h15, h16]
    funext i
    obtain ⟨n, j, rfl⟩ : ∃ (n : Fin 50000) (j : Fin 32), i = ix2 n j := ⟨i 0, i 1, eq_ix2 i⟩
    exact (v98_apply _ _ _ _ _ _ _ _ _ _ _ _ _ _ _ _ _ _ _ _ _ hd
      (v50_apply _ _ _ _ _ _ _ _ _ _ _ _ _ _ _ _ _ _ _ _ _ hs hd) n j).trans (Val.x_out_apply m c hs hd n j).symm
  · rw [h0, h1, h2, h3, h4, h5, h6, h7, h8, h9, h10]
    funext i
    obtain ⟨e, j, rfl⟩ : ∃ (e : Fin 1600000) (j : Fin 16), i = ix2 e j := ⟨i 0, i 1, eq_ix2 i⟩
    exact (v50_apply _ _ _ _ _ _ _ _ _ _ _ _ _ _ _ _ _ _ _ _ _ hs hd e j).trans (Val.e_out_apply m c hs hd e j).symm
  · rw [h0, h1, h2, h3, h4, h5, h6, h7, h8, h9, h10, h11, h12, h13, h14, h15, h16, h17, h18, h19, h20]
    funext i
    obtain ⟨z, j, rfl⟩ : ∃ (z : Fin 1) (j : Fin 16), i = ix2 z j := ⟨i 0, i 1, eq_ix2 i⟩
    obtain rfl : z = 0 := Subsingleton.elim _ _
    exact (v115_apply _ _ _ _ _ _ _ _ _ _ _ _ _ _ _ _ _ _ _ _ _ (v50_apply _ _ _ _ _ _ _ _ _ _ _ _ _ _ _ _ _ _ _ _ _ hs hd)
      (v98_apply _ _ _ _ _ _ _ _ _ _ _ _ _ _ _ _ _ _ _ _ _ hd (v50_apply _ _ _ _ _ _ _ _ _ _ _ _ _ _ _ _ _ _ _ _ _ hs hd)) j).trans (Val.u_out_apply m c hs hd j).symm

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
